-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v92)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v92) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S262144 : Shape := ⟨1, ![262144]⟩
abbrev S256x512 : Shape := ⟨2, ![256, 512]⟩
abbrev S256 : Shape := ⟨1, ![256]⟩
abbrev S512 : Shape := ⟨1, ![512]⟩
abbrev S64x256 : Shape := ⟨2, ![64, 256]⟩
abbrev S64 : Shape := ⟨1, ![64]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S262144 : S_.BroadcastsInDim S262144 (![] : Fin 0 → Fin S262144.rank)
  reducesTo_S262144_S_d0 : S262144.ReducesTo [0] S_
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_
  bcast_S_S512 : S_.BroadcastsInDim S512 (![] : Fin 0 → Fin S512.rank)
  reducesTo_S512_S_d0 : S512.ReducesTo [0] S_
  bcast_S_S64x256 : S_.BroadcastsInDim S64x256 (![] : Fin 0 → Fin S64x256.rank)
  reducesTo_S64x256_S_d0_1 : S64x256.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_arg2 : IVec S262144 32) (main_arg6 : FVec F S512 .f32) (main_arg9 : FVec F S256 .f32) (main_v46 : IVec S_ 1) (main_v49 : IVec S_ 1) : IVec S_ 1 :=
  let main_v50 : IVec S_ 1 := andi main_v46 main_v49
  let main_c_20 : IVec S_ 32 := constantI S_ 32 16384#32
  let main_v51 : IVec S262144 32 := broadcastInDim S262144 ![] bcast_S_S262144 main_c_20
  let main_v52 : IVec S262144 1 := cmpi .slt main_arg2 main_v51
  let main_c_21 : IVec S_ 1 := constantI S_ 1 1#1
  let main_v53 : IVec S_ 1 := (fun x v => Host.reduce IntOp.andi x v reducesTo_S262144_S_d0 h_S_) main_v52 main_c_21
  let main_v54 : IVec S_ 1 := andi main_v50 main_v53
  let main_v55 : FVec F S512 .f32 := Host.absf main_arg6
  let main_cst_22 : FVec F S_ .f32 := constant S_ .f32 0x00000000#32
  let main_v56 : FVec F S512 .f32 := broadcastInDim S512 ![] bcast_S_S512 main_cst_22
  let main_v57 : IVec S512 1 := cmpf .ogt main_v55 main_v56
  let main_c_23 : IVec S_ 1 := constantI S_ 1 1#1
  let main_v58 : IVec S_ 1 := (fun x v => Host.reduce IntOp.andi x v reducesTo_S512_S_d0 h_S_) main_v57 main_c_23
  let main_v59 : IVec S_ 1 := andi main_v54 main_v58
  let main_v60 : FVec F S256 .f32 := Host.absf main_arg9
  let main_cst_24 : FVec F S_ .f32 := constant S_ .f32 0x00000000#32
  let main_v61 : FVec F S256 .f32 := broadcastInDim S256 ![] bcast_S_S256 main_cst_24
  let main_v62 : IVec S256 1 := cmpf .ogt main_v60 main_v61
  let main_c_25 : IVec S_ 1 := constantI S_ 1 1#1
  let main_v63 : IVec S_ 1 := (fun x v => Host.reduce IntOp.andi x v reducesTo_S256_S_d0 h_S_) main_v62 main_c_25
  let main_v64 : IVec S_ 1 := andi main_v59 main_v63
  main_v64

def fn_part2 {F : FTy → Type} [FloatOps F] (main_arg1 : IVec S262144 32) (main_arg2 : IVec S262144 32) (main_arg6 : FVec F S512 .f32) (main_arg9 : FVec F S256 .f32) (main_v33 : IVec S_ 1) : IVec S_ 1 :=
  let main_v34 : FVec F S256 .f32 := Host.absf main_arg9
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_c_14 : IVec S_ 32 := constantI S_ 32 0#32
  let main_v39 : IVec S262144 32 := broadcastInDim S262144 ![] bcast_S_S262144 main_c_14
  let main_v40 : IVec S262144 1 := cmpi .sge main_arg1 main_v39
  let main_c_15 : IVec S_ 1 := constantI S_ 1 1#1
  let main_v41 : IVec S_ 1 := (fun x v => Host.reduce IntOp.andi x v reducesTo_S262144_S_d0 h_S_) main_v40 main_c_15
  let main_v42 : IVec S_ 1 := andi main_v38 main_v41
  let main_c_16 : IVec S_ 32 := constantI S_ 32 16384#32
  let main_v43 : IVec S262144 32 := broadcastInDim S262144 ![] bcast_S_S262144 main_c_16
  let main_v44 : IVec S262144 1 := cmpi .slt main_arg1 main_v43
  let main_c_17 : IVec S_ 1 := constantI S_ 1 1#1
  let main_v45 : IVec S_ 1 := (fun x v => Host.reduce IntOp.andi x v reducesTo_S262144_S_d0 h_S_) main_v44 main_c_17
  let main_v46 : IVec S_ 1 := andi main_v42 main_v45
  let main_c_18 : IVec S_ 32 := constantI S_ 32 0#32
  let main_v47 : IVec S262144 32 := broadcastInDim S262144 ![] bcast_S_S262144 main_c_18
  let main_v48 : IVec S262144 1 := cmpi .sge main_arg2 main_v47
  let main_c_19 : IVec S_ 1 := constantI S_ 1 1#1
  let main_v49 : IVec S_ 1 := (fun x v => Host.reduce IntOp.andi x v reducesTo_S262144_S_d0 h_S_) main_v48 main_c_19
  fn_part3 (F := F) main_arg2 main_arg6 main_arg9 main_v46 main_v49

def fn_part1 {F : FTy → Type} [FloatOps F] (main_arg1 : IVec S262144 32) (main_arg2 : IVec S262144 32) (main_arg6 : FVec F S512 .f32) (main_arg7 : FVec F S64x256 .f32) (main_arg8 : FVec F S64 .f32) (main_arg9 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S512 .f32 := Host.absf main_arg6
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S64x256 .f32 := Host.absf main_arg7
  let main_cst_8 : FVec F S_ .f32 := constant S_ .f32 0x7F800000#32
  let main_v25 : FVec F S64x256 .f32 := broadcastInDim S64x256 ![] bcast_S_S64x256 main_cst_8
  let main_v26 : IVec S64x256 1 := cmpf .olt main_v24 main_v25
  let main_c_9 : IVec S_ 1 := constantI S_ 1 1#1
  let main_v27 : IVec S_ 1 := (fun x v => Host.reduce IntOp.andi x v reducesTo_S64x256_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg1 main_arg2 main_arg6 main_arg9 main_v33

def fn {F : FTy → Type} [FloatOps F] (main_arg0 : FVec F S16384x512 .f32) (main_arg1 : IVec S262144 32) (main_arg2 : IVec S262144 32) (main_arg3 : FVec F S262144 .f32) (main_arg4 : FVec F S256x512 .f32) (main_arg5 : FVec F S256 .f32) (main_arg6 : FVec F S512 .f32) (main_arg7 : FVec F S64x256 .f32) (main_arg8 : FVec F S64 .f32) (main_arg9 : FVec F S256 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S262144 .f32 := Host.absf main_arg3
  let main_cst_0 : FVec F S_ .f32 := constant S_ .f32 0x7F800000#32
  let main_v5 : FVec F S262144 .f32 := broadcastInDim S262144 ![] bcast_S_S262144 main_cst_0
  let main_v6 : IVec S262144 1 := cmpf .olt main_v4 main_v5
  let main_c_1 : IVec S_ 1 := constantI S_ 1 1#1
  let main_v7 : IVec S_ 1 := (fun x v => Host.reduce IntOp.andi x v reducesTo_S262144_S_d0 h_S_) main_v6 main_c_1
  let main_v8 : IVec S_ 1 := andi main_v3 main_v7
  let main_v9 : FVec F S256x512 .f32 := Host.absf main_arg4
  let main_cst_2 : FVec F S_ .f32 := constant S_ .f32 0x7F800000#32
  let main_v10 : FVec F S256x512 .f32 := broadcastInDim S256x512 ![] bcast_S_S256x512 main_cst_2
  let main_v11 : IVec S256x512 1 := cmpf .olt main_v9 main_v10
  let main_c_3 : IVec S_ 1 := constantI S_ 1 1#1
  let main_v12 : IVec S_ 1 := (fun x v => Host.reduce IntOp.andi x v reducesTo_S256x512_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg1 main_arg2 main_arg6 main_arg7 main_arg8 main_arg9 main_v13 main_v16
-- ==== Kernel.lean ====
abbrev S16384x512 : Shape := ⟨2, ![16384, 512]⟩
abbrev S262144 : Shape := ⟨1, ![262144]⟩
abbrev S256x512 : Shape := ⟨2, ![256, 512]⟩
abbrev S256 : Shape := ⟨1, ![256]⟩
abbrev S512 : Shape := ⟨1, ![512]⟩
abbrev S64x256 : Shape := ⟨2, ![64, 256]⟩
abbrev S64 : Shape := ⟨1, ![64]⟩
abbrev S_ : Shape := ⟨0, ![]⟩
abbrev S16384 : Shape := ⟨1, ![16384]⟩
abbrev S262144x1 : Shape := ⟨2, ![262144, 1]⟩
abbrev S16384x16384 : Shape := ⟨2, ![16384, 16384]⟩
abbrev S262144x2 : Shape := ⟨2, ![262144, 2]⟩
abbrev S16384x1024 : Shape := ⟨2, ![16384, 1024]⟩
abbrev S1024x1024 : Shape := ⟨2, ![1024, 1024]⟩
abbrev S16384x1 : Shape := ⟨2, ![16384, 1]⟩
abbrev S1x512 : Shape := ⟨2, ![1, 512]⟩
abbrev S512x256 : Shape := ⟨2, ![512, 256]⟩
abbrev S16384x256 : Shape := ⟨2, ![16384, 256]⟩
abbrev S1024x512 : Shape := ⟨2, ![1024, 512]⟩
abbrev S1024x256 : Shape := ⟨2, ![1024, 256]⟩
abbrev S1x256 : Shape := ⟨2, ![1, 256]⟩
abbrev S256x64 : Shape := ⟨2, ![256, 64]⟩
abbrev S16384x64 : Shape := ⟨2, ![16384, 64]⟩
abbrev S1024x64 : Shape := ⟨2, ![1024, 64]⟩
abbrev S1x64 : Shape := ⟨2, ![1, 64]⟩

abbrev nBuf : Space → Nat
  | .hbm => 130
  | .vmem => 40
  | .smem => 0
  | _ => 0

abbrev hbmTy0_0 (i : Nat) : BufTy := match i % 128 with
  | 0 => ⟨S16384x512, .f32⟩
  | 1 => ⟨S262144, .i32⟩
  | 2 => ⟨S262144, .i32⟩
  | 3 => ⟨S262144, .f32⟩
  | 4 => ⟨S256x512, .f32⟩
  | 5 => ⟨S256, .f32⟩
  | 6 => ⟨S512, .f32⟩
  | 7 => ⟨S64x256, .f32⟩
  | 8 => ⟨S64, .f32⟩
  | 9 => ⟨S256, .f32⟩
  | 10 => ⟨S_, .f32⟩
  | 11 => ⟨S262144, .f32⟩
  | 12 => ⟨S_, .f32⟩
  | 13 => ⟨S16384, .f32⟩
  | 14 => ⟨S262144x1, .i32⟩
  | 15 => ⟨S16384, .f32⟩
  | 16 => ⟨S_, .f32⟩
  | 17 => ⟨S16384, .f32⟩
  | 18 => ⟨S16384, .f32⟩
  | 19 => ⟨S_, .f32⟩
  | 20 => ⟨S16384, .f32⟩
  | 21 => ⟨S262144x1, .i32⟩
  | 22 => ⟨S16384, .f32⟩
  | 23 => ⟨S_, .f32⟩
  | 24 => ⟨S16384x16384, .f32⟩
  | 25 => ⟨S_, .i32⟩
  | 26 => ⟨S262144, .i32⟩
  | 27 => ⟨S262144, .i1⟩
  | 28 => ⟨S_, .i32⟩
  | 29 => ⟨S262144, .i32⟩
  | 30 => ⟨S262144, .i32⟩
  | 31 => ⟨S262144, .i32⟩
  | 32 => ⟨S_, .i32⟩
  | 33 => ⟨S262144, .i32⟩
  | 34 => ⟨S262144, .i1⟩
  | 35 => ⟨S_, .i32⟩
  | 36 => ⟨S262144, .i32⟩
  | 37 => ⟨S262144, .i32⟩
  | 38 => ⟨S262144, .i32⟩
  | 39 => ⟨S262144x1, .i32⟩
  | 40 => ⟨S262144x1, .i32⟩
  | 41 => ⟨S262144x2, .i32⟩
  | 42 => ⟨S16384x16384, .f32⟩
  | 43 => ⟨S16384x16384, .bf16⟩
  | 44 => ⟨S16384x512, .f32⟩
  | 45 => ⟨S16384x1024, .f32⟩
  | 46 => ⟨S16384x1024, .bf16⟩
  | 47 => ⟨S16384x1024, .f32⟩
  | 48 => ⟨S16384x512, .f32⟩
  | 49 => ⟨S16384x512, .f32⟩
  | 50 => ⟨S16384x1, .f32⟩
  | 51 => ⟨S16384x512, .f32⟩
  | 52 => ⟨S16384x512, .f32⟩
  | 53 => ⟨S_, .f32⟩
  | 54 => ⟨S16384x512, .f32⟩
  | 55 => ⟨S16384x512, .f32⟩
  | 56 => ⟨S16384x512, .f32⟩
  | 57 => ⟨S16384x512, .f32⟩
  | 58 => ⟨S16384x512, .f32⟩
  | 59 => ⟨S512, .f32⟩
  | 60 => ⟨S1x512, .f32⟩
  | 61 => ⟨S16384x512, .f32⟩
  | 62 => ⟨S16384x512, .f32⟩
  | 63 => ⟨S16384x512, .f32⟩
  | 64 => ⟨S16384x1, .f32⟩
  | 65 => ⟨S16384x512, .f32⟩
  | 66 => ⟨S16384x512, .f32⟩
  | 67 => ⟨S16384x512, .f32⟩
  | 68 => ⟨S16384x512, .f32⟩
  | 69 => ⟨S16384x512, .bf16⟩
  | 70 => ⟨S512x256, .f32⟩
  | 71 => ⟨S512x256, .bf16⟩
  | 72 => ⟨S16384x256, .f32⟩
  | 73 => ⟨S1x256, .f32⟩
  | 74 => ⟨S16384x256, .f32⟩
  | 75 => ⟨S16384x256, .f32⟩
  | 76 => ⟨S16384x256, .bf16⟩
  | 77 => ⟨S16384x256, .f32⟩
  | 78 => ⟨S_, .f32⟩
  | 79 => ⟨S16384x256, .f32⟩
  | 80 => ⟨S16384x256, .f32⟩
  | 81 => ⟨S16384x256, .f32⟩
  | 82 => ⟨S16384x512, .f32⟩
  | 83 => ⟨S16384x512, .bf16⟩
  | 84 => ⟨S16384x512, .f32⟩
  | 85 => ⟨S16384x256, .f32⟩
  | 86 => ⟨S16384x256, .f32⟩
  | 87 => ⟨S16384x1, .f32⟩
  | 88 => ⟨S16384x256, .f32⟩
  | 89 => ⟨S16384x256, .f32⟩
  | 90 => ⟨S_, .f32⟩
  | 91 => ⟨S16384x256, .f32⟩
  | 92 => ⟨S16384x256, .f32⟩
  | 93 => ⟨S16384x256, .f32⟩
  | 94 => ⟨S16384x256, .f32⟩
  | 95 => ⟨S16384x256, .f32⟩
  | 96 => ⟨S256, .f32⟩
  | 97 => ⟨S1x256, .f32⟩
  | 98 => ⟨S16384x256, .f32⟩
  | 99 => ⟨S16384x256, .f32⟩
  | 100 => ⟨S16384x256, .f32⟩
  | 101 => ⟨S16384x1, .f32⟩
  | 102 => ⟨S16384x256, .f32⟩
  | 103 => ⟨S16384x256, .f32⟩
  | 104 => ⟨S16384x256, .f32⟩
  | 105 => ⟨S16384x256, .f32⟩
  | 106 => ⟨S16384x256, .bf16⟩
  | 107 => ⟨S256x64, .f32⟩
  | 108 => ⟨S256x64, .bf16⟩
  | 109 => ⟨S16384x64, .f32⟩
  | 110 => ⟨S1x64, .f32⟩
  | 111 => ⟨S16384x64, .f32⟩
  | 112 => ⟨S16384x64, .f32⟩
  | 113 => ⟨S16384x64, .bf16⟩
  | 114 => ⟨S16384x64, .f32⟩
  | 115 => ⟨S_, .f32⟩
  | 116 => ⟨S16384, .f32⟩
  | 117 => ⟨S_, .f32⟩
  | 118 => ⟨S16384, .f32⟩
  | 119 => ⟨S16384, .f32⟩
  | 120 => ⟨S16384x1, .f32⟩
  | 121 => ⟨S16384x64, .f32⟩
  | 122 => ⟨S16384x64, .f32⟩
  | 123 => ⟨S16384x64, .f32⟩
  | 124 => ⟨S_, .f32⟩
  | 125 => ⟨S16384, .f32⟩
  | 126 => ⟨S16384x1, .f32⟩
  | 127 => ⟨S16384x1, .f32⟩
  | _ => ⟨S16384x512, .f32⟩

abbrev hbmTy0_1 (i : Nat) : BufTy := match i % 128 with
  | 0 => ⟨S16384x64, .f32⟩
  | 1 => ⟨S16384x64, .f32⟩
  | _ => ⟨S16384x512, .f32⟩

abbrev hbmTy (i : Nat) : BufTy := match i / 128 with
  | 0 => hbmTy0_0 i
  | 1 => hbmTy0_1 i
  | _ => ⟨S16384x512, .f32⟩

abbrev bufTy : (tb : Table) → Fin (tcTables nBuf tb) → BufTy
  | .hbm, ⟨i, _⟩ => hbmTy i
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x512, .bf16⟩
  | .local _ .vmem, ⟨8, _⟩ => ⟨S1024x512, .bf16⟩
  | .local _ .vmem, ⟨9, _⟩ => ⟨S512x256, .bf16⟩
  | .local _ .vmem, ⟨10, _⟩ => ⟨S1024x256, .f32⟩
  | .local _ .vmem, ⟨11, _⟩ => ⟨S1024x256, .f32⟩
  | .local _ .vmem, ⟨12, _⟩ => ⟨S1024x256, .f32⟩
  | .local _ .vmem, ⟨13, _⟩ => ⟨S1024x1024, .bf16⟩
  | .local _ .vmem, ⟨14, _⟩ => ⟨S1024x1024, .bf16⟩
  | .local _ .vmem, ⟨15, _⟩ => ⟨S1024x256, .bf16⟩
  | .local _ .vmem, ⟨16, _⟩ => ⟨S1024x256, .bf16⟩
  | .local _ .vmem, ⟨17, _⟩ => ⟨S1024x256, .f32⟩
  | .local _ .vmem, ⟨18, _⟩ => ⟨S1024x256, .f32⟩
  | .local _ .vmem, ⟨19, _⟩ => ⟨S1024x256, .f32⟩
  | .local _ .vmem, ⟨20, _⟩ => ⟨S1024x1024, .bf16⟩
  | .local _ .vmem, ⟨21, _⟩ => ⟨S1024x1024, .bf16⟩
  | .local _ .vmem, ⟨22, _⟩ => ⟨S1024x512, .bf16⟩
  | .local _ .vmem, ⟨23, _⟩ => ⟨S1024x512, .bf16⟩
  | .local _ .vmem, ⟨24, _⟩ => ⟨S1024x512, .f32⟩
  | .local _ .vmem, ⟨25, _⟩ => ⟨S1024x512, .f32⟩
  | .local _ .vmem, ⟨26, _⟩ => ⟨S1024x512, .f32⟩
  | .local _ .vmem, ⟨27, _⟩ => ⟨S1024x256, .bf16⟩
  | .local _ .vmem, ⟨28, _⟩ => ⟨S1024x256, .bf16⟩
  | .local _ .vmem, ⟨29, _⟩ => ⟨S256x64, .bf16⟩
  | .local _ .vmem, ⟨30, _⟩ => ⟨S1024x64, .f32⟩
  | .local _ .vmem, ⟨31, _⟩ => ⟨S1024x64, .f32⟩
  | .local _ .vmem, ⟨32, _⟩ => ⟨S1024x64, .f32⟩
  | .local _ .vmem, ⟨33, _⟩ => ⟨S1024x1024, .bf16⟩
  | .local _ .vmem, ⟨34, _⟩ => ⟨S1024x1024, .bf16⟩
  | .local _ .vmem, ⟨35, _⟩ => ⟨S1024x64, .bf16⟩
  | .local _ .vmem, ⟨36, _⟩ => ⟨S1024x64, .bf16⟩
  | .local _ .vmem, ⟨37, _⟩ => ⟨S1024x64, .f32⟩
  | .local _ .vmem, ⟨38, _⟩ => ⟨S1024x64, .f32⟩
  | .local _ .vmem, ⟨39, _⟩ => ⟨S1024x64, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_v4 : Ref sig .tc := ⟨.hbm, 17, rfl⟩
abbrev main_v5 : Ref sig .tc := ⟨.hbm, 18, rfl⟩
abbrev main_cst_2 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_3 : Ref sig .tc := ⟨.hbm, 23, rfl⟩
abbrev main_v9 : Ref sig .tc := ⟨.hbm, 24, rfl⟩
abbrev main_c : Ref sig .tc := ⟨.hbm, 25, rfl⟩
abbrev main_v10 : Ref sig .tc := ⟨.hbm, 26, rfl⟩
abbrev main_v11 : Ref sig .tc := ⟨.hbm, 27, rfl⟩
abbrev main_c_4 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_c_5 : Ref sig .tc := ⟨.hbm, 32, rfl⟩
abbrev main_v15 : Ref sig .tc := ⟨.hbm, 33, rfl⟩
abbrev main_v16 : Ref sig .tc := ⟨.hbm, 34, rfl⟩
abbrev main_c_6 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_call0_cst : Ref sig .tc := ⟨.hbm, 78, rfl⟩
abbrev main_call0_v0 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_cst_8 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_call1_cst : Ref sig .tc := ⟨.hbm, 115, rfl⟩
abbrev main_call1_v0 : Ref sig .tc := ⟨.hbm, 116, rfl⟩
abbrev main_call1_cst_0 : Ref sig .tc := ⟨.hbm, 117, rfl⟩
abbrev main_call1_v1 : Ref sig .tc := ⟨.hbm, 118, rfl⟩
abbrev main_call1_v2 : Ref sig .tc := ⟨.hbm, 119, rfl⟩
abbrev main_call1_v3 : Ref sig .tc := ⟨.hbm, 120, rfl⟩
abbrev main_call1_v4 : Ref sig .tc := ⟨.hbm, 121, rfl⟩
abbrev main_call1_v5 : Ref sig .tc := ⟨.hbm, 122, rfl⟩
abbrev main_call1_v6 : Ref sig .tc := ⟨.hbm, 123, rfl⟩
abbrev main_call1_cst_1 : Ref sig .tc := ⟨.hbm, 124, rfl⟩
abbrev main_call1_v7 : Ref sig .tc := ⟨.hbm, 125, rfl⟩
abbrev main_call1_v8 : Ref sig .tc := ⟨.hbm, 126, rfl⟩
abbrev main_call1_v9 : Ref sig .tc := ⟨.hbm, 127, rfl⟩
abbrev main_call1_v10 : Ref sig .tc := ⟨.hbm, 128, rfl⟩
abbrev main_v92 : Ref sig .tc := ⟨.hbm, 129, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_scratch0 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc2_scratch0 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg2_1 : Ref sig .tc := ⟨.vmem, 25, rfl⟩
abbrev cc3_scratch0 : Ref sig .tc := ⟨.vmem, 26, rfl⟩
abbrev cc4_stg0_0 : Ref sig .tc := ⟨.vmem, 27, rfl⟩
abbrev cc4_stg0_1 : Ref sig .tc := ⟨.vmem, 28, rfl⟩
abbrev cc4_stg1_0 : Ref sig .tc := ⟨.vmem, 29, rfl⟩
abbrev cc4_stg2_0 : Ref sig .tc := ⟨.vmem, 30, rfl⟩
abbrev cc4_stg2_1 : Ref sig .tc := ⟨.vmem, 31, rfl⟩
abbrev cc4_scratch0 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg1_1 : Ref sig .tc := ⟨.vmem, 36, rfl⟩
abbrev cc5_stg2_0 : Ref sig .tc := ⟨.vmem, 37, rfl⟩
abbrev cc5_stg2_1 : Ref sig .tc := ⟨.vmem, 38, rfl⟩
abbrev cc5_scratch0 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem2_1 : DmaSem sig := 22
abbrev cc4_sem0_0 : DmaSem sig := 23
abbrev cc4_sem0_1 : DmaSem sig := 24
abbrev cc4_sem1_0 : DmaSem sig := 25
abbrev cc4_sem2_0 : DmaSem sig := 26
abbrev cc4_sem2_1 : DmaSem sig := 27
abbrev cc5_sem0_0 : DmaSem sig := 28
abbrev cc5_sem0_1 : DmaSem sig := 29
abbrev cc5_sem1_0 : DmaSem sig := 30
abbrev cc5_sem1_1 : DmaSem sig := 31
abbrev cc5_sem2_0 : DmaSem sig := 32
abbrev cc5_sem2_1 : DmaSem sig := 33

abbrev nD : Nat := 1
abbrev τ : Topo := Topo.v7x

variable {F : FTy → Type} [FloatOps F]

abbrev grid0 : Pipeline.Grid := ⟨3, ![16, 1, 16], ![false, false, false]⟩

def k0_cond2 (i : grid0.Coords) : BitVec 1 :=
  let arg2 : BitVec 32 := BitVec.ofNat 32 (i 2).val
  let c15_i32 : BitVec 32 := 15#32
  let v13 : BitVec 1 := Scalar.cmpi .eq arg2 c15_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![16, 1, 1], ![false, false, false]⟩

def k1_cond2 (i : grid1.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S512x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 2 → Memref sig .tc .vmem S1024x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![16, 1, 16], ![false, false, false]⟩

def k2_cond2 (i : grid2.Coords) : BitVec 1 :=
  let arg2 : BitVec 32 := BitVec.ofNat 32 (i 2).val
  let c15_i32 : BitVec 32 := 15#32
  let v13 : BitVec 1 := Scalar.cmpi .eq arg2 c15_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1024x256 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![16, 1, 16], ![false, false, false]⟩

def k3_cond2 (i : grid3.Coords) : BitVec 1 :=
  let arg2 : BitVec 32 := BitVec.ofNat 32 (i 2).val
  let c15_i32 : BitVec 32 := 15#32
  let v13 : BitVec 1 := Scalar.cmpi .eq arg2 c15_i32
  let v14 : BitVec 32 := Scalar.extui v13
  let c0_i32_8 : BitVec 32 := 0#32
  let v15 : BitVec 1 := Scalar.cmpi .ne v14 c0_i32_8
  v15

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1024x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S1024x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1024x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![16, 1, 1], ![false, false, false]⟩

def k4_cond2 (i : grid4.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S1024x256 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 1 → Memref sig .tc .vmem S256x64 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true, true]

abbrev stage4_2 : Fin 2 → Memref sig .tc .vmem S1024x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨3, ![16, 1, 16], ![false, false, false]⟩

def k5_cond2 (i : grid5.Coords) : BitVec 1 :=
  let arg2 : BitVec 32 := BitVec.ofNat 32 (i 2).val
  let c15_i32 : BitVec 32 := 15#32
  let v13 : BitVec 1 := Scalar.cmpi .eq arg2 c15_i32
  let v14 : BitVec 32 := Scalar.extui v13
  let c0_i32_8 : BitVec 32 := 0#32
  let v15 : BitVec 1 := Scalar.cmpi .ne v14 c0_i32_8
  v15

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S1024x1024 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 2 → Memref sig .tc .vmem S1024x64 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, true]

abbrev stage5_2 : Fin 2 → Memref sig .tc .vmem S1024x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]

class Facts₀ : Prop where
  bcast_S_S262144 : S_.BroadcastsInDim S262144 (![] : Fin 0 → Fin S262144.rank)
  bcast_S_S16384 : S_.BroadcastsInDim S16384 (![] : Fin 0 → Fin S16384.rank)
  bcast_S262144_S262144x1_0 : S262144.BroadcastsInDim S262144x1 (![0] : Fin 1 → Fin S262144x1.rank)
  bcast_S_S16384x16384 : S_.BroadcastsInDim S16384x16384 (![] : Fin 0 → Fin S16384x16384.rank)
  concatenates_S262144x1_S262144x1_S262144x2_d1 : Shape.Concatenates [S262144x1, S262144x1] S262144x2 1
  bitsLt_bf16_f32 : FTy.bits .bf16 < FTy.bits .f32
  concatenates_S16384x512_S16384x512_S16384x1024_d1 : Shape.Concatenates [S16384x512, S16384x512] S16384x1024 1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  slices_S16384x1024_S16384x512_0_0 : S16384x1024.Slices ![0, 0] S16384x512
  slices_S16384x1024_S16384x512_0_512 : S16384x1024.Slices ![0, 512] S16384x512
  bcast_S16384_S16384x1_0 : S16384.BroadcastsInDim S16384x1 (![0] : Fin 1 → Fin S16384x1.rank)
  bcast_S16384x1_S16384x512_0_1 : S16384x1.BroadcastsInDim S16384x512 (![0, 1] : Fin 2 → Fin S16384x512.rank)
  bcast_S_S16384x512 : S_.BroadcastsInDim S16384x512 (![] : Fin 0 → Fin S16384x512.rank)
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  transposes_S256x512_S512x256_1_0 : S256x512.Transposes [1, 0] S512x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  bcast_S_S16384x256 : S_.BroadcastsInDim S16384x256 (![] : Fin 0 → Fin S16384x256.rank)
  concatenates_S16384x256_S16384x256_S16384x512_d1 : Shape.Concatenates [S16384x256, S16384x256] S16384x512 1
  slices_S16384x512_S16384x256_0_0 : S16384x512.Slices ![0, 0] S16384x256
  slices_S16384x512_S16384x256_0_256 : S16384x512.Slices ![0, 256] S16384x256
  bcast_S16384x1_S16384x256_0_1 : S16384x1.BroadcastsInDim S16384x256 (![0, 1] : Fin 2 → Fin S16384x256.rank)
  transposes_S64x256_S256x64_1_0 : S64x256.Transposes [1, 0] S256x64
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S256x64_S256x64_0_0 : ∀ a, (![0, 0] : Fin 2 → Nat) a + S256x64.size a ≤ S256x64.size a
  h_S256x64 : 0 < S256x64.numel
  shapeCasts_S256x64_S256x64 : S256x64.ShapeCasts S256x64
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  reducesTo_S16384x64_S16384_d1 : S16384x64.ReducesTo [1] S16384
  h_S_ : 0 < S_.numel
  bcast_S16384x1_S16384x64_0_1 : S16384x1.BroadcastsInDim S16384x64 (![0, 1] : Fin 2 → Fin S16384x64.rank)
  scatter_S16384_S262144x1_S262144_n_0_0_1_wf : ScatterDims.WF S16384 S262144x1 S262144 [] [0] [0] 1
  scatter_S16384x16384_S262144x2_S262144_n_01_01_1_wf : ScatterDims.WF S16384x16384 S262144x2 S262144 [] [0, 1] [0, 1] 1
  dot_S1024x1024_S1024x1024_S1024x1024_1_0_0_1_n_n_wf : DotDims.WF S1024x1024 S1024x1024 S1024x1024 [1] [0] [0] [1] [] []
  dot_S1024x512_S512x256_S1024x256_1_0_0_1_n_n_wf : DotDims.WF S1024x512 S512x256 S1024x256 [1] [0] [0] [1] [] []
  dot_S1024x1024_S1024x256_S1024x256_1_0_0_1_n_n_wf : DotDims.WF S1024x1024 S1024x256 S1024x256 [1] [0] [0] [1] [] []
  dot_S1024x1024_S1024x512_S1024x512_1_0_0_1_n_n_wf : DotDims.WF S1024x1024 S1024x512 S1024x512 [1] [0] [0] [1] [] []
  dot_S1024x256_S256x64_S1024x64_1_0_0_1_n_n_wf : DotDims.WF S1024x256 S256x64 S1024x64 [1] [0] [0] [1] [] []
  dot_S1024x1024_S1024x64_S1024x64_1_0_0_1_n_n_wf : DotDims.WF S1024x1024 S1024x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x16384.size a
  hwx0_0 : ∀ i : grid0.Coords, EltTy.bits .bf16 = 32 ∨ (Rect.block (s := S16384x16384) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S16384x1024.size a
  hwx0_1 : ∀ i : grid0.Coords, EltTy.bits .bf16 = 32 ∨ (Rect.block (s := S16384x1024) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S16384x1024.size a
  hwx0_2 : ∀ i : grid0.Coords, EltTy.bits .f32 = 32 ∨ (Rect.block (s := S16384x1024) S1024x1024.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S16384x512.size a
  hwx1_0 : ∀ i : grid1.Coords, EltTy.bits .bf16 = 32 ∨ (Rect.block (s := S16384x512) S1024x512.size (cc1_transform_0 i) (hinb1_0 i)).WholeWords (EltTy.packing .bf16)
  hstage1_1 : ∀ j, (stage1_1 j).IsWhole
  nbuf1_1 : grid1.bufCount reads1_1 false = 1
  hreads1_1 : ∀ i i' : grid1.Coords, (∀ a, reads1_1 a = true → i a = i' a) → cc1_transform_1 i = cc1_transform_1 i'
  hinb1_1 : ∀ (i : grid1.Coords) a, (cc1_transform_1 i a + 1) * S512x256.size a ≤ S512x256.size a
  hwx1_1 : ∀ i : grid1.Coords, EltTy.bits .bf16 = 32 ∨ (Rect.block (s := S512x256) S512x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x256.size a ≤ S16384x256.size a
  hwx1_2 : ∀ i : grid1.Coords, EltTy.bits .f32 = 32 ∨ (Rect.block (s := S16384x256) S1024x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S16384x16384.size a
  hwx2_0 : ∀ i : grid2.Coords, EltTy.bits .bf16 = 32 ∨ (Rect.block (s := S16384x16384) S1024x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x256.size a ≤ S16384x256.size a
  hwx2_1 : ∀ i : grid2.Coords, EltTy.bits .bf16 = 32 ∨ (Rect.block (s := S16384x256) S1024x256.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x256.size a ≤ S16384x256.size a
  hwx2_2 : ∀ i : grid2.Coords, EltTy.bits .f32 = 32 ∨ (Rect.block (s := S16384x256) S1024x256.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x1024.size a ≤ S16384x16384.size a
  hwx3_0 : ∀ i : grid3.Coords, EltTy.bits .bf16 = 32 ∨ (Rect.block (s := S16384x16384) S1024x1024.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x512.size a ≤ S16384x512.size a
  hwx3_1 : ∀ i : grid3.Coords, EltTy.bits .bf16 = 32 ∨ (Rect.block (s := S16384x512) S1024x512.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024x512.size a ≤ S16384x512.size a
  hwx3_2 : ∀ i : grid3.Coords, EltTy.bits .f32 = 32 ∨ (Rect.block (s := S16384x512) S1024x512.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x256.size a ≤ S16384x256.size a
  hwx4_0 : ∀ i : grid4.Coords, EltTy.bits .bf16 = 32 ∨ (Rect.block (s := S16384x256) S1024x256.size (cc4_transform_0 i) (hinb4_0 i)).WholeWords (EltTy.packing .bf16)
  hstage4_1 : ∀ j, (stage4_1 j).IsWhole
  nbuf4_1 : grid4.bufCount reads4_1 false = 1
  hreads4_1 : ∀ i i' : grid4.Coords, (∀ a, reads4_1 a = true → i a = i' a) → cc4_transform_1 i = cc4_transform_1 i'
  hinb4_1 : ∀ (i : grid4.Coords) a, (cc4_transform_1 i a + 1) * S256x64.size a ≤ S256x64.size a
  hwx4_1 : ∀ i : grid4.Coords, EltTy.bits .bf16 = 32 ∨ (Rect.block (s := S256x64) S256x64.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1024x64.size a ≤ S16384x64.size a
  hwx4_2 : ∀ i : grid4.Coords, EltTy.bits .f32 = 32 ∨ (Rect.block (s := S16384x64) S1024x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1024x1024.size a ≤ S16384x16384.size a
  hwx5_0 : ∀ i : grid5.Coords, EltTy.bits .bf16 = 32 ∨ (Rect.block (s := S16384x16384) S1024x1024.size (cc5_transform_0 i) (hinb5_0 i)).WholeWords (EltTy.packing .bf16)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1024x64.size a ≤ S16384x64.size a
  hwx5_1 : ∀ i : grid5.Coords, EltTy.bits .bf16 = 32 ∨ (Rect.block (s := S16384x64) S1024x64.size (cc5_transform_1 i) (hinb5_1 i)).WholeWords (EltTy.packing .bf16)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S1024x64.size a ≤ S16384x64.size a
  hwx5_2 : ∀ i : grid5.Coords, EltTy.bits .f32 = 32 ∨ (Rect.block (s := S16384x64) S1024x64.size (cc5_transform_2 i) (hinb5_2 i)).WholeWords (EltTy.packing .f32)

variable [Facts₀]

def scatter_S16384_S262144x1_S262144_n_0_0_1 : ScatterDims S16384 S262144x1 S262144 where
  updateWindowDims := []
  insertedWindowDims := [0]
  scatterDimsToOperandDims := [0]
  indexVectorDim := 1
  wf := scatter_S16384_S262144x1_S262144_n_0_0_1_wf
def scatter_S16384x16384_S262144x2_S262144_n_01_01_1 : ScatterDims S16384x16384 S262144x2 S262144 where
  updateWindowDims := []
  insertedWindowDims := [0, 1]
  scatterDimsToOperandDims := [0, 1]
  indexVectorDim := 1
  wf := scatter_S16384x16384_S262144x2_S262144_n_01_01_1_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x256_S256x64_S1024x64_1_0_0_1_n_n : DotDims S1024x256 S256x64 S1024x64 where
  lhsContracting := [1]
  rhsContracting := [0]
  lhsNonContracting := [0]
  rhsNonContracting := [1]
  lhsBatch := []
  rhsBatch := []
  wf := dot_S1024x256_S256x64_S1024x64_1_0_0_1_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf

abbrev win0_0 : Pipeline.Window sig grid0 :=
  Pipeline.Window.ofSpec (Memref.whole main_v24) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v27) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v28) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v49) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v51) S512x256.size cc1_transform_1 reads1_1 false false 1 stage1_1 sem1_1
    hrank1 hreads1_1 hinb1_1 nbuf1_1 (Memref.isWhole_whole _) hwx1_1 hstage1_1

abbrev win1_2 : Pipeline.Window sig grid1 :=
  Pipeline.Window.ofSpec (Memref.whole main_v52) S1024x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v24) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v56) S1024x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v57) S1024x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

abbrev win3_0 : Pipeline.Window sig grid3 :=
  Pipeline.Window.ofSpec (Memref.whole main_v24) S1024x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v61) S1024x512.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v62) S1024x512.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev idle3 : Fin 3 → grid3.Coords → Bool := fun | 0 => fun _ => false | 1 => fun _ => false | 2 => fun i => !(k3_cond2 i == 1#1) | ⟨_ + 3, h⟩ => absurd h (Nat.not_lt.2 (Nat.le_add_left _ _))

abbrev win4_0 : Pipeline.Window sig grid4 :=
  Pipeline.Window.ofSpec (Memref.whole main_v83) S1024x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v85) S256x64.size cc4_transform_1 reads4_1 false false 1 stage4_1 sem4_1
    hrank4 hreads4_1 hinb4_1 nbuf4_1 (Memref.isWhole_whole _) hwx4_1 hstage4_1

abbrev win4_2 : Pipeline.Window sig grid4 :=
  Pipeline.Window.ofSpec (Memref.whole main_v86) S1024x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev idle4 : Fin 3 → grid4.Coords → Bool := fun | 0 => fun _ => false | 1 => fun _ => false | 2 => fun i => !(k4_cond2 i == 1#1) | ⟨_ + 3, h⟩ => absurd h (Nat.not_lt.2 (Nat.le_add_left _ _))

abbrev win5_0 : Pipeline.Window sig grid5 :=
  Pipeline.Window.ofSpec (Memref.whole main_v24) S1024x1024.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v90) S1024x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v91) S1024x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev idle5 : Fin 3 → grid5.Coords → Bool := fun | 0 => fun _ => false | 1 => fun _ => false | 2 => fun i => !(k5_cond2 i == 1#1) | ⟨_ + 3, h⟩ => absurd h (Nat.not_lt.2 (Nat.le_add_left _ _))

class Facts : Prop extends Facts₀ where

variable [Facts]
-- ==== ReferenceIdeal.lean ====
abbrev S16384x512 : Shape := ⟨2, ![16384, 512]⟩
abbrev S262144 : Shape := ⟨1, ![262144]⟩
abbrev S256x512 : Shape := ⟨2, ![256, 512]⟩
abbrev S256 : Shape := ⟨1, ![256]⟩
abbrev S512 : Shape := ⟨1, ![512]⟩
abbrev S64x256 : Shape := ⟨2, ![64, 256]⟩
abbrev S64 : Shape := ⟨1, ![64]⟩
abbrev S_ : Shape := ⟨0, ![]⟩
abbrev S16384 : Shape := ⟨1, ![16384]⟩
abbrev S262144x1 : Shape := ⟨2, ![262144, 1]⟩
abbrev S262144x512 : Shape := ⟨2, ![262144, 512]⟩
abbrev S1x512 : Shape := ⟨2, ![1, 512]⟩
abbrev S16384x1 : Shape := ⟨2, ![16384, 1]⟩
abbrev S512x256 : Shape := ⟨2, ![512, 256]⟩
abbrev S16384x256 : Shape := ⟨2, ![16384, 256]⟩
abbrev S1x256 : Shape := ⟨2, ![1, 256]⟩
abbrev S262144x256 : Shape := ⟨2, ![262144, 256]⟩
abbrev S256x64 : Shape := ⟨2, ![256, 64]⟩
abbrev S16384x64 : Shape := ⟨2, ![16384, 64]⟩
abbrev S1x64 : Shape := ⟨2, ![1, 64]⟩
abbrev S262144x64 : Shape := ⟨2, ![262144, 64]⟩

abbrev nBuf : Space → Nat
  | .hbm => 153
  | .vmem => 0
  | .smem => 0
  | _ => 0

abbrev hbmTy0_0 (i : Nat) : BufTy := match i % 128 with
  | 0 => ⟨S16384x512, .f32⟩
  | 1 => ⟨S262144, .i32⟩
  | 2 => ⟨S262144, .i32⟩
  | 3 => ⟨S262144, .f32⟩
  | 4 => ⟨S256x512, .f32⟩
  | 5 => ⟨S256, .f32⟩
  | 6 => ⟨S512, .f32⟩
  | 7 => ⟨S64x256, .f32⟩
  | 8 => ⟨S64, .f32⟩
  | 9 => ⟨S256, .f32⟩
  | 10 => ⟨S_, .f32⟩
  | 11 => ⟨S262144, .f32⟩
  | 12 => ⟨S_, .f32⟩
  | 13 => ⟨S16384, .f32⟩
  | 14 => ⟨S262144x1, .i32⟩
  | 15 => ⟨S16384, .f32⟩
  | 16 => ⟨S_, .f32⟩
  | 17 => ⟨S16384, .f32⟩
  | 18 => ⟨S16384, .f32⟩
  | 19 => ⟨S_, .i32⟩
  | 20 => ⟨S262144, .i32⟩
  | 21 => ⟨S262144, .i1⟩
  | 22 => ⟨S_, .i32⟩
  | 23 => ⟨S262144, .i32⟩
  | 24 => ⟨S262144, .i32⟩
  | 25 => ⟨S262144, .i32⟩
  | 26 => ⟨S262144x1, .i32⟩
  | 27 => ⟨S262144x512, .f32⟩
  | 28 => ⟨S_, .i32⟩
  | 29 => ⟨S262144, .i32⟩
  | 30 => ⟨S262144, .i1⟩
  | 31 => ⟨S_, .i32⟩
  | 32 => ⟨S262144, .i32⟩
  | 33 => ⟨S262144, .i32⟩
  | 34 => ⟨S262144, .i32⟩
  | 35 => ⟨S262144x1, .i32⟩
  | 36 => ⟨S262144x512, .f32⟩
  | 37 => ⟨S262144x512, .f32⟩
  | 38 => ⟨S262144x512, .f32⟩
  | 39 => ⟨S262144x1, .f32⟩
  | 40 => ⟨S262144x512, .f32⟩
  | 41 => ⟨S262144x512, .f32⟩
  | 42 => ⟨S_, .f32⟩
  | 43 => ⟨S16384x512, .f32⟩
  | 44 => ⟨S262144x1, .i32⟩
  | 45 => ⟨S16384x512, .f32⟩
  | 46 => ⟨S512, .f32⟩
  | 47 => ⟨S1x512, .f32⟩
  | 48 => ⟨S16384x512, .f32⟩
  | 49 => ⟨S16384x512, .f32⟩
  | 50 => ⟨S16384x512, .f32⟩
  | 51 => ⟨S16384x1, .f32⟩
  | 52 => ⟨S16384x512, .f32⟩
  | 53 => ⟨S16384x512, .f32⟩
  | 54 => ⟨S16384x512, .f32⟩
  | 55 => ⟨S16384x512, .f32⟩
  | 56 => ⟨S512x256, .f32⟩
  | 57 => ⟨S16384x256, .f32⟩
  | 58 => ⟨S1x256, .f32⟩
  | 59 => ⟨S16384x256, .f32⟩
  | 60 => ⟨S16384x256, .f32⟩
  | 61 => ⟨S262144x1, .f32⟩
  | 62 => ⟨S_, .i32⟩
  | 63 => ⟨S262144, .i32⟩
  | 64 => ⟨S262144, .i1⟩
  | 65 => ⟨S_, .i32⟩
  | 66 => ⟨S262144, .i32⟩
  | 67 => ⟨S262144, .i32⟩
  | 68 => ⟨S262144, .i32⟩
  | 69 => ⟨S262144x1, .i32⟩
  | 70 => ⟨S262144x256, .f32⟩
  | 71 => ⟨S262144x256, .f32⟩
  | 72 => ⟨S262144x256, .f32⟩
  | 73 => ⟨S_, .f32⟩
  | 74 => ⟨S16384x256, .f32⟩
  | 75 => ⟨S262144x1, .i32⟩
  | 76 => ⟨S16384x256, .f32⟩
  | 77 => ⟨S_, .f32⟩
  | 78 => ⟨S16384x256, .f32⟩
  | 79 => ⟨S16384x256, .f32⟩
  | 80 => ⟨S_, .i32⟩
  | 81 => ⟨S262144, .i32⟩
  | 82 => ⟨S262144, .i1⟩
  | 83 => ⟨S_, .i32⟩
  | 84 => ⟨S262144, .i32⟩
  | 85 => ⟨S262144, .i32⟩
  | 86 => ⟨S262144, .i32⟩
  | 87 => ⟨S262144x1, .i32⟩
  | 88 => ⟨S262144x256, .f32⟩
  | 89 => ⟨S_, .i32⟩
  | 90 => ⟨S262144, .i32⟩
  | 91 => ⟨S262144, .i1⟩
  | 92 => ⟨S_, .i32⟩
  | 93 => ⟨S262144, .i32⟩
  | 94 => ⟨S262144, .i32⟩
  | 95 => ⟨S262144, .i32⟩
  | 96 => ⟨S262144x1, .i32⟩
  | 97 => ⟨S262144x256, .f32⟩
  | 98 => ⟨S262144x256, .f32⟩
  | 99 => ⟨S262144x256, .f32⟩
  | 100 => ⟨S262144x1, .f32⟩
  | 101 => ⟨S262144x256, .f32⟩
  | 102 => ⟨S262144x256, .f32⟩
  | 103 => ⟨S_, .f32⟩
  | 104 => ⟨S16384x256, .f32⟩
  | 105 => ⟨S262144x1, .i32⟩
  | 106 => ⟨S16384x256, .f32⟩
  | 107 => ⟨S256, .f32⟩
  | 108 => ⟨S1x256, .f32⟩
  | 109 => ⟨S16384x256, .f32⟩
  | 110 => ⟨S16384x256, .f32⟩
  | 111 => ⟨S16384x256, .f32⟩
  | 112 => ⟨S16384x1, .f32⟩
  | 113 => ⟨S16384x256, .f32⟩
  | 114 => ⟨S16384x256, .f32⟩
  | 115 => ⟨S16384x256, .f32⟩
  | 116 => ⟨S16384x256, .f32⟩
  | 117 => ⟨S256x64, .f32⟩
  | 118 => ⟨S16384x64, .f32⟩
  | 119 => ⟨S1x64, .f32⟩
  | 120 => ⟨S16384x64, .f32⟩
  | 121 => ⟨S16384x64, .f32⟩
  | 122 => ⟨S262144x1, .f32⟩
  | 123 => ⟨S_, .i32⟩
  | 124 => ⟨S262144, .i32⟩
  | 125 => ⟨S262144, .i1⟩
  | 126 => ⟨S_, .i32⟩
  | 127 => ⟨S262144, .i32⟩
  | _ => ⟨S16384x512, .f32⟩

abbrev hbmTy0_1 (i : Nat) : BufTy := match i % 128 with
  | 0 => ⟨S262144, .i32⟩
  | 1 => ⟨S262144, .i32⟩
  | 2 => ⟨S262144x1, .i32⟩
  | 3 => ⟨S262144x64, .f32⟩
  | 4 => ⟨S262144x64, .f32⟩
  | 5 => ⟨S262144x64, .f32⟩
  | 6 => ⟨S_, .f32⟩
  | 7 => ⟨S16384x64, .f32⟩
  | 8 => ⟨S262144x1, .i32⟩
  | 9 => ⟨S16384x64, .f32⟩
  | 10 => ⟨S_, .f32⟩
  | 11 => ⟨S16384, .f32⟩
  | 12 => ⟨S_, .f32⟩
  | 13 => ⟨S16384, .f32⟩
  | 14 => ⟨S16384, .f32⟩
  | 15 => ⟨S16384x1, .f32⟩
  | 16 => ⟨S16384x64, .f32⟩
  | 17 => ⟨S16384x64, .f32⟩
  | 18 => ⟨S16384x64, .f32⟩
  | 19 => ⟨S_, .f32⟩
  | 20 => ⟨S16384, .f32⟩
  | 21 => ⟨S16384x1, .f32⟩
  | 22 => ⟨S16384x1, .f32⟩
  | 23 => ⟨S16384x64, .f32⟩
  | 24 => ⟨S16384x64, .f32⟩
  | _ => ⟨S16384x512, .f32⟩

abbrev hbmTy (i : Nat) : BufTy := match i / 128 with
  | 0 => hbmTy0_0 i
  | 1 => hbmTy0_1 i
  | _ => ⟨S16384x512, .f32⟩

abbrev bufTy : (tb : Table) → Fin (tcTables nBuf tb) → BufTy
  | .hbm, ⟨i, _⟩ => hbmTy i
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_v4 : Ref sig .tc := ⟨.hbm, 17, rfl⟩
abbrev main_v5 : Ref sig .tc := ⟨.hbm, 18, rfl⟩
abbrev main_c : Ref sig .tc := ⟨.hbm, 19, rfl⟩
abbrev main_v6 : Ref sig .tc := ⟨.hbm, 20, rfl⟩
abbrev main_v7 : Ref sig .tc := ⟨.hbm, 21, rfl⟩
abbrev main_c_2 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c_3 : Ref sig .tc := ⟨.hbm, 28, rfl⟩
abbrev main_v13 : Ref sig .tc := ⟨.hbm, 29, rfl⟩
abbrev main_v14 : Ref sig .tc := ⟨.hbm, 30, rfl⟩
abbrev main_c_4 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_c_6 : Ref sig .tc := ⟨.hbm, 62, rfl⟩
abbrev main_v44 : Ref sig .tc := ⟨.hbm, 63, rfl⟩
abbrev main_v45 : Ref sig .tc := ⟨.hbm, 64, rfl⟩
abbrev main_c_7 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_8 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_call0_cst : Ref sig .tc := ⟨.hbm, 77, rfl⟩
abbrev main_call0_v0 : Ref sig .tc := ⟨.hbm, 78, rfl⟩
abbrev main_v56 : Ref sig .tc := ⟨.hbm, 79, rfl⟩
abbrev main_c_9 : Ref sig .tc := ⟨.hbm, 80, rfl⟩
abbrev main_v57 : Ref sig .tc := ⟨.hbm, 81, rfl⟩
abbrev main_v58 : Ref sig .tc := ⟨.hbm, 82, rfl⟩
abbrev main_c_10 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_c_11 : Ref sig .tc := ⟨.hbm, 89, rfl⟩
abbrev main_v64 : Ref sig .tc := ⟨.hbm, 90, rfl⟩
abbrev main_v65 : Ref sig .tc := ⟨.hbm, 91, rfl⟩
abbrev main_c_12 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_cst_13 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_c_14 : Ref sig .tc := ⟨.hbm, 123, rfl⟩
abbrev main_v95 : Ref sig .tc := ⟨.hbm, 124, rfl⟩
abbrev main_v96 : Ref sig .tc := ⟨.hbm, 125, rfl⟩
abbrev main_c_15 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_cst_16 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_call1_cst : Ref sig .tc := ⟨.hbm, 138, rfl⟩
abbrev main_call1_v0 : Ref sig .tc := ⟨.hbm, 139, rfl⟩
abbrev main_call1_cst_0 : Ref sig .tc := ⟨.hbm, 140, rfl⟩
abbrev main_call1_v1 : Ref sig .tc := ⟨.hbm, 141, rfl⟩
abbrev main_call1_v2 : Ref sig .tc := ⟨.hbm, 142, rfl⟩
abbrev main_call1_v3 : Ref sig .tc := ⟨.hbm, 143, rfl⟩
abbrev main_call1_v4 : Ref sig .tc := ⟨.hbm, 144, rfl⟩
abbrev main_call1_v5 : Ref sig .tc := ⟨.hbm, 145, rfl⟩
abbrev main_call1_v6 : Ref sig .tc := ⟨.hbm, 146, rfl⟩
abbrev main_call1_cst_1 : Ref sig .tc := ⟨.hbm, 147, rfl⟩
abbrev main_call1_v7 : Ref sig .tc := ⟨.hbm, 148, rfl⟩
abbrev main_call1_v8 : Ref sig .tc := ⟨.hbm, 149, rfl⟩
abbrev main_call1_v9 : Ref sig .tc := ⟨.hbm, 150, rfl⟩
abbrev main_call1_v10 : Ref sig .tc := ⟨.hbm, 151, rfl⟩
abbrev main_v107 : Ref sig .tc := ⟨.hbm, 152, rfl⟩

abbrev nD : Nat := 1
abbrev τ : Topo := Topo.v7x

variable {F : FTy → Type} [FloatOps F]

class Facts₀ : Prop where
  bcast_S_S262144 : S_.BroadcastsInDim S262144 (![] : Fin 0 → Fin S262144.rank)
  bcast_S_S16384 : S_.BroadcastsInDim S16384 (![] : Fin 0 → Fin S16384.rank)
  bcast_S262144_S262144x1_0 : S262144.BroadcastsInDim S262144x1 (![0] : Fin 1 → Fin S262144x1.rank)
  bcast_S262144x1_S262144x512_0_1 : S262144x1.BroadcastsInDim S262144x512 (![0, 1] : Fin 2 → Fin S262144x512.rank)
  bcast_S_S16384x512 : S_.BroadcastsInDim S16384x512 (![] : Fin 0 → Fin S16384x512.rank)
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  bcast_S16384_S16384x1_0 : S16384.BroadcastsInDim S16384x1 (![0] : Fin 1 → Fin S16384x1.rank)
  bcast_S16384x1_S16384x512_0_1 : S16384x1.BroadcastsInDim S16384x512 (![0, 1] : Fin 2 → Fin S16384x512.rank)
  transposes_S256x512_S512x256_1_0 : S256x512.Transposes [1, 0] S512x256
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  bcast_S262144x1_S262144x256_0_1 : S262144x1.BroadcastsInDim S262144x256 (![0, 1] : Fin 2 → Fin S262144x256.rank)
  bcast_S_S16384x256 : S_.BroadcastsInDim S16384x256 (![] : Fin 0 → Fin S16384x256.rank)
  bcast_S16384x1_S16384x256_0_1 : S16384x1.BroadcastsInDim S16384x256 (![0, 1] : Fin 2 → Fin S16384x256.rank)
  transposes_S64x256_S256x64_1_0 : S64x256.Transposes [1, 0] S256x64
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  bcast_S262144x1_S262144x64_0_1 : S262144x1.BroadcastsInDim S262144x64 (![0, 1] : Fin 2 → Fin S262144x64.rank)
  bcast_S_S16384x64 : S_.BroadcastsInDim S16384x64 (![] : Fin 0 → Fin S16384x64.rank)
  reducesTo_S16384x64_S16384_d1 : S16384x64.ReducesTo [1] S16384
  h_S_ : 0 < S_.numel
  bcast_S16384x1_S16384x64_0_1 : S16384x1.BroadcastsInDim S16384x64 (![0, 1] : Fin 2 → Fin S16384x64.rank)
  scatter_S16384_S262144x1_S262144_n_0_0_1_wf : ScatterDims.WF S16384 S262144x1 S262144 [] [0] [0] 1
  gather_S16384x512_S262144x1_S262144x512_1_0_n_n_0_1_1512_wf : GatherDims.WF S16384x512 S262144x1 S262144x512 [1] [0] [] [0] [] 1 ![1, 512]
  scatter_S16384x512_S262144x1_S262144x512_1_0_0_1_wf : ScatterDims.WF S16384x512 S262144x1 S262144x512 [1] [0] [0] 1
  dot_S16384x512_S512x256_S16384x256_1_0_0_1_n_n_wf : DotDims.WF S16384x512 S512x256 S16384x256 [1] [0] [0] [1] [] []
  gather_S16384x256_S262144x1_S262144x256_1_0_n_n_0_1_1256_wf : GatherDims.WF S16384x256 S262144x1 S262144x256 [1] [0] [] [0] [] 1 ![1, 256]
  scatter_S16384x256_S262144x1_S262144x256_1_0_0_1_wf : ScatterDims.WF S16384x256 S262144x1 S262144x256 [1] [0] [0] 1
  dot_S16384x256_S256x64_S16384x64_1_0_0_1_n_n_wf : DotDims.WF S16384x256 S256x64 S16384x64 [1] [0] [0] [1] [] []
  gather_S16384x64_S262144x1_S262144x64_1_0_n_n_0_1_164_wf : GatherDims.WF S16384x64 S262144x1 S262144x64 [1] [0] [] [0] [] 1 ![1, 64]
  scatter_S16384x64_S262144x1_S262144x64_1_0_0_1_wf : ScatterDims.WF S16384x64 S262144x1 S262144x64 [1] [0] [0] 1

variable [Facts₀]

def scatter_S16384_S262144x1_S262144_n_0_0_1 : ScatterDims S16384 S262144x1 S262144 where
  updateWindowDims := []
  insertedWindowDims := [0]
  scatterDimsToOperandDims := [0]
  indexVectorDim := 1
  wf := scatter_S16384_S262144x1_S262144_n_0_0_1_wf
def gather_S16384x512_S262144x1_S262144x512_1_0_n_n_0_1_1512 : GatherDims S16384x512 S262144x1 S262144x512 where
  offsetDims := [1]
  collapsedSliceDims := [0]
  operandBatchingDims := []
  startIndicesBatchingDims := []
  startIndexMap := [0]
  indexVectorDim := 1
  sliceSizes := ![1, 512]
  wf := gather_S16384x512_S262144x1_S262144x512_1_0_n_n_0_1_1512_wf
def scatter_S16384x512_S262144x1_S262144x512_1_0_0_1 : ScatterDims S16384x512 S262144x1 S262144x512 where
  updateWindowDims := [1]
  insertedWindowDims := [0]
  scatterDimsToOperandDims := [0]
  indexVectorDim := 1
  wf := scatter_S16384x512_S262144x1_S262144x512_1_0_0_1_wf
def dot_S16384x512_S512x256_S16384x256_1_0_0_1_n_n : DotDims S16384x512 S512x256 S16384x256 where
  lhsContracting := [1]
  rhsContracting := [0]
  lhsNonContracting := [0]
  rhsNonContracting := [1]
  lhsBatch := []
  rhsBatch := []
  wf := dot_S16384x512_S512x256_S16384x256_1_0_0_1_n_n_wf
def gather_S16384x256_S262144x1_S262144x256_1_0_n_n_0_1_1256 : GatherDims S16384x256 S262144x1 S262144x256 where
  offsetDims := [1]
  collapsedSliceDims := [0]
  operandBatchingDims := []
  startIndicesBatchingDims := []
  startIndexMap := [0]
  indexVectorDim := 1
  sliceSizes := ![1, 256]
  wf := gather_S16384x256_S262144x1_S262144x256_1_0_n_n_0_1_1256_wf
def scatter_S16384x256_S262144x1_S262144x256_1_0_0_1 : ScatterDims S16384x256 S262144x1 S262144x256 where
  updateWindowDims := [1]
  insertedWindowDims := [0]
  scatterDimsToOperandDims := [0]
  indexVectorDim := 1
  wf := scatter_S16384x256_S262144x1_S262144x256_1_0_0_1_wf
def dot_S16384x256_S256x64_S16384x64_1_0_0_1_n_n : DotDims S16384x256 S256x64 S16384x64 where
  lhsContracting := [1]
  rhsContracting := [0]
  lhsNonContracting := [0]
  rhsNonContracting := [1]
  lhsBatch := []
  rhsBatch := []
  wf := dot_S16384x256_S256x64_S16384x64_1_0_0_1_n_n_wf
def gather_S16384x64_S262144x1_S262144x64_1_0_n_n_0_1_164 : GatherDims S16384x64 S262144x1 S262144x64 where
  offsetDims := [1]
  collapsedSliceDims := [0]
  operandBatchingDims := []
  startIndicesBatchingDims := []
  startIndexMap := [0]
  indexVectorDim := 1
  sliceSizes := ![1, 64]
  wf := gather_S16384x64_S262144x1_S262144x64_1_0_n_n_0_1_164_wf
def scatter_S16384x64_S262144x1_S262144x64_1_0_0_1 : ScatterDims S16384x64 S262144x1 S262144x64 where
  updateWindowDims := [1]
  insertedWindowDims := [0]
  scatterDimsToOperandDims := [0]
  indexVectorDim := 1
  wf := scatter_S16384x64_S262144x1_S262144x64_1_0_0_1_wf

class Facts : Prop extends Facts₀ where

variable [Facts]
-- ==== Proof.K.R0.lean ====
/- Region 0: a block product accumulated along the last grid axis into a scratch that is stored out at the axis's
   last step. The proof data over the entry contents `V`, the body run once for every point, and the recurrences
   the scratch obeys. -/
import proofs.«401501_j17162689315356_1_alg».proof.Proof.Gen.Kernel.Launch
import proofs.«401501_j17162689315356_1_alg».proof.Proof.Gen.Kernel.Skeleton
import proofs.«401501_j17162689315356_1_alg».proof.Proof.Gen.Kernel.Points
import Idealize.ShloMosaic.Lib.Pipeline.Value
import Idealize.ShloMosaic.Lib.Ring
import Idealize.ShloMosaic.Lib.Tactic

noncomputable section

namespace Cert.Kernel.Hand

open Cert.Kernel.Gen
open Idealize.ShloMosaic Idealize.ShloMosaic.TcCoe
open Idealize.SL Idealize.SL.RA Idealize.SL.BI Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD)

def iblk0 (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev cond0_0 (i : grid0.Coords) : Prop := (Scalar.cmpi .ne (Scalar.extui (Scalar.cmpi .eq (BitVec.ofNat 32 (i 2).val) 0#32)) 0#32) = 1#1
abbrev cond0_1 (i : grid0.Coords) : Prop := k0_cond2 i = 1#1

theorem hcond0_0 : ∀ t : Fin cfg0.N, cond0_0 (grid0.coords t) ↔ t.val % 16 = 0 :=
  (by decide +kernel : ∀ t : Fin grid0.N, cond0_0 (grid0.coords t) ↔ t.val % 16 = 0)

theorem idleAt0_2 : ∀ t : Fin cfg0.N, if cond0_1 (grid0.coords t) then cfg0.idle 2 (grid0.coords t) = false
    else cfg0.idle 2 (grid0.coords t) = true ∧ (cfg0.win 2).flush t = false := by decide +kernel

theorem hz0 : (![0, 0] : Fin 2 → Nat) = fun _ => 0 := funext fun a => by fin_cases a <;> rfl

-- A store of a whole block, made last, is what the buffer then reads.
theorem cover0_read {S : Shape} {e : EltTy} {sig' : RefSig} {κ : Kind} {sp : Space} (v : View sig' κ sp S e) (f : v.ty.Contents (Elt F))
    {off : Fin S.rank → ℕ} (hz : off = fun _ => 0) (inb : ∀ a, off a + S.size a ≤ S.size a) (w : S.Idx → Elt F e)
    (L : List (View.Piece (Elt F) S e)) : v.read (Elt F) (v.writes (Elt F) f (⟨Rect.unit off S.size inb, w⟩ :: L)) = w :=
  (View.read_writes_eq_canon _ _ _ fun y => ⟨_, List.mem_cons_self, View.mem_set_unit_zero hz inb y⟩).trans
    (View.canon_cons_unit_zero hz inb w L)

-- The body at any grid point: the scratch, reset under the first condition, takes the block product; under the second it is copied out.
theorem kernelRun0_A (i : grid0.Coords) {m0 : Memref sig .tc .vmem S1024x1024 .bf16} {m1 : Memref sig .tc .vmem S1024x1024 .bf16}
    {m2 m3 : Memref sig .tc .vmem S1024x1024 .f32} (h0 : m0.IsWhole) (h1 : m1.IsWhole) (h2 : m2.IsWhole) (h3 : m3.IsWhole)
    (x0 : Vec F S1024x1024 .bf16) (x1 : Vec F S1024x1024 .bf16) (xo xs s : Vec F S1024x1024 .f32)
    (hs : s = k0_pay2 (if cond0_0 i then k0_pay1 (F := F) else xs) x0 x1) (E : Set ℕ) (K : PUnit → sProp 𝕄) :
    iprop(owns c.tc m0 fullShare x0 ∗ owns c.tc m1 fullShare x1 ∗ owns c.tc m2 fullShare xo ∗ owns c.tc m3 fullShare xs
        ∗ (iprop(owns c.tc m0 fullShare x0 ∗ owns c.tc m1 fullShare x1 ∗ owns c.tc m2 fullShare (if cond0_1 i then s else xo)
            ∗ owns c.tc m3 fullShare s) -∗ K ⟨⟩))
      ⊢ wp frame (wpE (defs₀ (F := F)) Variants.none c none) E (cc0__matmul_kernel i m0 h0 m1 h1 m2 h2 m3 h3) K := by
  subst hs; split_ifs
  all_goals
    simp only [cc0__matmul_kernel_eq_skeleton]; unfold cc0__matmul_kernel_skel owns
    iintro ⟨⟨%f0, %e0, H0⟩, ⟨%f1, %e1, H1⟩, ⟨%fo, %eo, HO⟩, ⟨%fs, %es, HS⟩, Hk⟩
    sl_exec
    sl_step
    iapply Hk
    isplitl [H0]; iexists _; isplitr; swap; iexact H0; rotate_left
    isplitl [H1]; iexists _; isplitr; swap; iexact H1; rotate_left
    isplitl [HO]; iexists _; isplitr; swap; iexact HO; rotate_left
    iexists _; isplitr; swap; iexact HS
    all_goals
      ipureintro; try sl_unfold_words
      simp only [cover0_read (S := S1024x1024) _ _ hz0, View.readCov_cons_toLoadRect, View.readAt_eq_ld,
        e0, e1, eo, es, View.ld_unit_zero (S := S1024x1024) hz0, View.ld_unit_zero (S := S1024x1024) hz0]

def accAt0 : (n : ℕ) → n < cfg0.N → Vec F S1024x1024 .f32
  | 0, hn => k0_pay2 (k0_pay1 (F := F)) (iblk0 V c 0 ⟨0, hn⟩) (iblk0 V c 1 ⟨0, hn⟩)
  | n + 1, hn =>
    k0_pay2 (if (n + 1) % 16 = 0 then k0_pay1 (F := F) else accAt0 n (Nat.lt_of_succ_lt hn))
      (iblk0 V c 0 ⟨n + 1, hn⟩) (iblk0 V c 1 ⟨n + 1, hn⟩)

def outsAt0 : (n : ℕ) → n < cfg0.N → Vec F S1024x1024 .f32 × Vec F S1024x1024 .f32 :=
  fun n hn => (accAt0 V c n hn, accAt0 V c n hn)

theorem sc0_first (t : Fin cfg0.N) (h : t.val % 16 = 0) :
    (outsAt0 V c t.val t.isLt).2 = k0_pay2 (k0_pay1 (F := F)) (iblk0 V c 0 t) (iblk0 V c 1 t) := by
  obtain ⟨_ | n, hn⟩ := t
  · rfl
  · show k0_pay2 (if _ then _ else _) _ _ = _; rw [if_pos h]

theorem sc0_next (t : Fin cfg0.N) (h : t.val % 16 ≠ 0) :
    (outsAt0 V c t.val t.isLt).2 = k0_pay2 (outsAt0 V c (t.val - 1) (Nat.lt_of_le_of_lt (Nat.sub_le _ _) t.isLt)).2 (iblk0 V c 0 t) (iblk0 V c 1 t) := by
  obtain ⟨_ | n, hn⟩ := t
  · exact absurd (Nat.zero_mod _) h
  · show k0_pay2 (if _ then _ else _) _ _ = _; rw [if_neg h]; rfl

theorem out0_last (t : Fin cfg0.N) (h : t.val % 16 = 15) :
    (outsAt0 V c t.val t.isLt).1 = (outsAt0 V c t.val t.isLt).2 := rfl

-- The scratch before position n: at anything before the first point, afterwards at what the point before left.
def PhiS0 (n : ℕ) (hn : n ≤ cfg0.N) : sProp 𝕄 :=
  iprop(iprop(iprop(∃ a, ⌜∀ h : n ≠ 0, a = accAt0 V c (n - 1) (by omega)⌝ ∗ owns c.tc (Memref.whole cc0_scratch0) fullShare a)
      ∗ Pipeline.scopedRestBut spec0 c [cc0_scratch0]) ∗ (∃ r, prngReg c r))

def dat0 : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (w : Fin cfg0.W) : (dat0 V c).A w = V c (Pipeline.arrRef spec0 w) := rfl

theorem after0_2 (t : Fin cfg0.N) : (dat0 V c).after 2 t = (outsAt0 V c t.val t.isLt).1 := rfl

theorem before0_0 (t : Fin cfg0.N) (d) : (dat0 V c).before 0 t d = iblk0 V c 0 t :=
  (dat0 V c).before_in_eq_fetched 0 rfl (fun _ => rfl) (fun _ _ _ => rfl) (fun _ => rfl) t d
theorem before0_1 (t : Fin cfg0.N) (d) : (dat0 V c).before 1 t d = iblk0 V c 1 t :=
  (dat0 V c).before_in_eq_fetched 1 rfl (fun _ => rfl) (fun _ _ _ => rfl) (fun _ => rfl) t d

-- Where the second condition holds the output is left at the scratch, elsewhere as it was found.
theorem after0_out (t : Fin cfg0.N) (d) :
    owns c.tc (win0_2.stage (cfg0.slots t 2)) fullShare
        (if cond0_1 (grid0.coords t) then (outsAt0 V c t.val t.isLt).2 else (dat0 V c).before 2 t d) ⊢ (dat0 V c).leavesExact 2 t := by
  have hi := idleAt0_2 t
  split_ifs at hi ⊢
  · unfold Dat.leavesExact; rw [hi]; exact .rfl
  · rw [Dat.leavesExact_idle _ 2 t hi.1 hi.2]; iintro H; iexists d; iexact H

theorem PhiS0_eq (t : Fin (cfg0.N + 1)) : (dat0 V c).Φ t = PhiS0 V c t.val (Nat.le_of_lt_succ t.isLt) := rfl

theorem body_obligation0 : BodyObligation (dat0 (F := F) V c) (defs₀ (F := F)) Variants.none () Set.univ := fun t => by
  rw [bigSep_W0, bigSep_W0]
  simp only [before0_0, before0_1, PhiS0_eq, PhiS0]
  sl_whnfR [defs₀, Defs.onTc]
  iintro ⟨⟨⟨⟨%a, %ha, HS⟩, HR⟩, Hg⟩, Ho, ⟨%d0, H0⟩, ⟨%d1, H1⟩, ⟨%d2, H2⟩⟩
  have key : (outsAt0 V c t.val t.isLt).2
      = k0_pay2 (if cond0_0 (grid0.coords t) then k0_pay1 (F := F) else a) (iblk0 V c 0 t) (iblk0 V c 1 t) := by
    by_cases h : t.val % 16 = 0
    · rw [if_pos ((hcond0_0 t).mpr h)]; exact sc0_first V c t h
    · rw [if_neg fun hc => h ((hcond0_0 t).mp hc), ha fun e => h (by rw [show t.val = 0 from e])]; exact sc0_next V c t h
  iapply (kernelRun0_A c (grid0.coords t) _ _ _ _ _ _ ((dat0 V c).before 2 t d2) _ _ key Set.univ _)
  iframe H0 H1 H2 HS
  iintro ⟨H0, H1, H2, HS⟩
  isplitl [HS HR Hg]
  · iframe HR Hg; iexists _; isplitr; swap; · iexact HS
    ipureintro; exact fun _ => rfl
  isplitl [Ho]; · iexact Ho
  isplitl [H0]; · iexact H0
  isplitl [H1]; · iexact H1
  iapply (after0_out V c t d2); iexact H2

theorem hin0 : (Pipeline.ΦA spec0 c : sProp 𝕄) ⊢ (dat0 V c).Φ 0 := by
  simp only [Pipeline.ΦA, scopedRest0_split, ← owns_whole c.tc cc0_scratch0, PhiS0_eq, PhiS0]
  iintro ⟨⟨⟨%a, HS⟩, HR⟩, Hg⟩
  iframe HR Hg
  iexists a; isplitr; · ipureintro; exact fun h => absurd rfl h
  iexact HS

theorem hout0 : (dat0 V c).Φ (Fin.last cfg0.N) ⊢ (Pipeline.ΦA spec0 c : sProp 𝕄) := by
  simp only [Pipeline.ΦA, scopedRest0_split, ← owns_whole c.tc cc0_scratch0, PhiS0_eq, PhiS0]
  iintro ⟨⟨⟨%a, -, HS⟩, HR⟩, Hg⟩
  iframe HR Hg
  iexists a; iexact HS

end Cert.Kernel.Hand

end
-- ==== Proof.K.R1.lean ====
/- Region 1 of @main: at every grid point the output block is the zero block plus the product of the two input
   blocks (the last grid axis has one step). The region's proof data, its body obligation, and that block. -/
import proofs.«401501_j17162689315356_1_alg».proof.Proof.Gen.Kernel.Launch
import proofs.«401501_j17162689315356_1_alg».proof.Proof.Gen.Kernel.Skeleton
import proofs.«401501_j17162689315356_1_alg».proof.Proof.Gen.Kernel.Points
import Idealize.ShloMosaic.Lib.Pipeline.Value
import Idealize.ShloMosaic.Lib.Ring
import Idealize.ShloMosaic.Lib.Tactic

noncomputable section

namespace Cert.Kernel.Hand

open Cert.Kernel.Gen
open Idealize.ShloMosaic Idealize.ShloMosaic.TcCoe
open Idealize.SL Idealize.SL.RA Idealize.SL.BI Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD)

/-- The body's two conditions on the last grid coordinate; both hold at every point. -/
abbrev cond1_0 (i : grid1.Coords) : Prop :=
  Scalar.cmpi .ne (Scalar.extui (Scalar.cmpi .eq (BitVec.ofNat 32 (i 2).val) 0#32)) 0#32 = 1#1 ∧ k1_cond2 i = 1#1

theorem hcond1_0 : ∀ t : Fin cfg1.N, cond1_0 (grid1.coords t) := by decide +kernel

theorem liveAt1_2 : ∀ t : Fin cfg1.N, cfg1.idle 2 (grid1.coords t) = false := by decide +kernel

theorem hz1 : (![0, 0] : Fin 2 → Nat) = fun _ => 0 := funext fun a => by fin_cases a <;> rfl

/-- With both conditions true the body leaves `0 + xa · xb` (as `k1_pay2 k1_pay1 xa xb`) in the output and the inputs as they were. -/
theorem kernelRun1 (i : grid1.Coords) (arg3 : Memref sig .tc .vmem S1024x512 .bf16) (harg3 : arg3.IsWhole) (arg4 : Memref sig .tc .vmem S512x256 .bf16) (harg4 : arg4.IsWhole) (arg5 : Memref sig .tc .vmem S1024x256 .f32) (harg5 : arg5.IsWhole) (arg6 : Memref sig .tc .vmem S1024x256 .f32) (harg6 : arg6.IsWhole) (hc : cond1_0 i)
    (xa : Vec F S1024x512 .bf16) (xb : Vec F S512x256 .bf16) (K : PUnit → sProp 𝕄) :
    iprop(owns (c : Thread nD τ) arg3 fullShare xa ∗ owns (c : Thread nD τ) arg4 fullShare xb ∗ (∃ d, owns (c : Thread nD τ) arg5 fullShare d) ∗ (∃ d, owns (c : Thread nD τ) arg6 fullShare d)
        ∗ (iprop(owns (c : Thread nD τ) arg3 fullShare xa ∗ owns (c : Thread nD τ) arg4 fullShare xb ∗ owns (c : Thread nD τ) arg5 fullShare (k1_pay2 (k1_pay1 (F := F)) xa xb) ∗ (∃ d, owns (c : Thread nD τ) arg6 fullShare d)) -∗ K ⟨⟩))
      ⊢ wp frame (wpE (defs₀ (F := F)) Variants.none c none) Set.univ (cc1__matmul_kernel i arg3 harg3 arg4 harg4 arg5 harg5 arg6 harg6) K := by
  simp only [cc1__matmul_kernel_eq_skeleton]; unfold cc1__matmul_kernel_skel
  unfold owns
  iintro ⟨⟨%fa, %hfa, Ha⟩, ⟨%fb, %hfb, Hb⟩, ⟨%dO, %fO, -, HO⟩, ⟨%dS, %fS, -, HS⟩, Hk⟩
  obtain rfl := harg3.eq_unread hfa; obtain rfl := harg4.eq_unread hfb
  sl_exec (disch := first | exact hc.1 | exact hc.2)
  sl_step
  iapply Hk
  isplitl [Ha]
  · iexists _; isplitr; · ipureintro; exact harg3.read_unread _
    iexact Ha
  isplitl [Hb]
  · iexists _; isplitr; · ipureintro; exact harg4.read_unread _
    iexact Hb
  isplitl [HO]
  · iexists _; isplitr; swap; · iexact HO
    ipureintro; sl_unfold_words
    rw [View.read_writes_eq_canon _ _ _ fun y => ⟨_, List.mem_cons_self, View.mem_set_unit_zero hz1 inb_S1024x256_S1024x256_0_0 y⟩,
      View.canon_unit_zero hz1, View.readCov_cons_toLoadRect, View.readCov_cons_toLoadRect]
    simp only [View.readAt_eq_ld, harg3.read_unread, harg4.read_unread, View.ld_unit_zero (S := S1024x512) hz1,
      View.ld_unit_zero (S := S512x256) hz1]
  iexists _, _; isplitr; swap; · iexact HS
  ipureintro; rfl

/-- Window `w`'s block at point `t` of the array contents `V`. -/
def iblk1 (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the step at position `n` leaves (output block, accumulator): the product of its two input blocks. -/
def outsAt1 : (n : ℕ) → n < cfg1.N → Vec F S1024x256 .f32 × Vec F S1024x256 .f32 :=
  fun n hn => let y := k1_pay2 (k1_pay1 (F := F)) (iblk1 V c 0 ⟨n, hn⟩) (iblk1 V c 1 ⟨n, hn⟩); (y, y)

/-- The region's proof data: no point depends on the one before, so the invariant is the same at every point. -/
def dat1 : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ _ := Pipeline.ΦA spec1 c
  q _ := fullShare
  owed _ := 0

theorem A_eq1 (w : Fin cfg1.W) : (dat1 V c).A w = V c (Pipeline.arrRef spec1 w) := rfl

theorem after1_0 (t : Fin cfg1.N) : (dat1 V c).after 0 t = iblk1 V c 0 t := by dsimp only [dat1]
theorem after1_1 (t : Fin cfg1.N) : (dat1 V c).after 1 t = iblk1 V c 1 t := by dsimp only [dat1]
theorem after1_2 (t : Fin cfg1.N) : (dat1 V c).after 2 t = (outsAt1 V c t.val t.isLt).1 := by dsimp only [dat1]

theorem out1_step (t : Fin cfg1.N) :
    (outsAt1 V c t.val t.isLt).1 = k1_pay2 (k1_pay1 (F := F)) (iblk1 V c 0 t) (iblk1 V c 1 t) := rfl

theorem Phi1_eq (t : Fin (cfg1.N + 1)) : (dat1 V c).Φ t = (Pipeline.ΦA spec1 c : sProp 𝕄) := rfl

theorem hin1 : (Pipeline.ΦA spec1 c : sProp 𝕄) ⊢ (dat1 V c).Φ 0 := by rw [Phi1_eq]

theorem hout1 : (dat1 V c).Φ (Fin.last cfg1.N) ⊢ (Pipeline.ΦA spec1 c : sProp 𝕄) := by rw [Phi1_eq]

/-- At every point the body finds each input window at the array's block there. -/
theorem before1_0 (t : Fin cfg1.N) (d) : (dat1 V c).before 0 t d = iblk1 V c 0 t :=
  (dat1 V c).before_in_eq_fetched 0 rfl (fun _ => rfl) (fun _ _ _ => rfl) (fun _ => rfl) t d

theorem before1_1 (t : Fin cfg1.N) (d) : (dat1 V c).before 1 t d = iblk1 V c 1 t :=
  (dat1 V c).before_in_eq_fetched 1 rfl (fun _ => rfl) (fun _ _ _ => rfl) (fun _ => rfl) t d

/-- At every point the body meets `kernelRun1` on the two input blocks; nothing else changes. -/
theorem body_obligation1 : BodyObligation (dat1 (F := F) V c) (defs₀ (F := F)) Variants.none () Set.univ := fun t => by
  rw [bigSep_W1, bigSep_W1, liveAt1_2 t]
  simp only [before1_0, before1_1, after1_0, after1_1, after1_2, out1_step, Phi1_eq, Pipeline.ΦA, scopedRest1_split,
    ← owns_whole c.tc cc1_scratch0]
  sl_whnfR [defs₀, Defs.onTc]
  iintro ⟨⟨⟨HS, Hrest⟩, Hg⟩, Ho, ⟨%da, Ha⟩, ⟨%db, Hb⟩, ⟨%dO, HO⟩⟩
  iapply kernelRun1 c (grid1.coords t) _ _ _ _ _ _ _ _ (hcond1_0 t) (iblk1 V c 0 t) (iblk1 V c 1 t) _
  iframe Ha Hb HS
  isplitl [HO]; · iexists _; iexact HO
  iintro ⟨Ha, Hb, HO, HS⟩
  iframe
  iexact Ho

end Cert.Kernel.Hand

end
-- ==== Proof.K.R2.lean ====
/- Region 2: a block product accumulated along the last grid axis into a scratch that is stored out at the axis's
   last step. The proof data over the entry contents `V`, the body run once for every point, and the recurrences
   the scratch obeys. -/
import proofs.«401501_j17162689315356_1_alg».proof.Proof.Gen.Kernel.Launch
import proofs.«401501_j17162689315356_1_alg».proof.Proof.Gen.Kernel.Skeleton
import proofs.«401501_j17162689315356_1_alg».proof.Proof.Gen.Kernel.Points
import Idealize.ShloMosaic.Lib.Pipeline.Value
import Idealize.ShloMosaic.Lib.Ring
import Idealize.ShloMosaic.Lib.Tactic

noncomputable section

namespace Cert.Kernel.Hand

open Cert.Kernel.Gen
open Idealize.ShloMosaic Idealize.ShloMosaic.TcCoe
open Idealize.SL Idealize.SL.RA Idealize.SL.BI Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD)

def iblk2 (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev cond2_0 (i : grid2.Coords) : Prop := (Scalar.cmpi .ne (Scalar.extui (Scalar.cmpi .eq (BitVec.ofNat 32 (i 2).val) 0#32)) 0#32) = 1#1
abbrev cond2_1 (i : grid2.Coords) : Prop := k2_cond2 i = 1#1

theorem hcond2_0 : ∀ t : Fin cfg2.N, cond2_0 (grid2.coords t) ↔ t.val % 16 = 0 :=
  (by decide +kernel : ∀ t : Fin grid2.N, cond2_0 (grid2.coords t) ↔ t.val % 16 = 0)

theorem idleAt2_2 : ∀ t : Fin cfg2.N, if cond2_1 (grid2.coords t) then cfg2.idle 2 (grid2.coords t) = false
    else cfg2.idle 2 (grid2.coords t) = true ∧ (cfg2.win 2).flush t = false := by decide +kernel

theorem hz2 : (![0, 0] : Fin 2 → Nat) = fun _ => 0 := funext fun a => by fin_cases a <;> rfl

-- A store of a whole block, made last, is what the buffer then reads.
theorem cover2_read {S : Shape} {e : EltTy} {sig' : RefSig} {κ : Kind} {sp : Space} (v : View sig' κ sp S e) (f : v.ty.Contents (Elt F))
    {off : Fin S.rank → ℕ} (hz : off = fun _ => 0) (inb : ∀ a, off a + S.size a ≤ S.size a) (w : S.Idx → Elt F e)
    (L : List (View.Piece (Elt F) S e)) : v.read (Elt F) (v.writes (Elt F) f (⟨Rect.unit off S.size inb, w⟩ :: L)) = w :=
  (View.read_writes_eq_canon _ _ _ fun y => ⟨_, List.mem_cons_self, View.mem_set_unit_zero hz inb y⟩).trans
    (View.canon_cons_unit_zero hz inb w L)

-- The body at any grid point: the scratch, reset under the first condition, takes the block product; under the second it is copied out.
theorem kernelRun2_A (i : grid2.Coords) {m0 : Memref sig .tc .vmem S1024x1024 .bf16} {m1 : Memref sig .tc .vmem S1024x256 .bf16}
    {m2 m3 : Memref sig .tc .vmem S1024x256 .f32} (h0 : m0.IsWhole) (h1 : m1.IsWhole) (h2 : m2.IsWhole) (h3 : m3.IsWhole)
    (x0 : Vec F S1024x1024 .bf16) (x1 : Vec F S1024x256 .bf16) (xo xs s : Vec F S1024x256 .f32)
    (hs : s = k2_pay2 (if cond2_0 i then k2_pay1 (F := F) else xs) x0 x1) (E : Set ℕ) (K : PUnit → sProp 𝕄) :
    iprop(owns c.tc m0 fullShare x0 ∗ owns c.tc m1 fullShare x1 ∗ owns c.tc m2 fullShare xo ∗ owns c.tc m3 fullShare xs
        ∗ (iprop(owns c.tc m0 fullShare x0 ∗ owns c.tc m1 fullShare x1 ∗ owns c.tc m2 fullShare (if cond2_1 i then s else xo)
            ∗ owns c.tc m3 fullShare s) -∗ K ⟨⟩))
      ⊢ wp frame (wpE (defs₀ (F := F)) Variants.none c none) E (cc2__matmul_kernel i m0 h0 m1 h1 m2 h2 m3 h3) K := by
  subst hs; split_ifs
  all_goals
    simp only [cc2__matmul_kernel_eq_skeleton]; unfold cc2__matmul_kernel_skel owns
    iintro ⟨⟨%f0, %e0, H0⟩, ⟨%f1, %e1, H1⟩, ⟨%fo, %eo, HO⟩, ⟨%fs, %es, HS⟩, Hk⟩
    sl_exec
    sl_step
    iapply Hk
    isplitl [H0]; iexists _; isplitr; swap; iexact H0; rotate_left
    isplitl [H1]; iexists _; isplitr; swap; iexact H1; rotate_left
    isplitl [HO]; iexists _; isplitr; swap; iexact HO; rotate_left
    iexists _; isplitr; swap; iexact HS
    all_goals
      ipureintro; try sl_unfold_words
      simp only [cover2_read (S := S1024x256) _ _ hz2, View.readCov_cons_toLoadRect, View.readAt_eq_ld,
        e0, e1, eo, es, View.ld_unit_zero (S := S1024x1024) hz2, View.ld_unit_zero (S := S1024x256) hz2]

def accAt2 : (n : ℕ) → n < cfg2.N → Vec F S1024x256 .f32
  | 0, hn => k2_pay2 (k2_pay1 (F := F)) (iblk2 V c 0 ⟨0, hn⟩) (iblk2 V c 1 ⟨0, hn⟩)
  | n + 1, hn =>
    k2_pay2 (if (n + 1) % 16 = 0 then k2_pay1 (F := F) else accAt2 n (Nat.lt_of_succ_lt hn))
      (iblk2 V c 0 ⟨n + 1, hn⟩) (iblk2 V c 1 ⟨n + 1, hn⟩)

def outsAt2 : (n : ℕ) → n < cfg2.N → Vec F S1024x256 .f32 × Vec F S1024x256 .f32 :=
  fun n hn => (accAt2 V c n hn, accAt2 V c n hn)

theorem sc2_first (t : Fin cfg2.N) (h : t.val % 16 = 0) :
    (outsAt2 V c t.val t.isLt).2 = k2_pay2 (k2_pay1 (F := F)) (iblk2 V c 0 t) (iblk2 V c 1 t) := by
  obtain ⟨_ | n, hn⟩ := t
  · rfl
  · show k2_pay2 (if _ then _ else _) _ _ = _; rw [if_pos h]

theorem sc2_next (t : Fin cfg2.N) (h : t.val % 16 ≠ 0) :
    (outsAt2 V c t.val t.isLt).2 = k2_pay2 (outsAt2 V c (t.val - 1) (Nat.lt_of_le_of_lt (Nat.sub_le _ _) t.isLt)).2 (iblk2 V c 0 t) (iblk2 V c 1 t) := by
  obtain ⟨_ | n, hn⟩ := t
  · exact absurd (Nat.zero_mod _) h
  · show k2_pay2 (if _ then _ else _) _ _ = _; rw [if_neg h]; rfl

theorem out2_last (t : Fin cfg2.N) (h : t.val % 16 = 15) :
    (outsAt2 V c t.val t.isLt).1 = (outsAt2 V c t.val t.isLt).2 := rfl

-- The scratch before position n: at anything before the first point, afterwards at what the point before left.
def PhiS2 (n : ℕ) (hn : n ≤ cfg2.N) : sProp 𝕄 :=
  iprop(iprop(iprop(∃ a, ⌜∀ h : n ≠ 0, a = accAt2 V c (n - 1) (by omega)⌝ ∗ owns c.tc (Memref.whole cc2_scratch0) fullShare a)
      ∗ Pipeline.scopedRestBut spec2 c [cc2_scratch0]) ∗ (∃ r, prngReg c r))

def dat2 : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
  Φ t := PhiS2 V c t.val (Nat.le_of_lt_succ t.isLt)
  q _ := fullShare
  owed _ := 0

theorem A_eq2 (w : Fin cfg2.W) : (dat2 V c).A w = V c (Pipeline.arrRef spec2 w) := rfl

theorem after2_2 (t : Fin cfg2.N) : (dat2 V c).after 2 t = (outsAt2 V c t.val t.isLt).1 := rfl

theorem before2_0 (t : Fin cfg2.N) (d) : (dat2 V c).before 0 t d = iblk2 V c 0 t :=
  (dat2 V c).before_in_eq_fetched 0 rfl (fun _ => rfl) (fun _ _ _ => rfl) (fun _ => rfl) t d
theorem before2_1 (t : Fin cfg2.N) (d) : (dat2 V c).before 1 t d = iblk2 V c 1 t :=
  (dat2 V c).before_in_eq_fetched 1 rfl (fun _ => rfl) (fun _ _ _ => rfl) (fun _ => rfl) t d

-- Where the second condition holds the output is left at the scratch, elsewhere as it was found.
theorem after2_out (t : Fin cfg2.N) (d) :
    owns c.tc (win2_2.stage (cfg2.slots t 2)) fullShare
        (if cond2_1 (grid2.coords t) then (outsAt2 V c t.val t.isLt).2 else (dat2 V c).before 2 t d) ⊢ (dat2 V c).leavesExact 2 t := by
  have hi := idleAt2_2 t
  split_ifs at hi ⊢
  · unfold Dat.leavesExact; rw [hi]; exact .rfl
  · rw [Dat.leavesExact_idle _ 2 t hi.1 hi.2]; iintro H; iexists d; iexact H

theorem PhiS2_eq (t : Fin (cfg2.N + 1)) : (dat2 V c).Φ t = PhiS2 V c t.val (Nat.le_of_lt_succ t.isLt) := rfl

theorem body_obligation2 : BodyObligation (dat2 (F := F) V c) (defs₀ (F := F)) Variants.none () Set.univ := fun t => by
  rw [bigSep_W2, bigSep_W2]
  simp only [before2_0, before2_1, PhiS2_eq, PhiS2]
  sl_whnfR [defs₀, Defs.onTc]
  iintro ⟨⟨⟨⟨%a, %ha, HS⟩, HR⟩, Hg⟩, Ho, ⟨%d0, H0⟩, ⟨%d1, H1⟩, ⟨%d2, H2⟩⟩
  have key : (outsAt2 V c t.val t.isLt).2
      = k2_pay2 (if cond2_0 (grid2.coords t) then k2_pay1 (F := F) else a) (iblk2 V c 0 t) (iblk2 V c 1 t) := by
    by_cases h : t.val % 16 = 0
    · rw [if_pos ((hcond2_0 t).mpr h)]; exact sc2_first V c t h
    · rw [if_neg fun hc => h ((hcond2_0 t).mp hc), ha fun e => h (by rw [show t.val = 0 from e])]; exact sc2_next V c t h
  iapply (kernelRun2_A c (grid2.coords t) _ _ _ _ _ _ ((dat2 V c).before 2 t d2) _ _ key Set.univ _)
  iframe H0 H1 H2 HS
  iintro ⟨H0, H1, H2, HS⟩
  isplitl [HS HR Hg]
  · iframe HR Hg; iexists _; isplitr; swap; · iexact HS
    ipureintro; exact fun _ => rfl
  isplitl [Ho]; · iexact Ho
  isplitl [H0]; · iexact H0
  isplitl [H1]; · iexact H1
  iapply (after2_out V c t d2); iexact H2

theorem hin2 : (Pipeline.ΦA spec2 c : sProp 𝕄) ⊢ (dat2 V c).Φ 0 := by
  simp only [Pipeline.ΦA, scopedRest2_split, ← owns_whole c.tc cc2_scratch0, PhiS2_eq, PhiS2]
  iintro ⟨⟨⟨%a, HS⟩, HR⟩, Hg⟩
  iframe HR Hg
  iexists a; isplitr; · ipureintro; exact fun h => absurd rfl h
  iexact HS

theorem hout2 : (dat2 V c).Φ (Fin.last cfg2.N) ⊢ (Pipeline.ΦA spec2 c : sProp 𝕄) := by
  simp only [Pipeline.ΦA, scopedRest2_split, ← owns_whole c.tc cc2_scratch0, PhiS2_eq, PhiS2]
  iintro ⟨⟨⟨%a, -, HS⟩, HR⟩, Hg⟩
  iframe HR Hg
  iexists a; iexact HS

end Cert.Kernel.Hand

end
-- ==== Proof.K.R3.lean ====
/- Region 3: a block product accumulated along the last grid axis into a scratch that is stored out at the axis's
   last step. The proof data over the entry contents `V`, the body run once for every point, and the recurrences
   the scratch obeys. -/
import proofs.«401501_j17162689315356_1_alg».proof.Proof.Gen.Kernel.Launch
import proofs.«401501_j17162689315356_1_alg».proof.Proof.Gen.Kernel.Skeleton
import proofs.«401501_j17162689315356_1_alg».proof.Proof.Gen.Kernel.Points
import Idealize.ShloMosaic.Lib.Pipeline.Value
import Idealize.ShloMosaic.Lib.Ring
import Idealize.ShloMosaic.Lib.Tactic

noncomputable section

namespace Cert.Kernel.Hand

open Cert.Kernel.Gen
open Idealize.ShloMosaic Idealize.ShloMosaic.TcCoe
open Idealize.SL Idealize.SL.RA Idealize.SL.BI Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD)

def iblk3 (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev cond3_0 (i : grid3.Coords) : Prop := (Scalar.cmpi .ne (Scalar.extui (Scalar.cmpi .eq (BitVec.ofNat 32 (i 2).val) 0#32)) 0#32) = 1#1
abbrev cond3_1 (i : grid3.Coords) : Prop := k3_cond2 i = 1#1

theorem hcond3_0 : ∀ t : Fin cfg3.N, cond3_0 (grid3.coords t) ↔ t.val % 16 = 0 :=
  (by decide +kernel : ∀ t : Fin grid3.N, cond3_0 (grid3.coords t) ↔ t.val % 16 = 0)

theorem idleAt3_2 : ∀ t : Fin cfg3.N, if cond3_1 (grid3.coords t) then cfg3.idle 2 (grid3.coords t) = false
    else cfg3.idle 2 (grid3.coords t) = true ∧ (cfg3.win 2).flush t = false := by decide +kernel

theorem hz3 : (![0, 0] : Fin 2 → Nat) = fun _ => 0 := funext fun a => by fin_cases a <;> rfl

-- A store of a whole block, made last, is what the buffer then reads.
theorem cover3_read {S : Shape} {e : EltTy} {sig' : RefSig} {κ : Kind} {sp : Space} (v : View sig' κ sp S e) (f : v.ty.Contents (Elt F))
    {off : Fin S.rank → ℕ} (hz : off = fun _ => 0) (inb : ∀ a, off a + S.size a ≤ S.size a) (w : S.Idx → Elt F e)
    (L : List (View.Piece (Elt F) S e)) : v.read (Elt F) (v.writes (Elt F) f (⟨Rect.unit off S.size inb, w⟩ :: L)) = w :=
  (View.read_writes_eq_canon _ _ _ fun y => ⟨_, List.mem_cons_self, View.mem_set_unit_zero hz inb y⟩).trans
    (View.canon_cons_unit_zero hz inb w L)

-- The body at any grid point: the scratch, reset under the first condition, takes the block product; under the second it is copied out.
theorem kernelRun3_A (i : grid3.Coords) {m0 : Memref sig .tc .vmem S1024x1024 .bf16} {m1 : Memref sig .tc .vmem S1024x512 .bf16}
    {m2 m3 : Memref sig .tc .vmem S1024x512 .f32} (h0 : m0.IsWhole) (h1 : m1.IsWhole) (h2 : m2.IsWhole) (h3 : m3.IsWhole)
    (x0 : Vec F S1024x1024 .bf16) (x1 : Vec F S1024x512 .bf16) (xo xs s : Vec F S1024x512 .f32)
    (hs : s = k3_pay2 (if cond3_0 i then k3_pay1 (F := F) else xs) x0 x1) (E : Set ℕ) (K : PUnit → sProp 𝕄) :
    iprop(owns c.tc m0 fullShare x0 ∗ owns c.tc m1 fullShare x1 ∗ owns c.tc m2 fullShare xo ∗ owns c.tc m3 fullShare xs
        ∗ (iprop(owns c.tc m0 fullShare x0 ∗ owns c.tc m1 fullShare x1 ∗ owns c.tc m2 fullShare (if cond3_1 i then s else xo)
            ∗ owns c.tc m3 fullShare s) -∗ K ⟨⟩))
      ⊢ wp frame (wpE (defs₀ (F := F)) Variants.none c none) E (cc3__matmul_kernel i m0 h0 m1 h1 m2 h2 m3 h3) K := by
  subst hs; split_ifs
  all_goals
    simp only [cc3__matmul_kernel_eq_skeleton]; unfold cc3__matmul_kernel_skel owns
    iintro ⟨⟨%f0, %e0, H0⟩, ⟨%f1, %e1, H1⟩, ⟨%fo, %eo, HO⟩, ⟨%fs, %es, HS⟩, Hk⟩
    sl_exec
    sl_step
    iapply Hk
    isplitl [H0]; iexists _; isplitr; swap; iexact H0; rotate_left
    isplitl [H1]; iexists _; isplitr; swap; iexact H1; rotate_left
    isplitl [HO]; iexists _; isplitr; swap; iexact HO; rotate_left
    iexists _; isplitr; swap; iexact HS
    all_goals
      ipureintro; try sl_unfold_words
      simp only [cover3_read (S := S1024x512) _ _ hz3, View.readCov_cons_toLoadRect, View.readAt_eq_ld,
        e0, e1, eo, es, View.ld_unit_zero (S := S1024x1024) hz3, View.ld_unit_zero (S := S1024x512) hz3]

def accAt3 : (n : ℕ) → n < cfg3.N → Vec F S1024x512 .f32
  | 0, hn => k3_pay2 (k3_pay1 (F := F)) (iblk3 V c 0 ⟨0, hn⟩) (iblk3 V c 1 ⟨0, hn⟩)
  | n + 1, hn =>
    k3_pay2 (if (n + 1) % 16 = 0 then k3_pay1 (F := F) else accAt3 n (Nat.lt_of_succ_lt hn))
      (iblk3 V c 0 ⟨n + 1, hn⟩) (iblk3 V c 1 ⟨n + 1, hn⟩)

def outsAt3 : (n : ℕ) → n < cfg3.N → Vec F S1024x512 .f32 × Vec F S1024x512 .f32 :=
  fun n hn => (accAt3 V c n hn, accAt3 V c n hn)

theorem sc3_first (t : Fin cfg3.N) (h : t.val % 16 = 0) :
    (outsAt3 V c t.val t.isLt).2 = k3_pay2 (k3_pay1 (F := F)) (iblk3 V c 0 t) (iblk3 V c 1 t) := by
  obtain ⟨_ | n, hn⟩ := t
  · rfl
  · show k3_pay2 (if _ then _ else _) _ _ = _; rw [if_pos h]

theorem sc3_next (t : Fin cfg3.N) (h : t.val % 16 ≠ 0) :
    (outsAt3 V c t.val t.isLt).2 = k3_pay2 (outsAt3 V c (t.val - 1) (Nat.lt_of_le_of_lt (Nat.sub_le _ _) t.isLt)).2 (iblk3 V c 0 t) (iblk3 V c 1 t) := by
  obtain ⟨_ | n, hn⟩ := t
  · exact absurd (Nat.zero_mod _) h
  · show k3_pay2 (if _ then _ else _) _ _ = _; rw [if_neg h]; rfl

theorem out3_last (t : Fin cfg3.N) (h : t.val % 16 = 15) :
    (outsAt3 V c t.val t.isLt).1 = (outsAt3 V c t.val t.isLt).2 := rfl

-- The scratch before position n: at anything before the first point, afterwards at what the point before left.
def PhiS3 (n : ℕ) (hn : n ≤ cfg3.N) : sProp 𝕄 :=
  iprop(iprop(iprop(∃ a, ⌜∀ h : n ≠ 0, a = accAt3 V c (n - 1) (by omega)⌝ ∗ owns c.tc (Memref.whole cc3_scratch0) fullShare a)
      ∗ Pipeline.scopedRestBut spec3 c [cc3_scratch0]) ∗ (∃ r, prngReg c r))

def dat3 : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => (outsAt3 V c t.val t.isLt).1
  Φ t := PhiS3 V c t.val (Nat.le_of_lt_succ t.isLt)
  q _ := fullShare
  owed _ := 0

theorem A_eq3 (w : Fin cfg3.W) : (dat3 V c).A w = V c (Pipeline.arrRef spec3 w) := rfl

theorem after3_2 (t : Fin cfg3.N) : (dat3 V c).after 2 t = (outsAt3 V c t.val t.isLt).1 := rfl

theorem before3_0 (t : Fin cfg3.N) (d) : (dat3 V c).before 0 t d = iblk3 V c 0 t :=
  (dat3 V c).before_in_eq_fetched 0 rfl (fun _ => rfl) (fun _ _ _ => rfl) (fun _ => rfl) t d
theorem before3_1 (t : Fin cfg3.N) (d) : (dat3 V c).before 1 t d = iblk3 V c 1 t :=
  (dat3 V c).before_in_eq_fetched 1 rfl (fun _ => rfl) (fun _ _ _ => rfl) (fun _ => rfl) t d

-- Where the second condition holds the output is left at the scratch, elsewhere as it was found.
theorem after3_out (t : Fin cfg3.N) (d) :
    owns c.tc (win3_2.stage (cfg3.slots t 2)) fullShare
        (if cond3_1 (grid3.coords t) then (outsAt3 V c t.val t.isLt).2 else (dat3 V c).before 2 t d) ⊢ (dat3 V c).leavesExact 2 t := by
  have hi := idleAt3_2 t
  split_ifs at hi ⊢
  · unfold Dat.leavesExact; rw [hi]; exact .rfl
  · rw [Dat.leavesExact_idle _ 2 t hi.1 hi.2]; iintro H; iexists d; iexact H

theorem PhiS3_eq (t : Fin (cfg3.N + 1)) : (dat3 V c).Φ t = PhiS3 V c t.val (Nat.le_of_lt_succ t.isLt) := rfl

theorem body_obligation3 : BodyObligation (dat3 (F := F) V c) (defs₀ (F := F)) Variants.none () Set.univ := fun t => by
  rw [bigSep_W3, bigSep_W3]
  simp only [before3_0, before3_1, PhiS3_eq, PhiS3]
  sl_whnfR [defs₀, Defs.onTc]
  iintro ⟨⟨⟨⟨%a, %ha, HS⟩, HR⟩, Hg⟩, Ho, ⟨%d0, H0⟩, ⟨%d1, H1⟩, ⟨%d2, H2⟩⟩
  have key : (outsAt3 V c t.val t.isLt).2
      = k3_pay2 (if cond3_0 (grid3.coords t) then k3_pay1 (F := F) else a) (iblk3 V c 0 t) (iblk3 V c 1 t) := by
    by_cases h : t.val % 16 = 0
    · rw [if_pos ((hcond3_0 t).mpr h)]; exact sc3_first V c t h
    · rw [if_neg fun hc => h ((hcond3_0 t).mp hc), ha fun e => h (by rw [show t.val = 0 from e])]; exact sc3_next V c t h
  iapply (kernelRun3_A c (grid3.coords t) _ _ _ _ _ _ ((dat3 V c).before 2 t d2) _ _ key Set.univ _)
  iframe H0 H1 H2 HS
  iintro ⟨H0, H1, H2, HS⟩
  isplitl [HS HR Hg]
  · iframe HR Hg; iexists _; isplitr; swap; · iexact HS
    ipureintro; exact fun _ => rfl
  isplitl [Ho]; · iexact Ho
  isplitl [H0]; · iexact H0
  isplitl [H1]; · iexact H1
  iapply (after3_out V c t d2); iexact H2

theorem hin3 : (Pipeline.ΦA spec3 c : sProp 𝕄) ⊢ (dat3 V c).Φ 0 := by
  simp only [Pipeline.ΦA, scopedRest3_split, ← owns_whole c.tc cc3_scratch0, PhiS3_eq, PhiS3]
  iintro ⟨⟨⟨%a, HS⟩, HR⟩, Hg⟩
  iframe HR Hg
  iexists a; isplitr; · ipureintro; exact fun h => absurd rfl h
  iexact HS

theorem hout3 : (dat3 V c).Φ (Fin.last cfg3.N) ⊢ (Pipeline.ΦA spec3 c : sProp 𝕄) := by
  simp only [Pipeline.ΦA, scopedRest3_split, ← owns_whole c.tc cc3_scratch0, PhiS3_eq, PhiS3]
  iintro ⟨⟨⟨%a, -, HS⟩, HR⟩, Hg⟩
  iframe HR Hg
  iexists a; iexact HS

end Cert.Kernel.Hand

end
-- ==== Proof.K.R4.lean ====
/- Region 4 of @main: at every grid point the output block is the zero block plus the product of the two input
   blocks (the last grid axis has one step). The region's proof data, its body obligation, and that block. -/
import proofs.«401501_j17162689315356_1_alg».proof.Proof.Gen.Kernel.Launch
import proofs.«401501_j17162689315356_1_alg».proof.Proof.Gen.Kernel.Skeleton
import proofs.«401501_j17162689315356_1_alg».proof.Proof.Gen.Kernel.Points
import Idealize.ShloMosaic.Lib.Pipeline.Value
import Idealize.ShloMosaic.Lib.Ring
import Idealize.ShloMosaic.Lib.Tactic

noncomputable section

namespace Cert.Kernel.Hand

open Cert.Kernel.Gen
open Idealize.ShloMosaic Idealize.ShloMosaic.TcCoe
open Idealize.SL Idealize.SL.RA Idealize.SL.BI Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD)

/-- The body's two conditions on the last grid coordinate; both hold at every point. -/
abbrev cond4_0 (i : grid4.Coords) : Prop :=
  Scalar.cmpi .ne (Scalar.extui (Scalar.cmpi .eq (BitVec.ofNat 32 (i 2).val) 0#32)) 0#32 = 1#1 ∧ k4_cond2 i = 1#1

theorem hcond4_0 : ∀ t : Fin cfg4.N, cond4_0 (grid4.coords t) := by decide +kernel

theorem liveAt4_2 : ∀ t : Fin cfg4.N, cfg4.idle 2 (grid4.coords t) = false := by decide +kernel

theorem hz4 : (![0, 0] : Fin 2 → Nat) = fun _ => 0 := funext fun a => by fin_cases a <;> rfl

/-- With both conditions true the body leaves `0 + xa · xb` (as `k4_pay2 k4_pay1 xa xb`) in the output and the inputs as they were. -/
theorem kernelRun4 (i : grid4.Coords) (arg3 : Memref sig .tc .vmem S1024x256 .bf16) (harg3 : arg3.IsWhole) (arg4 : Memref sig .tc .vmem S256x64 .bf16) (harg4 : arg4.IsWhole) (arg5 : Memref sig .tc .vmem S1024x64 .f32) (harg5 : arg5.IsWhole) (arg6 : Memref sig .tc .vmem S1024x64 .f32) (harg6 : arg6.IsWhole) (hc : cond4_0 i)
    (xa : Vec F S1024x256 .bf16) (xb : Vec F S256x64 .bf16) (K : PUnit → sProp 𝕄) :
    iprop(owns (c : Thread nD τ) arg3 fullShare xa ∗ owns (c : Thread nD τ) arg4 fullShare xb ∗ (∃ d, owns (c : Thread nD τ) arg5 fullShare d) ∗ (∃ d, owns (c : Thread nD τ) arg6 fullShare d)
        ∗ (iprop(owns (c : Thread nD τ) arg3 fullShare xa ∗ owns (c : Thread nD τ) arg4 fullShare xb ∗ owns (c : Thread nD τ) arg5 fullShare (k4_pay2 (k4_pay1 (F := F)) xa xb) ∗ (∃ d, owns (c : Thread nD τ) arg6 fullShare d)) -∗ K ⟨⟩))
      ⊢ wp frame (wpE (defs₀ (F := F)) Variants.none c none) Set.univ (cc4__matmul_kernel i arg3 harg3 arg4 harg4 arg5 harg5 arg6 harg6) K := by
  simp only [cc4__matmul_kernel_eq_skeleton]; unfold cc4__matmul_kernel_skel
  unfold owns
  iintro ⟨⟨%fa, %hfa, Ha⟩, ⟨%fb, %hfb, Hb⟩, ⟨%dO, %fO, -, HO⟩, ⟨%dS, %fS, -, HS⟩, Hk⟩
  obtain rfl := harg3.eq_unread hfa; obtain rfl := harg4.eq_unread hfb
  sl_exec (disch := first | exact hc.1 | exact hc.2)
  sl_step
  iapply Hk
  isplitl [Ha]
  · iexists _; isplitr; · ipureintro; exact harg3.read_unread _
    iexact Ha
  isplitl [Hb]
  · iexists _; isplitr; · ipureintro; exact harg4.read_unread _
    iexact Hb
  isplitl [HO]
  · iexists _; isplitr; swap; · iexact HO
    ipureintro; sl_unfold_words
    rw [View.read_writes_eq_canon _ _ _ fun y => ⟨_, List.mem_cons_self, View.mem_set_unit_zero hz4 inb_S1024x64_S1024x64_0_0 y⟩,
      View.canon_unit_zero hz4, View.readCov_cons_toLoadRect, View.readCov_cons_toLoadRect]
    simp only [View.readAt_eq_ld, harg3.read_unread, harg4.read_unread, View.ld_unit_zero (S := S1024x256) hz4,
      View.ld_unit_zero (S := S256x64) hz4]
  iexists _, _; isplitr; swap; · iexact HS
  ipureintro; rfl

/-- Window `w`'s block at point `t` of the array contents `V`. -/
def iblk4 (w : Fin cfg4.W) (t : Fin cfg4.N) : ((cfg4.win w).xblock (cfg4.grid.coords t)).Idx → Elt F (cfg4.win w).elt :=
  ((cfg4.win w).blk t).view.read (Elt F) (V c (Pipeline.arrRef spec4 w))

/-- What the step at position `n` leaves (output block, accumulator): the product of its two input blocks. -/
def outsAt4 : (n : ℕ) → n < cfg4.N → Vec F S1024x64 .f32 × Vec F S1024x64 .f32 :=
  fun n hn => let y := k4_pay2 (k4_pay1 (F := F)) (iblk4 V c 0 ⟨n, hn⟩) (iblk4 V c 1 ⟨n, hn⟩); (y, y)

/-- The region's proof data: no point depends on the one before, so the invariant is the same at every point. -/
def dat4 : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => (outsAt4 V c t.val t.isLt).1
  Φ _ := Pipeline.ΦA spec4 c
  q _ := fullShare
  owed _ := 0

theorem A_eq4 (w : Fin cfg4.W) : (dat4 V c).A w = V c (Pipeline.arrRef spec4 w) := rfl

theorem after4_0 (t : Fin cfg4.N) : (dat4 V c).after 0 t = iblk4 V c 0 t := by dsimp only [dat4]
theorem after4_1 (t : Fin cfg4.N) : (dat4 V c).after 1 t = iblk4 V c 1 t := by dsimp only [dat4]
theorem after4_2 (t : Fin cfg4.N) : (dat4 V c).after 2 t = (outsAt4 V c t.val t.isLt).1 := by dsimp only [dat4]

theorem out4_step (t : Fin cfg4.N) :
    (outsAt4 V c t.val t.isLt).1 = k4_pay2 (k4_pay1 (F := F)) (iblk4 V c 0 t) (iblk4 V c 1 t) := rfl

theorem Phi4_eq (t : Fin (cfg4.N + 1)) : (dat4 V c).Φ t = (Pipeline.ΦA spec4 c : sProp 𝕄) := rfl

theorem hin4 : (Pipeline.ΦA spec4 c : sProp 𝕄) ⊢ (dat4 V c).Φ 0 := by rw [Phi4_eq]

theorem hout4 : (dat4 V c).Φ (Fin.last cfg4.N) ⊢ (Pipeline.ΦA spec4 c : sProp 𝕄) := by rw [Phi4_eq]

/-- At every point the body finds each input window at the array's block there. -/
theorem before4_0 (t : Fin cfg4.N) (d) : (dat4 V c).before 0 t d = iblk4 V c 0 t :=
  (dat4 V c).before_in_eq_fetched 0 rfl (fun _ => rfl) (fun _ _ _ => rfl) (fun _ => rfl) t d

theorem before4_1 (t : Fin cfg4.N) (d) : (dat4 V c).before 1 t d = iblk4 V c 1 t :=
  (dat4 V c).before_in_eq_fetched 1 rfl (fun _ => rfl) (fun _ _ _ => rfl) (fun _ => rfl) t d

/-- At every point the body meets `kernelRun4` on the two input blocks; nothing else changes. -/
theorem body_obligation4 : BodyObligation (dat4 (F := F) V c) (defs₀ (F := F)) Variants.none () Set.univ := fun t => by
  rw [bigSep_W4, bigSep_W4, liveAt4_2 t]
  simp only [before4_0, before4_1, after4_0, after4_1, after4_2, out4_step, Phi4_eq, Pipeline.ΦA, scopedRest4_split,
    ← owns_whole c.tc cc4_scratch0]
  sl_whnfR [defs₀, Defs.onTc]
  iintro ⟨⟨⟨HS, Hrest⟩, Hg⟩, Ho, ⟨%da, Ha⟩, ⟨%db, Hb⟩, ⟨%dO, HO⟩⟩
  iapply kernelRun4 c (grid4.coords t) _ _ _ _ _ _ _ _ (hcond4_0 t) (iblk4 V c 0 t) (iblk4 V c 1 t) _
  iframe Ha Hb HS
  isplitl [HO]; · iexists _; iexact HO
  iintro ⟨Ha, Hb, HO, HS⟩
  iframe
  iexact Ho

end Cert.Kernel.Hand

end
-- ==== Proof.K.R5.lean ====
/- Region 5: a block product accumulated along the last grid axis into a scratch that is stored out at the axis's
   last step. The proof data over the entry contents `V`, the body run once for every point, and the recurrences
   the scratch obeys. -/
import proofs.«401501_j17162689315356_1_alg».proof.Proof.Gen.Kernel.Launch
import proofs.«401501_j17162689315356_1_alg».proof.Proof.Gen.Kernel.Skeleton
import proofs.«401501_j17162689315356_1_alg».proof.Proof.Gen.Kernel.Points
import Idealize.ShloMosaic.Lib.Pipeline.Value
import Idealize.ShloMosaic.Lib.Ring
import Idealize.ShloMosaic.Lib.Tactic

noncomputable section

namespace Cert.Kernel.Hand

open Cert.Kernel.Gen
open Idealize.ShloMosaic Idealize.ShloMosaic.TcCoe
open Idealize.SL Idealize.SL.RA Idealize.SL.BI Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD)

def iblk5 (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev cond5_0 (i : grid5.Coords) : Prop := (Scalar.cmpi .ne (Scalar.extui (Scalar.cmpi .eq (BitVec.ofNat 32 (i 2).val) 0#32)) 0#32) = 1#1
abbrev cond5_1 (i : grid5.Coords) : Prop := k5_cond2 i = 1#1

theorem hcond5_0 : ∀ t : Fin cfg5.N, cond5_0 (grid5.coords t) ↔ t.val % 16 = 0 :=
  (by decide +kernel : ∀ t : Fin grid5.N, cond5_0 (grid5.coords t) ↔ t.val % 16 = 0)

theorem idleAt5_2 : ∀ t : Fin cfg5.N, if cond5_1 (grid5.coords t) then cfg5.idle 2 (grid5.coords t) = false
    else cfg5.idle 2 (grid5.coords t) = true ∧ (cfg5.win 2).flush t = false := by decide +kernel

theorem hz5 : (![0, 0] : Fin 2 → Nat) = fun _ => 0 := funext fun a => by fin_cases a <;> rfl

-- A store of a whole block, made last, is what the buffer then reads.
theorem cover5_read {S : Shape} {e : EltTy} {sig' : RefSig} {κ : Kind} {sp : Space} (v : View sig' κ sp S e) (f : v.ty.Contents (Elt F))
    {off : Fin S.rank → ℕ} (hz : off = fun _ => 0) (inb : ∀ a, off a + S.size a ≤ S.size a) (w : S.Idx → Elt F e)
    (L : List (View.Piece (Elt F) S e)) : v.read (Elt F) (v.writes (Elt F) f (⟨Rect.unit off S.size inb, w⟩ :: L)) = w :=
  (View.read_writes_eq_canon _ _ _ fun y => ⟨_, List.mem_cons_self, View.mem_set_unit_zero hz inb y⟩).trans
    (View.canon_cons_unit_zero hz inb w L)

-- The body at any grid point: the scratch, reset under the first condition, takes the block product; under the second it is copied out.
theorem kernelRun5_A (i : grid5.Coords) {m0 : Memref sig .tc .vmem S1024x1024 .bf16} {m1 : Memref sig .tc .vmem S1024x64 .bf16}
    {m2 m3 : Memref sig .tc .vmem S1024x64 .f32} (h0 : m0.IsWhole) (h1 : m1.IsWhole) (h2 : m2.IsWhole) (h3 : m3.IsWhole)
    (x0 : Vec F S1024x1024 .bf16) (x1 : Vec F S1024x64 .bf16) (xo xs s : Vec F S1024x64 .f32)
    (hs : s = k5_pay2 (if cond5_0 i then k5_pay1 (F := F) else xs) x0 x1) (E : Set ℕ) (K : PUnit → sProp 𝕄) :
    iprop(owns c.tc m0 fullShare x0 ∗ owns c.tc m1 fullShare x1 ∗ owns c.tc m2 fullShare xo ∗ owns c.tc m3 fullShare xs
        ∗ (iprop(owns c.tc m0 fullShare x0 ∗ owns c.tc m1 fullShare x1 ∗ owns c.tc m2 fullShare (if cond5_1 i then s else xo)
            ∗ owns c.tc m3 fullShare s) -∗ K ⟨⟩))
      ⊢ wp frame (wpE (defs₀ (F := F)) Variants.none c none) E (cc5__matmul_kernel i m0 h0 m1 h1 m2 h2 m3 h3) K := by
  subst hs; split_ifs
  all_goals
    simp only [cc5__matmul_kernel_eq_skeleton]; unfold cc5__matmul_kernel_skel owns
    iintro ⟨⟨%f0, %e0, H0⟩, ⟨%f1, %e1, H1⟩, ⟨%fo, %eo, HO⟩, ⟨%fs, %es, HS⟩, Hk⟩
    sl_exec
    sl_step
    iapply Hk
    isplitl [H0]; iexists _; isplitr; swap; iexact H0; rotate_left
    isplitl [H1]; iexists _; isplitr; swap; iexact H1; rotate_left
    isplitl [HO]; iexists _; isplitr; swap; iexact HO; rotate_left
    iexists _; isplitr; swap; iexact HS
    all_goals
      ipureintro; try sl_unfold_words
      simp only [cover5_read (S := S1024x64) _ _ hz5, View.readCov_cons_toLoadRect, View.readAt_eq_ld,
        e0, e1, eo, es, View.ld_unit_zero (S := S1024x1024) hz5, View.ld_unit_zero (S := S1024x64) hz5]

def accAt5 : (n : ℕ) → n < cfg5.N → Vec F S1024x64 .f32
  | 0, hn => k5_pay2 (k5_pay1 (F := F)) (iblk5 V c 0 ⟨0, hn⟩) (iblk5 V c 1 ⟨0, hn⟩)
  | n + 1, hn =>
    k5_pay2 (if (n + 1) % 16 = 0 then k5_pay1 (F := F) else accAt5 n (Nat.lt_of_succ_lt hn))
      (iblk5 V c 0 ⟨n + 1, hn⟩) (iblk5 V c 1 ⟨n + 1, hn⟩)

def outsAt5 : (n : ℕ) → n < cfg5.N → Vec F S1024x64 .f32 × Vec F S1024x64 .f32 :=
  fun n hn => (accAt5 V c n hn, accAt5 V c n hn)

theorem sc5_first (t : Fin cfg5.N) (h : t.val % 16 = 0) :
    (outsAt5 V c t.val t.isLt).2 = k5_pay2 (k5_pay1 (F := F)) (iblk5 V c 0 t) (iblk5 V c 1 t) := by
  obtain ⟨_ | n, hn⟩ := t
  · rfl
  · show k5_pay2 (if _ then _ else _) _ _ = _; rw [if_pos h]

theorem sc5_next (t : Fin cfg5.N) (h : t.val % 16 ≠ 0) :
    (outsAt5 V c t.val t.isLt).2 = k5_pay2 (outsAt5 V c (t.val - 1) (Nat.lt_of_le_of_lt (Nat.sub_le _ _) t.isLt)).2 (iblk5 V c 0 t) (iblk5 V c 1 t) := by
  obtain ⟨_ | n, hn⟩ := t
  · exact absurd (Nat.zero_mod _) h
  · show k5_pay2 (if _ then _ else _) _ _ = _; rw [if_neg h]; rfl

theorem out5_last (t : Fin cfg5.N) (h : t.val % 16 = 15) :
    (outsAt5 V c t.val t.isLt).1 = (outsAt5 V c t.val t.isLt).2 := rfl

-- The scratch before position n: at anything before the first point, afterwards at what the point before left.
def PhiS5 (n : ℕ) (hn : n ≤ cfg5.N) : sProp 𝕄 :=
  iprop(iprop(iprop(∃ a, ⌜∀ h : n ≠ 0, a = accAt5 V c (n - 1) (by omega)⌝ ∗ owns c.tc (Memref.whole cc5_scratch0) fullShare a)
      ∗ Pipeline.scopedRestBut spec5 c [cc5_scratch0]) ∗ (∃ r, prngReg c r))

def dat5 : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => (outsAt5 V c t.val t.isLt).1
  Φ t := PhiS5 V c t.val (Nat.le_of_lt_succ t.isLt)
  q _ := fullShare
  owed _ := 0

theorem A_eq5 (w : Fin cfg5.W) : (dat5 V c).A w = V c (Pipeline.arrRef spec5 w) := rfl

theorem after5_2 (t : Fin cfg5.N) : (dat5 V c).after 2 t = (outsAt5 V c t.val t.isLt).1 := rfl

theorem before5_0 (t : Fin cfg5.N) (d) : (dat5 V c).before 0 t d = iblk5 V c 0 t :=
  (dat5 V c).before_in_eq_fetched 0 rfl (fun _ => rfl) (fun _ _ _ => rfl) (fun _ => rfl) t d
theorem before5_1 (t : Fin cfg5.N) (d) : (dat5 V c).before 1 t d = iblk5 V c 1 t :=
  (dat5 V c).before_in_eq_fetched 1 rfl (fun _ => rfl) (fun _ _ _ => rfl) (fun _ => rfl) t d

-- Where the second condition holds the output is left at the scratch, elsewhere as it was found.
theorem after5_out (t : Fin cfg5.N) (d) :
    owns c.tc (win5_2.stage (cfg5.slots t 2)) fullShare
        (if cond5_1 (grid5.coords t) then (outsAt5 V c t.val t.isLt).2 else (dat5 V c).before 2 t d) ⊢ (dat5 V c).leavesExact 2 t := by
  have hi := idleAt5_2 t
  split_ifs at hi ⊢
  · unfold Dat.leavesExact; rw [hi]; exact .rfl
  · rw [Dat.leavesExact_idle _ 2 t hi.1 hi.2]; iintro H; iexists d; iexact H

theorem PhiS5_eq (t : Fin (cfg5.N + 1)) : (dat5 V c).Φ t = PhiS5 V c t.val (Nat.le_of_lt_succ t.isLt) := rfl

theorem body_obligation5 : BodyObligation (dat5 (F := F) V c) (defs₀ (F := F)) Variants.none () Set.univ := fun t => by
  rw [bigSep_W5, bigSep_W5]
  simp only [before5_0, before5_1, PhiS5_eq, PhiS5]
  sl_whnfR [defs₀, Defs.onTc]
  iintro ⟨⟨⟨⟨%a, %ha, HS⟩, HR⟩, Hg⟩, Ho, ⟨%d0, H0⟩, ⟨%d1, H1⟩, ⟨%d2, H2⟩⟩
  have key : (outsAt5 V c t.val t.isLt).2
      = k5_pay2 (if cond5_0 (grid5.coords t) then k5_pay1 (F := F) else a) (iblk5 V c 0 t) (iblk5 V c 1 t) := by
    by_cases h : t.val % 16 = 0
    · rw [if_pos ((hcond5_0 t).mpr h)]; exact sc5_first V c t h
    · rw [if_neg fun hc => h ((hcond5_0 t).mp hc), ha fun e => h (by rw [show t.val = 0 from e])]; exact sc5_next V c t h
  iapply (kernelRun5_A c (grid5.coords t) _ _ _ _ _ _ ((dat5 V c).before 2 t d2) _ _ key Set.univ _)
  iframe H0 H1 H2 HS
  iintro ⟨H0, H1, H2, HS⟩
  isplitl [HS HR Hg]
  · iframe HR Hg; iexists _; isplitr; swap; · iexact HS
    ipureintro; exact fun _ => rfl
  isplitl [Ho]; · iexact Ho
  isplitl [H0]; · iexact H0
  isplitl [H1]; · iexact H1
  iapply (after5_out V c t d2); iexact H2

theorem hin5 : (Pipeline.ΦA spec5 c : sProp 𝕄) ⊢ (dat5 V c).Φ 0 := by
  simp only [Pipeline.ΦA, scopedRest5_split, ← owns_whole c.tc cc5_scratch0, PhiS5_eq, PhiS5]
  iintro ⟨⟨⟨%a, HS⟩, HR⟩, Hg⟩
  iframe HR Hg
  iexists a; isplitr; · ipureintro; exact fun h => absurd rfl h
  iexact HS

theorem hout5 : (dat5 V c).Φ (Fin.last cfg5.N) ⊢ (Pipeline.ΦA spec5 c : sProp 𝕄) := by
  simp only [Pipeline.ΦA, scopedRest5_split, ← owns_whole c.tc cc5_scratch0, PhiS5_eq, PhiS5]
  iintro ⟨⟨⟨%a, -, HS⟩, HR⟩, Hg⟩
  iframe HR Hg
  iexists a; iexact HS

end Cert.Kernel.Hand

end
-- ==== Proof.K.Vals.lean ====
/- The contents of a core's unscoped buffers at each boundary between two items of @main, folded from the launch memory. -/
import proofs.«401501_j17162689315356_1_alg».proof.Proof.K.R0
import proofs.«401501_j17162689315356_1_alg».proof.Proof.K.R1
import proofs.«401501_j17162689315356_1_alg».proof.Proof.K.R2
import proofs.«401501_j17162689315356_1_alg».proof.Proof.K.R3
import proofs.«401501_j17162689315356_1_alg».proof.Proof.K.R4
import proofs.«401501_j17162689315356_1_alg».proof.Proof.K.R5
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe

variable {F : FTy → Type} [FloatOps F]
variable (m : (ℓ : Loc nD τ sig) → Buf (Elt F) ℓ)

abbrev W0 : Dev nD → Valuation τ sig (Elt F) := fun c b => m ((c : Dev nD), b)

abbrev W1 : Dev nD → Valuation τ sig (Elt F) := fun c => StableHlo.after hostOps0 (W0 m c)
abbrev V1 : (c : Dev nD) → (b : Ref sig .tc) → Buf (Elt F) ((c : Thread nD τ).loc b) := fun c b => W1 m c b

def W2 (c : Dev nD) : Valuation τ sig (Elt F) :=
  Pipeline.withArrays spec0 c (W1 m c) fun w => (dat0 (V1 m) c).arrAt w cfg0.N
abbrev V2 : (c : Dev nD) → (b : Ref sig .tc) → Buf (Elt F) ((c : Thread nD τ).loc b) := fun c b => W2 m c b
abbrev W3 : Dev nD → Valuation τ sig (Elt F) := fun c => StableHlo.after hostOps1 (W2 m c)
abbrev V3 : (c : Dev nD) → (b : Ref sig .tc) → Buf (Elt F) ((c : Thread nD τ).loc b) := fun c b => W3 m c b

def W4 (c : Dev nD) : Valuation τ sig (Elt F) :=
  Pipeline.withArrays spec1 c (W3 m c) fun w => (dat1 (V3 m) c).arrAt w cfg1.N
abbrev V4 : (c : Dev nD) → (b : Ref sig .tc) → Buf (Elt F) ((c : Thread nD τ).loc b) := fun c b => W4 m c b
abbrev W5 : Dev nD → Valuation τ sig (Elt F) := fun c => StableHlo.after hostOps2 (W4 m c)
abbrev V5 : (c : Dev nD) → (b : Ref sig .tc) → Buf (Elt F) ((c : Thread nD τ).loc b) := fun c b => W5 m c b

def W6 (c : Dev nD) : Valuation τ sig (Elt F) :=
  Pipeline.withArrays spec2 c (W5 m c) fun w => (dat2 (V5 m) c).arrAt w cfg2.N
abbrev V6 : (c : Dev nD) → (b : Ref sig .tc) → Buf (Elt F) ((c : Thread nD τ).loc b) := fun c b => W6 m c b
abbrev W7 : Dev nD → Valuation τ sig (Elt F) := fun c => StableHlo.after hostOps3 (W6 m c)
abbrev W8 : Dev nD → Valuation τ sig (Elt F) := fun c => StableHlo.after hostOps3_1 (W7 m c)
abbrev V8 : (c : Dev nD) → (b : Ref sig .tc) → Buf (Elt F) ((c : Thread nD τ).loc b) := fun c b => W8 m c b

def W9 (c : Dev nD) : Valuation τ sig (Elt F) :=
  Pipeline.withArrays spec3 c (W8 m c) fun w => (dat3 (V8 m) c).arrAt w cfg3.N
abbrev V9 : (c : Dev nD) → (b : Ref sig .tc) → Buf (Elt F) ((c : Thread nD τ).loc b) := fun c b => W9 m c b
abbrev W10 : Dev nD → Valuation τ sig (Elt F) := fun c => StableHlo.after hostOps4 (W9 m c)
abbrev V10 : (c : Dev nD) → (b : Ref sig .tc) → Buf (Elt F) ((c : Thread nD τ).loc b) := fun c b => W10 m c b

def W11 (c : Dev nD) : Valuation τ sig (Elt F) :=
  Pipeline.withArrays spec4 c (W10 m c) fun w => (dat4 (V10 m) c).arrAt w cfg4.N
abbrev V11 : (c : Dev nD) → (b : Ref sig .tc) → Buf (Elt F) ((c : Thread nD τ).loc b) := fun c b => W11 m c b
abbrev W12 : Dev nD → Valuation τ sig (Elt F) := fun c => StableHlo.after hostOps5 (W11 m c)
abbrev V12 : (c : Dev nD) → (b : Ref sig .tc) → Buf (Elt F) ((c : Thread nD τ).loc b) := fun c b => W12 m c b

def W13 (c : Dev nD) : Valuation τ sig (Elt F) :=
  Pipeline.withArrays spec5 c (W12 m c) fun w => (dat5 (V12 m) c).arrAt w cfg5.N
abbrev V13 : (c : Dev nD) → (b : Ref sig .tc) → Buf (Elt F) ((c : Thread nD τ).loc b) := fun c b => W13 m c b

abbrev W14 : Dev nD → Valuation τ sig (Elt F) := fun c => StableHlo.after hostOps6 (W13 m c)

end Cert.Kernel.Hand

end
-- ==== Proof.K.Arr.lean ====
/- A region's exit contents: its windows' arrays as the write-backs leave them, every other buffer as found. -/
import proofs.«401501_j17162689315356_1_alg».proof.Proof.K.Vals

set_option maxRecDepth 16384

noncomputable section

namespace Cert.Kernel.Hand

open Cert.Kernel Cert.Kernel.Gen
open Idealize.ShloMosaic Idealize.ShloMosaic.TcCoe

variable {F : FTy → Type} [FloatOps F]
variable (m : (ℓ : Loc nD τ sig) → Buf (Elt F) ℓ)

theorem W2_arr (c : Dev nD) (w : Fin cfg0.W) :
    W2 m c (Proc.devRef .tc (Pipeline.arrRef spec0 w)) = (dat0 (V1 m) c).arrAt w cfg0.N :=
  Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) :=
  Pipeline.withArrays_of_ne spec0 c _ _ b hb

theorem W4_arr (c : Dev nD) (w : Fin cfg1.W) :
    W4 m c (Proc.devRef .tc (Pipeline.arrRef spec1 w)) = (dat1 (V3 m) c).arrAt w cfg1.N :=
  Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) :=
  Pipeline.withArrays_of_ne spec1 c _ _ b hb

theorem W6_arr (c : Dev nD) (w : Fin cfg2.W) :
    W6 m c (Proc.devRef .tc (Pipeline.arrRef spec2 w)) = (dat2 (V5 m) c).arrAt w cfg2.N :=
  Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) :=
  Pipeline.withArrays_of_ne spec2 c _ _ b hb

theorem W9_arr (c : Dev nD) (w : Fin cfg3.W) :
    W9 m c (Proc.devRef .tc (Pipeline.arrRef spec3 w)) = (dat3 (V8 m) c).arrAt w cfg3.N :=
  Pipeline.withArrays_arr spec3 launch3.win.arr_inj c _ _ w
theorem W9_of_ne (c : Dev nD) (b : Ref sig .tc) (hb : ∀ w, Pipeline.arrRef spec3 w ≠ b) :
    W9 m c (Proc.devRef .tc b) = W8 m c (Proc.devRef .tc b) :=
  Pipeline.withArrays_of_ne spec3 c _ _ b hb

theorem W11_arr (c : Dev nD) (w : Fin cfg4.W) :
    W11 m c (Proc.devRef .tc (Pipeline.arrRef spec4 w)) = (dat4 (V10 m) c).arrAt w cfg4.N :=
  Pipeline.withArrays_arr spec4 launch4.win.arr_inj c _ _ w
theorem W11_of_ne (c : Dev nD) (b : Ref sig .tc) (hb : ∀ w, Pipeline.arrRef spec4 w ≠ b) :
    W11 m c (Proc.devRef .tc b) = W10 m c (Proc.devRef .tc b) :=
  Pipeline.withArrays_of_ne spec4 c _ _ b hb

theorem W13_arr (c : Dev nD) (w : Fin cfg5.W) :
    W13 m c (Proc.devRef .tc (Pipeline.arrRef spec5 w)) = (dat5 (V12 m) c).arrAt w cfg5.N :=
  Pipeline.withArrays_arr spec5 launch5.win.arr_inj c _ _ w
theorem W13_of_ne (c : Dev nD) (b : Ref sig .tc) (hb : ∀ w, Pipeline.arrRef spec5 w ≠ b) :
    W13 m c (Proc.devRef .tc b) = W12 m c (Proc.devRef .tc b) :=
  Pipeline.withArrays_of_ne spec5 c _ _ b hb

end Cert.Kernel.Hand

end
-- ==== Proof.K.Run.lean ====
/- The launch of @main: its fourteen items run in order from the launch memory, every unscoped buffer ends at the
   last boundary's contents, and no item changes an argument array. -/
import proofs.«401501_j17162689315356_1_alg».proof.Proof.K.Arr
import proofs.«401501_j17162689315356_1_alg».proof.Proof.Gen.Kernel.Regions

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ)

-- Each stretch leaves what it does not write, each region what is no array of its windows.
theorem W14_of_untouched (c : Dev nD) (r : Ref sig .tc)
    (h : (r ∉ hostOps0_W ∧ r ∉ hostOps1_W ∧ r ∉ hostOps2_W ∧ r ∉ hostOps3_W ∧ r ∉ hostOps3_1_W ∧ r ∉ hostOps4_W
      ∧ r ∉ hostOps5_W ∧ r ∉ hostOps6_W) ∧ ∀ p w, Pipeline.arrRef (cfgs p).spec w ≠ r) :
    W14 m c (Proc.devRef .tc r) = m ((c : Thread nD τ).loc r) := by
  obtain ⟨⟨h0, h1, h2, h3, h3', h4, h5, h6⟩, n⟩ := h
  exact (StableHlo.after_of_writes_sub hostOps6 _ hostOps6_writes h6).trans <| (W13_of_ne m c r (n 5)).trans <|
    (StableHlo.after_of_writes_sub hostOps5 _ hostOps5_writes h5).trans <| (W11_of_ne m c r (n 4)).trans <|
    (StableHlo.after_of_writes_sub hostOps4 _ hostOps4_writes h4).trans <| (W9_of_ne m c r (n 3)).trans <|
    (StableHlo.after_of_writes_sub hostOps3_1 _ hostOps3_1_writes h3').trans <|
    (StableHlo.after_of_writes_sub hostOps3 _ hostOps3_writes h3).trans <| (W6_of_ne m c r (n 2)).trans <|
    (StableHlo.after_of_writes_sub hostOps2 _ hostOps2_writes h2).trans <| (W4_of_ne m c r (n 1)).trans <|
    (StableHlo.after_of_writes_sub hostOps1 _ hostOps1_writes h1).trans <| (W2_of_ne m c r (n 0)).trans <|
    StableHlo.after_of_writes_sub hostOps0 _ hostOps0_writes h0

namespace Run

def pdats : (p : Fin 6) → (c : Dev nD) → Dat τ (Elt F) Unit ℕ (UR sig nD τ) ℕ (Pipeline.pin (pcfgs (F := F)) adm p) c
  | ⟨0, _⟩ => dat0 (V1 m)
  | ⟨1, _⟩ => dat1 (V3 m)
  | ⟨2, _⟩ => dat2 (V5 m)
  | ⟨3, _⟩ => dat3 (V8 m)
  | ⟨4, _⟩ => dat4 (V10 m)
  | ⟨5, _⟩ => dat5 (V12 m)

-- By cases on the region: each fact holds by the definition of that region's proof data.
theorem pdats_plain (p : Fin 6) (c : Dev nD) : (∀ t, (pdats m p c).owed t = 0) ∧ (∀ x, x ∈ (pdats m p c).recorded 0)
    ∧ ∀ w, (pdats m p c).q w = fullShare := by
  fin_cases p <;> exact ⟨fun _ => rfl, fun _ => trivial, fun _ => rfl⟩

abbrev 𝒱₀ : Variants := Variants.none
abbrev L : GSem nD τ sig → Finset Unit := fun _ => ∅
abbrev lv : GSem nD τ sig → Unit → ℕ := fun _ _ => 0
-- What rides beside the buffers through every item: the generator register at some state, and nothing owed.
abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (List.forall_iff_forall_mem.mp hfresh) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

-- What region `p` leaves when entered from `Wb`: its arrays as written back, every other buffer as found.
abbrev exitAt (p : Fin 6) (Wb : Dev nD → Valuation τ sig (Elt F)) (c : Dev nD) : Valuation τ sig (Elt F) :=
  Pipeline.withArrays (cfgs p).spec c (Wb c) fun w => (pdats m p c).arrAt w (cfgs p).N

-- Region `p` entered from `Wb`: entry splits its arrays out of the unscoped buffers, exit puts them back.
set_option backward.isDefEq.respectTransparency.types false in
def regionSeg (p : Fin 6) (lf : Pipeline.LaunchFacts (nD := nD) (τ := τ) cfgs p)
    (Wb : Dev nD → Valuation τ sig (Elt F))
    (hbody : ∀ c, BodyObligation (pdats m p c) (defs₀ (F := F)) Variants.none () Set.univ)
    (hA : ∀ c w, (pdats m p c).A w = Wb c (Proc.devRef .tc (Pipeline.arrRef (cfgs p).spec w)))
    (hΦin : ∀ c, (Pipeline.ΦA (cfgs p).spec c : sProp 𝕄) ⊢ (pdats m p c).Φ 0)
    (hΦout : ∀ c, (pdats m p c).Φ (Fin.last (cfgs p).N) ⊢ (Pipeline.ΦA (cfgs p).spec c : sProp 𝕄)) :
    Pipeline.RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p fun c => (pdats_plain m p c).1
  pre c := iprop(StableHlo.held (c : Thread nD τ) (Pipeline.ucRefs τ sig) (Wb c) ∗ R c)
  post c := iprop(StableHlo.held (c : Thread nD τ) (Pipeline.ucRefs τ sig) (exitAt m p Wb c) ∗ R c)
  X c := iprop(∃ r, prngReg c r)
  Y c := iprop(∃ r, prngReg c r)
  Z c := Pipeline.unscopedRest (Ix := Unit) (Name := ℕ) (U := UR sig nD τ) (Lvl := ℕ) (cfgs p).spec c (fun b => Wb c b)
  hentry c := by
    rw [Pipeline.ownSems0_none]
    have hsplit := Pipeline.arrays_of_unscopedBufs (p := p) (pcfgs (F := F)) adm (pdats m) lf.win lf.arr_whole c
      ((pdats m p c).share_full (pdats_plain m p c).2.2) (fun b => Wb c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [(pdats_plain m p c).1 0]
      icases HO with ⟨%W, HO⟩; iexists W; isplitr; · ipureintro; exact fun x _ => Or.inl ((pdats_plain m p c).2.1 x)
      iexact HO
    isplitl [Hp]; · iexact Hp
    iexact Hrest
  hin c := by
    refine BIBase.Entails.trans ?_ (hΦin c)
    unfold Pipeline.ΦA
    iintro ⟨Hp, -, Hr⟩
    iframe
  hout c := by
    rw [Pipeline.ownSems0_none]
    refine BIBase.Entails.trans (hΦout c) ?_
    unfold Pipeline.ΦA
    iintro ⟨Hr, Hp⟩
    iframe; iempintro
  hexit c := by
    have hjoin := Pipeline.unscopedBufs_of_arrays (p := p) (pcfgs (F := F)) adm (Ix := Unit) (Name := ℕ) (U := UR sig nD τ) (Lvl := ℕ)
      lf.win lf.arr_whole c (pdats m) ((pdats m p c).share_full (pdats_plain m p c).2.2)
      (fun b => Wb c b) (fun b => exitAt m p Wb c b) _ (fun w => (Pipeline.withArrays_arr _ lf.win.arr_inj c _ _ w).symm)
      (fun b hb => Pipeline.withArrays_of_ne _ c _ _ b fun w e => hb (Finset.mem_image.mpr ⟨w, Finset.mem_univ _, e⟩))
    rw [Pipeline.unscopedBufs_held] at hjoin
    unfold Pipeline.Dat.owesAt Pipeline.owesWithin
    rw [(pdats_plain m p c).1 (Fin.last _)]
    iintro ⟨Ha, HO, HY, Hrest⟩
    imodintro
    isplitl [Ha Hrest]
    · iapply hjoin; isplitl [Ha] <;> iassumption
    isplitl [HY]; · iexact HY
    icases HO with ⟨%W, -, HO⟩; iexists W; iexact HO

def reg0 : Pipeline.RegionSeg (pcfgs (F := F)) adm (pdats m) () defs₀ 𝒱₀ L lv 0 :=
  regionSeg m 0 launch0 (W1 m) (body_obligation0 (V1 m)) (A_eq0 (V1 m)) (hin0 (V1 m)) (hout0 (V1 m))
def reg1 : Pipeline.RegionSeg (pcfgs (F := F)) adm (pdats m) () defs₀ 𝒱₀ L lv 1 :=
  regionSeg m 1 launch1 (W3 m) (body_obligation1 (V3 m)) (A_eq1 (V3 m)) (hin1 (V3 m)) (hout1 (V3 m))
def reg2 : Pipeline.RegionSeg (pcfgs (F := F)) adm (pdats m) () defs₀ 𝒱₀ L lv 2 :=
  regionSeg m 2 launch2 (W5 m) (body_obligation2 (V5 m)) (A_eq2 (V5 m)) (hin2 (V5 m)) (hout2 (V5 m))
def reg3 : Pipeline.RegionSeg (pcfgs (F := F)) adm (pdats m) () defs₀ 𝒱₀ L lv 3 :=
  regionSeg m 3 launch3 (W8 m) (body_obligation3 (V8 m)) (A_eq3 (V8 m)) (hin3 (V8 m)) (hout3 (V8 m))
def reg4 : Pipeline.RegionSeg (pcfgs (F := F)) adm (pdats m) () defs₀ 𝒱₀ L lv 4 :=
  regionSeg m 4 launch4 (W10 m) (body_obligation4 (V10 m)) (A_eq4 (V10 m)) (hin4 (V10 m)) (hout4 (V10 m))
def reg5 : Pipeline.RegionSeg (pcfgs (F := F)) adm (pdats m) () defs₀ 𝒱₀ L lv 5 :=
  regionSeg m 5 launch5 (W12 m) (body_obligation5 (V12 m)) (A_eq5 (V12 m)) (hin5 (V12 m)) (hout5 (V12 m))

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)),
    .host (hseg hostOps3_1 hostOps3_1_sub hostOps3_1_fresh (W7 m)),
    .region (reg3 m),
    .host (hseg hostOps4 hostOps4_sub hostOps4_fresh (W9 m)),
    .region (reg4 m),
    .host (hseg hostOps5 hostOps5_sub hostOps5_fresh (W11 m)),
    .region (reg5 m),
    .host (hseg hostOps6 hostOps6_sub hostOps6_fresh (W13 m)) ]

end Run

open Run

-- @main terminates with every unscoped buffer at `W14`; no item changes an argument array.
set_option backward.isDefEq.respectTransparency.types false in
theorem result (ρ : Dev nD → PrngReg) :
    θ_run defs (onTc (τ := τ) (main (F := F))) ⟨m, fun _ => 0, ρ⟩ (fun r => ∀ c : Dev nD,
      r.2.mem ((c.tc : Thread nD τ).loc main_v92) = W14 m c (Proc.devRef .tc main_v92)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m) () cellOf_inj emb₁ defs₀ 𝒱₀ L lv m ρ main (Run.segs m)
    (fun c Q => by rw [main_chain c, Pipeline.Seg.run_eq_chain]; exact .rfl)
    (by simp only [Run.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl,
      fun c => by
        show iprop(StableHlo.held (c : Thread nD τ) (Pipeline.ucRefs τ sig) (W14 m c) ∗ R c)
          ⊢ iprop(StableHlo.held (c : Thread nD τ) (Pipeline.ucRefs τ sig) (W14 m c)
              ∗ ∃ W, owes (c : Thread nD τ) (0 : CellTallies nD τ sig Unit) W)
        iintro ⟨Hh, -, HO⟩
        iframe⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m c b)
    (hfin := fun c s' => by
      iintro ⟨Hh, HSI⟩
      unfold StableHlo.held
      imodintro
      iapply (pointsTo_read_all (Pipeline.ucRefs τ sig) (fun b => (((c : Thread nD τ)).1, b)) (W14 m c) s')
      iframe)
    (hQ := fun s h c => ⟨h c _ (mem_uc _ (by decide)), by
      and_intros <;> exact (h c _ (mem_uc _ (by decide))).trans (W14_of_untouched m c _ (by decide))⟩)

theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => (h c).2) (result m ρ)

end Cert.Kernel.Hand

end
-- ==== Proof.KI.R0.lean ====
/- Region 0: a block product accumulated along the last grid axis into a scratch that is stored out at the axis's
   last step. The proof data over the entry contents `V`, the body run once for every point, and the recurrences
   the scratch obeys. -/
import proofs.«401501_j17162689315356_1_alg».proof.Proof.Gen.KernelIdeal.Launch
import proofs.«401501_j17162689315356_1_alg».proof.Proof.Gen.KernelIdeal.Skeleton
import proofs.«401501_j17162689315356_1_alg».proof.Proof.Gen.KernelIdeal.Points
import Idealize.ShloMosaic.Lib.Pipeline.Value
import Idealize.ShloMosaic.Lib.Ring
import Idealize.ShloMosaic.Lib.Tactic

noncomputable section

namespace Cert.KernelIdeal.Hand

open Cert.KernelIdeal.Gen
open Idealize.ShloMosaic Idealize.ShloMosaic.TcCoe
open Idealize.SL Idealize.SL.RA Idealize.SL.BI Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD)

def iblk0 (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev cond0_0 (i : grid0.Coords) : Prop := (Scalar.cmpi .ne (Scalar.extui (Scalar.cmpi .eq (BitVec.ofNat 32 (i 2).val) 0#32)) 0#32) = 1#1
abbrev cond0_1 (i : grid0.Coords) : Prop := k0_cond2 i = 1#1

theorem hcond0_0 : ∀ t : Fin cfg0.N, cond0_0 (grid0.coords t) ↔ t.val % 16 = 0 :=
  (by decide +kernel : ∀ t : Fin grid0.N, cond0_0 (grid0.coords t) ↔ t.val % 16 = 0)

theorem idleAt0_2 : ∀ t : Fin cfg0.N, if cond0_1 (grid0.coords t) then cfg0.idle 2 (grid0.coords t) = false
    else cfg0.idle 2 (grid0.coords t) = true ∧ (cfg0.win 2).flush t = false := by decide +kernel

theorem hz0 : (![0, 0] : Fin 2 → Nat) = fun _ => 0 := funext fun a => by fin_cases a <;> rfl

-- A store of a whole block, made last, is what the buffer then reads.
theorem cover0_read {S : Shape} {e : EltTy} {sig' : RefSig} {κ : Kind} {sp : Space} (v : View sig' κ sp S e) (f : v.ty.Contents (Elt F))
    {off : Fin S.rank → ℕ} (hz : off = fun _ => 0) (inb : ∀ a, off a + S.size a ≤ S.size a) (w : S.Idx → Elt F e)
    (L : List (View.Piece (Elt F) S e)) : v.read (Elt F) (v.writes (Elt F) f (⟨Rect.unit off S.size inb, w⟩ :: L)) = w :=
  (View.read_writes_eq_canon _ _ _ fun y => ⟨_, List.mem_cons_self, View.mem_set_unit_zero hz inb y⟩).trans
    (View.canon_cons_unit_zero hz inb w L)

-- The body at any grid point: the scratch, reset under the first condition, takes the block product; under the second it is copied out.
theorem kernelRun0_A (i : grid0.Coords) {m0 : Memref sig .tc .vmem S1024x1024 .bf16} {m1 : Memref sig .tc .vmem S1024x1024 .bf16}
    {m2 m3 : Memref sig .tc .vmem S1024x1024 .f32} (h0 : m0.IsWhole) (h1 : m1.IsWhole) (h2 : m2.IsWhole) (h3 : m3.IsWhole)
    (x0 : Vec F S1024x1024 .bf16) (x1 : Vec F S1024x1024 .bf16) (xo xs s : Vec F S1024x1024 .f32)
    (hs : s = k0_pay2 (if cond0_0 i then k0_pay1 (F := F) else xs) x0 x1) (E : Set ℕ) (K : PUnit → sProp 𝕄) :
    iprop(owns c.tc m0 fullShare x0 ∗ owns c.tc m1 fullShare x1 ∗ owns c.tc m2 fullShare xo ∗ owns c.tc m3 fullShare xs
        ∗ (iprop(owns c.tc m0 fullShare x0 ∗ owns c.tc m1 fullShare x1 ∗ owns c.tc m2 fullShare (if cond0_1 i then s else xo)
            ∗ owns c.tc m3 fullShare s) -∗ K ⟨⟩))
      ⊢ wp frame (wpE (defs₀ (F := F)) Variants.none c none) E (cc0__matmul_kernel i m0 h0 m1 h1 m2 h2 m3 h3) K := by
  subst hs; split_ifs
  all_goals
    simp only [cc0__matmul_kernel_eq_skeleton]; unfold cc0__matmul_kernel_skel owns
    iintro ⟨⟨%f0, %e0, H0⟩, ⟨%f1, %e1, H1⟩, ⟨%fo, %eo, HO⟩, ⟨%fs, %es, HS⟩, Hk⟩
    sl_exec
    sl_step
    iapply Hk
    isplitl [H0]; iexists _; isplitr; swap; iexact H0; rotate_left
    isplitl [H1]; iexists _; isplitr; swap; iexact H1; rotate_left
    isplitl [HO]; iexists _; isplitr; swap; iexact HO; rotate_left
    iexists _; isplitr; swap; iexact HS
    all_goals
      ipureintro; try sl_unfold_words
      simp only [cover0_read (S := S1024x1024) _ _ hz0, View.readCov_cons_toLoadRect, View.readAt_eq_ld,
        e0, e1, eo, es, View.ld_unit_zero (S := S1024x1024) hz0, View.ld_unit_zero (S := S1024x1024) hz0]

def accAt0 : (n : ℕ) → n < cfg0.N → Vec F S1024x1024 .f32
  | 0, hn => k0_pay2 (k0_pay1 (F := F)) (iblk0 V c 0 ⟨0, hn⟩) (iblk0 V c 1 ⟨0, hn⟩)
  | n + 1, hn =>
    k0_pay2 (if (n + 1) % 16 = 0 then k0_pay1 (F := F) else accAt0 n (Nat.lt_of_succ_lt hn))
      (iblk0 V c 0 ⟨n + 1, hn⟩) (iblk0 V c 1 ⟨n + 1, hn⟩)

def outsAt0 : (n : ℕ) → n < cfg0.N → Vec F S1024x1024 .f32 × Vec F S1024x1024 .f32 :=
  fun n hn => (accAt0 V c n hn, accAt0 V c n hn)

theorem sc0_first (t : Fin cfg0.N) (h : t.val % 16 = 0) :
    (outsAt0 V c t.val t.isLt).2 = k0_pay2 (k0_pay1 (F := F)) (iblk0 V c 0 t) (iblk0 V c 1 t) := by
  obtain ⟨_ | n, hn⟩ := t
  · rfl
  · show k0_pay2 (if _ then _ else _) _ _ = _; rw [if_pos h]

theorem sc0_next (t : Fin cfg0.N) (h : t.val % 16 ≠ 0) :
    (outsAt0 V c t.val t.isLt).2 = k0_pay2 (outsAt0 V c (t.val - 1) (Nat.lt_of_le_of_lt (Nat.sub_le _ _) t.isLt)).2 (iblk0 V c 0 t) (iblk0 V c 1 t) := by
  obtain ⟨_ | n, hn⟩ := t
  · exact absurd (Nat.zero_mod _) h
  · show k0_pay2 (if _ then _ else _) _ _ = _; rw [if_neg h]; rfl

theorem out0_last (t : Fin cfg0.N) (h : t.val % 16 = 15) :
    (outsAt0 V c t.val t.isLt).1 = (outsAt0 V c t.val t.isLt).2 := rfl

-- The scratch before position n: at anything before the first point, afterwards at what the point before left.
def PhiS0 (n : ℕ) (hn : n ≤ cfg0.N) : sProp 𝕄 :=
  iprop(iprop(iprop(∃ a, ⌜∀ h : n ≠ 0, a = accAt0 V c (n - 1) (by omega)⌝ ∗ owns c.tc (Memref.whole cc0_scratch0) fullShare a)
      ∗ Pipeline.scopedRestBut spec0 c [cc0_scratch0]) ∗ (∃ r, prngReg c r))

def dat0 : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (w : Fin cfg0.W) : (dat0 V c).A w = V c (Pipeline.arrRef spec0 w) := rfl

theorem after0_2 (t : Fin cfg0.N) : (dat0 V c).after 2 t = (outsAt0 V c t.val t.isLt).1 := rfl

theorem before0_0 (t : Fin cfg0.N) (d) : (dat0 V c).before 0 t d = iblk0 V c 0 t :=
  (dat0 V c).before_in_eq_fetched 0 rfl (fun _ => rfl) (fun _ _ _ => rfl) (fun _ => rfl) t d
theorem before0_1 (t : Fin cfg0.N) (d) : (dat0 V c).before 1 t d = iblk0 V c 1 t :=
  (dat0 V c).before_in_eq_fetched 1 rfl (fun _ => rfl) (fun _ _ _ => rfl) (fun _ => rfl) t d

-- Where the second condition holds the output is left at the scratch, elsewhere as it was found.
theorem after0_out (t : Fin cfg0.N) (d) :
    owns c.tc (win0_2.stage (cfg0.slots t 2)) fullShare
        (if cond0_1 (grid0.coords t) then (outsAt0 V c t.val t.isLt).2 else (dat0 V c).before 2 t d) ⊢ (dat0 V c).leavesExact 2 t := by
  have hi := idleAt0_2 t
  split_ifs at hi ⊢
  · unfold Dat.leavesExact; rw [hi]; exact .rfl
  · rw [Dat.leavesExact_idle _ 2 t hi.1 hi.2]; iintro H; iexists d; iexact H

theorem PhiS0_eq (t : Fin (cfg0.N + 1)) : (dat0 V c).Φ t = PhiS0 V c t.val (Nat.le_of_lt_succ t.isLt) := rfl

theorem body_obligation0 : BodyObligation (dat0 (F := F) V c) (defs₀ (F := F)) Variants.none () Set.univ := fun t => by
  rw [bigSep_W0, bigSep_W0]
  simp only [before0_0, before0_1, PhiS0_eq, PhiS0]
  sl_whnfR [defs₀, Defs.onTc]
  iintro ⟨⟨⟨⟨%a, %ha, HS⟩, HR⟩, Hg⟩, Ho, ⟨%d0, H0⟩, ⟨%d1, H1⟩, ⟨%d2, H2⟩⟩
  have key : (outsAt0 V c t.val t.isLt).2
      = k0_pay2 (if cond0_0 (grid0.coords t) then k0_pay1 (F := F) else a) (iblk0 V c 0 t) (iblk0 V c 1 t) := by
    by_cases h : t.val % 16 = 0
    · rw [if_pos ((hcond0_0 t).mpr h)]; exact sc0_first V c t h
    · rw [if_neg fun hc => h ((hcond0_0 t).mp hc), ha fun e => h (by rw [show t.val = 0 from e])]; exact sc0_next V c t h
  iapply (kernelRun0_A c (grid0.coords t) _ _ _ _ _ _ ((dat0 V c).before 2 t d2) _ _ key Set.univ _)
  iframe H0 H1 H2 HS
  iintro ⟨H0, H1, H2, HS⟩
  isplitl [HS HR Hg]
  · iframe HR Hg; iexists _; isplitr; swap; · iexact HS
    ipureintro; exact fun _ => rfl
  isplitl [Ho]; · iexact Ho
  isplitl [H0]; · iexact H0
  isplitl [H1]; · iexact H1
  iapply (after0_out V c t d2); iexact H2

theorem hin0 : (Pipeline.ΦA spec0 c : sProp 𝕄) ⊢ (dat0 V c).Φ 0 := by
  simp only [Pipeline.ΦA, scopedRest0_split, ← owns_whole c.tc cc0_scratch0, PhiS0_eq, PhiS0]
  iintro ⟨⟨⟨%a, HS⟩, HR⟩, Hg⟩
  iframe HR Hg
  iexists a; isplitr; · ipureintro; exact fun h => absurd rfl h
  iexact HS

theorem hout0 : (dat0 V c).Φ (Fin.last cfg0.N) ⊢ (Pipeline.ΦA spec0 c : sProp 𝕄) := by
  simp only [Pipeline.ΦA, scopedRest0_split, ← owns_whole c.tc cc0_scratch0, PhiS0_eq, PhiS0]
  iintro ⟨⟨⟨%a, -, HS⟩, HR⟩, Hg⟩
  iframe HR Hg
  iexists a; iexact HS

end Cert.KernelIdeal.Hand

end
-- ==== Proof.KI.R1.lean ====
/- Region 1 of @main: at every grid point the output block is the zero block plus the product of the two input
   blocks (the last grid axis has one step). The region's proof data, its body obligation, and that block. -/
import proofs.«401501_j17162689315356_1_alg».proof.Proof.Gen.KernelIdeal.Launch
import proofs.«401501_j17162689315356_1_alg».proof.Proof.Gen.KernelIdeal.Skeleton
import proofs.«401501_j17162689315356_1_alg».proof.Proof.Gen.KernelIdeal.Points
import Idealize.ShloMosaic.Lib.Pipeline.Value
import Idealize.ShloMosaic.Lib.Ring
import Idealize.ShloMosaic.Lib.Tactic

noncomputable section

namespace Cert.KernelIdeal.Hand

open Cert.KernelIdeal.Gen
open Idealize.ShloMosaic Idealize.ShloMosaic.TcCoe
open Idealize.SL Idealize.SL.RA Idealize.SL.BI Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD)

/-- The body's two conditions on the last grid coordinate; both hold at every point. -/
abbrev cond1_0 (i : grid1.Coords) : Prop :=
  Scalar.cmpi .ne (Scalar.extui (Scalar.cmpi .eq (BitVec.ofNat 32 (i 2).val) 0#32)) 0#32 = 1#1 ∧ k1_cond2 i = 1#1

theorem hcond1_0 : ∀ t : Fin cfg1.N, cond1_0 (grid1.coords t) := by decide +kernel

theorem liveAt1_2 : ∀ t : Fin cfg1.N, cfg1.idle 2 (grid1.coords t) = false := by decide +kernel

theorem hz1 : (![0, 0] : Fin 2 → Nat) = fun _ => 0 := funext fun a => by fin_cases a <;> rfl

/-- With both conditions true the body leaves `0 + xa · xb` (as `k1_pay2 k1_pay1 xa xb`) in the output and the inputs as they were. -/
theorem kernelRun1 (i : grid1.Coords) (arg3 : Memref sig .tc .vmem S1024x512 .bf16) (harg3 : arg3.IsWhole) (arg4 : Memref sig .tc .vmem S512x256 .bf16) (harg4 : arg4.IsWhole) (arg5 : Memref sig .tc .vmem S1024x256 .f32) (harg5 : arg5.IsWhole) (arg6 : Memref sig .tc .vmem S1024x256 .f32) (harg6 : arg6.IsWhole) (hc : cond1_0 i)
    (xa : Vec F S1024x512 .bf16) (xb : Vec F S512x256 .bf16) (K : PUnit → sProp 𝕄) :
    iprop(owns (c : Thread nD τ) arg3 fullShare xa ∗ owns (c : Thread nD τ) arg4 fullShare xb ∗ (∃ d, owns (c : Thread nD τ) arg5 fullShare d) ∗ (∃ d, owns (c : Thread nD τ) arg6 fullShare d)
        ∗ (iprop(owns (c : Thread nD τ) arg3 fullShare xa ∗ owns (c : Thread nD τ) arg4 fullShare xb ∗ owns (c : Thread nD τ) arg5 fullShare (k1_pay2 (k1_pay1 (F := F)) xa xb) ∗ (∃ d, owns (c : Thread nD τ) arg6 fullShare d)) -∗ K ⟨⟩))
      ⊢ wp frame (wpE (defs₀ (F := F)) Variants.none c none) Set.univ (cc1__matmul_kernel i arg3 harg3 arg4 harg4 arg5 harg5 arg6 harg6) K := by
  simp only [cc1__matmul_kernel_eq_skeleton]; unfold cc1__matmul_kernel_skel
  unfold owns
  iintro ⟨⟨%fa, %hfa, Ha⟩, ⟨%fb, %hfb, Hb⟩, ⟨%dO, %fO, -, HO⟩, ⟨%dS, %fS, -, HS⟩, Hk⟩
  obtain rfl := harg3.eq_unread hfa; obtain rfl := harg4.eq_unread hfb
  sl_exec (disch := first | exact hc.1 | exact hc.2)
  sl_step
  iapply Hk
  isplitl [Ha]
  · iexists _; isplitr; · ipureintro; exact harg3.read_unread _
    iexact Ha
  isplitl [Hb]
  · iexists _; isplitr; · ipureintro; exact harg4.read_unread _
    iexact Hb
  isplitl [HO]
  · iexists _; isplitr; swap; · iexact HO
    ipureintro; sl_unfold_words
    rw [View.read_writes_eq_canon _ _ _ fun y => ⟨_, List.mem_cons_self, View.mem_set_unit_zero hz1 inb_S1024x256_S1024x256_0_0 y⟩,
      View.canon_unit_zero hz1, View.readCov_cons_toLoadRect, View.readCov_cons_toLoadRect]
    simp only [View.readAt_eq_ld, harg3.read_unread, harg4.read_unread, View.ld_unit_zero (S := S1024x512) hz1,
      View.ld_unit_zero (S := S512x256) hz1]
  iexists _, _; isplitr; swap; · iexact HS
  ipureintro; rfl

/-- Window `w`'s block at point `t` of the array contents `V`. -/
def iblk1 (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the step at position `n` leaves (output block, accumulator): the product of its two input blocks. -/
def outsAt1 : (n : ℕ) → n < cfg1.N → Vec F S1024x256 .f32 × Vec F S1024x256 .f32 :=
  fun n hn => let y := k1_pay2 (k1_pay1 (F := F)) (iblk1 V c 0 ⟨n, hn⟩) (iblk1 V c 1 ⟨n, hn⟩); (y, y)

/-- The region's proof data: no point depends on the one before, so the invariant is the same at every point. -/
def dat1 : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ _ := Pipeline.ΦA spec1 c
  q _ := fullShare
  owed _ := 0

theorem A_eq1 (w : Fin cfg1.W) : (dat1 V c).A w = V c (Pipeline.arrRef spec1 w) := rfl

theorem after1_0 (t : Fin cfg1.N) : (dat1 V c).after 0 t = iblk1 V c 0 t := by dsimp only [dat1]
theorem after1_1 (t : Fin cfg1.N) : (dat1 V c).after 1 t = iblk1 V c 1 t := by dsimp only [dat1]
theorem after1_2 (t : Fin cfg1.N) : (dat1 V c).after 2 t = (outsAt1 V c t.val t.isLt).1 := by dsimp only [dat1]

theorem out1_step (t : Fin cfg1.N) :
    (outsAt1 V c t.val t.isLt).1 = k1_pay2 (k1_pay1 (F := F)) (iblk1 V c 0 t) (iblk1 V c 1 t) := rfl

theorem Phi1_eq (t : Fin (cfg1.N + 1)) : (dat1 V c).Φ t = (Pipeline.ΦA spec1 c : sProp 𝕄) := rfl

theorem hin1 : (Pipeline.ΦA spec1 c : sProp 𝕄) ⊢ (dat1 V c).Φ 0 := by rw [Phi1_eq]

theorem hout1 : (dat1 V c).Φ (Fin.last cfg1.N) ⊢ (Pipeline.ΦA spec1 c : sProp 𝕄) := by rw [Phi1_eq]

/-- At every point the body finds each input window at the array's block there. -/
theorem before1_0 (t : Fin cfg1.N) (d) : (dat1 V c).before 0 t d = iblk1 V c 0 t :=
  (dat1 V c).before_in_eq_fetched 0 rfl (fun _ => rfl) (fun _ _ _ => rfl) (fun _ => rfl) t d

theorem before1_1 (t : Fin cfg1.N) (d) : (dat1 V c).before 1 t d = iblk1 V c 1 t :=
  (dat1 V c).before_in_eq_fetched 1 rfl (fun _ => rfl) (fun _ _ _ => rfl) (fun _ => rfl) t d

/-- At every point the body meets `kernelRun1` on the two input blocks; nothing else changes. -/
theorem body_obligation1 : BodyObligation (dat1 (F := F) V c) (defs₀ (F := F)) Variants.none () Set.univ := fun t => by
  rw [bigSep_W1, bigSep_W1, liveAt1_2 t]
  simp only [before1_0, before1_1, after1_0, after1_1, after1_2, out1_step, Phi1_eq, Pipeline.ΦA, scopedRest1_split,
    ← owns_whole c.tc cc1_scratch0]
  sl_whnfR [defs₀, Defs.onTc]
  iintro ⟨⟨⟨HS, Hrest⟩, Hg⟩, Ho, ⟨%da, Ha⟩, ⟨%db, Hb⟩, ⟨%dO, HO⟩⟩
  iapply kernelRun1 c (grid1.coords t) _ _ _ _ _ _ _ _ (hcond1_0 t) (iblk1 V c 0 t) (iblk1 V c 1 t) _
  iframe Ha Hb HS
  isplitl [HO]; · iexists _; iexact HO
  iintro ⟨Ha, Hb, HO, HS⟩
  iframe
  iexact Ho

end Cert.KernelIdeal.Hand

end
-- ==== Proof.KI.R2.lean ====
/- Region 2: a block product accumulated along the last grid axis into a scratch that is stored out at the axis's
   last step. The proof data over the entry contents `V`, the body run once for every point, and the recurrences
   the scratch obeys. -/
import proofs.«401501_j17162689315356_1_alg».proof.Proof.Gen.KernelIdeal.Launch
import proofs.«401501_j17162689315356_1_alg».proof.Proof.Gen.KernelIdeal.Skeleton
import proofs.«401501_j17162689315356_1_alg».proof.Proof.Gen.KernelIdeal.Points
import Idealize.ShloMosaic.Lib.Pipeline.Value
import Idealize.ShloMosaic.Lib.Ring
import Idealize.ShloMosaic.Lib.Tactic

noncomputable section

namespace Cert.KernelIdeal.Hand

open Cert.KernelIdeal.Gen
open Idealize.ShloMosaic Idealize.ShloMosaic.TcCoe
open Idealize.SL Idealize.SL.RA Idealize.SL.BI Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD)

def iblk2 (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev cond2_0 (i : grid2.Coords) : Prop := (Scalar.cmpi .ne (Scalar.extui (Scalar.cmpi .eq (BitVec.ofNat 32 (i 2).val) 0#32)) 0#32) = 1#1
abbrev cond2_1 (i : grid2.Coords) : Prop := k2_cond2 i = 1#1

theorem hcond2_0 : ∀ t : Fin cfg2.N, cond2_0 (grid2.coords t) ↔ t.val % 16 = 0 :=
  (by decide +kernel : ∀ t : Fin grid2.N, cond2_0 (grid2.coords t) ↔ t.val % 16 = 0)

theorem idleAt2_2 : ∀ t : Fin cfg2.N, if cond2_1 (grid2.coords t) then cfg2.idle 2 (grid2.coords t) = false
    else cfg2.idle 2 (grid2.coords t) = true ∧ (cfg2.win 2).flush t = false := by decide +kernel

theorem hz2 : (![0, 0] : Fin 2 → Nat) = fun _ => 0 := funext fun a => by fin_cases a <;> rfl

-- A store of a whole block, made last, is what the buffer then reads.
theorem cover2_read {S : Shape} {e : EltTy} {sig' : RefSig} {κ : Kind} {sp : Space} (v : View sig' κ sp S e) (f : v.ty.Contents (Elt F))
    {off : Fin S.rank → ℕ} (hz : off = fun _ => 0) (inb : ∀ a, off a + S.size a ≤ S.size a) (w : S.Idx → Elt F e)
    (L : List (View.Piece (Elt F) S e)) : v.read (Elt F) (v.writes (Elt F) f (⟨Rect.unit off S.size inb, w⟩ :: L)) = w :=
  (View.read_writes_eq_canon _ _ _ fun y => ⟨_, List.mem_cons_self, View.mem_set_unit_zero hz inb y⟩).trans
    (View.canon_cons_unit_zero hz inb w L)

-- The body at any grid point: the scratch, reset under the first condition, takes the block product; under the second it is copied out.
theorem kernelRun2_A (i : grid2.Coords) {m0 : Memref sig .tc .vmem S1024x1024 .bf16} {m1 : Memref sig .tc .vmem S1024x256 .bf16}
    {m2 m3 : Memref sig .tc .vmem S1024x256 .f32} (h0 : m0.IsWhole) (h1 : m1.IsWhole) (h2 : m2.IsWhole) (h3 : m3.IsWhole)
    (x0 : Vec F S1024x1024 .bf16) (x1 : Vec F S1024x256 .bf16) (xo xs s : Vec F S1024x256 .f32)
    (hs : s = k2_pay2 (if cond2_0 i then k2_pay1 (F := F) else xs) x0 x1) (E : Set ℕ) (K : PUnit → sProp 𝕄) :
    iprop(owns c.tc m0 fullShare x0 ∗ owns c.tc m1 fullShare x1 ∗ owns c.tc m2 fullShare xo ∗ owns c.tc m3 fullShare xs
        ∗ (iprop(owns c.tc m0 fullShare x0 ∗ owns c.tc m1 fullShare x1 ∗ owns c.tc m2 fullShare (if cond2_1 i then s else xo)
            ∗ owns c.tc m3 fullShare s) -∗ K ⟨⟩))
      ⊢ wp frame (wpE (defs₀ (F := F)) Variants.none c none) E (cc2__matmul_kernel i m0 h0 m1 h1 m2 h2 m3 h3) K := by
  subst hs; split_ifs
  all_goals
    simp only [cc2__matmul_kernel_eq_skeleton]; unfold cc2__matmul_kernel_skel owns
    iintro ⟨⟨%f0, %e0, H0⟩, ⟨%f1, %e1, H1⟩, ⟨%fo, %eo, HO⟩, ⟨%fs, %es, HS⟩, Hk⟩
    sl_exec
    sl_step
    iapply Hk
    isplitl [H0]; iexists _; isplitr; swap; iexact H0; rotate_left
    isplitl [H1]; iexists _; isplitr; swap; iexact H1; rotate_left
    isplitl [HO]; iexists _; isplitr; swap; iexact HO; rotate_left
    iexists _; isplitr; swap; iexact HS
    all_goals
      ipureintro; try sl_unfold_words
      simp only [cover2_read (S := S1024x256) _ _ hz2, View.readCov_cons_toLoadRect, View.readAt_eq_ld,
        e0, e1, eo, es, View.ld_unit_zero (S := S1024x1024) hz2, View.ld_unit_zero (S := S1024x256) hz2]

def accAt2 : (n : ℕ) → n < cfg2.N → Vec F S1024x256 .f32
  | 0, hn => k2_pay2 (k2_pay1 (F := F)) (iblk2 V c 0 ⟨0, hn⟩) (iblk2 V c 1 ⟨0, hn⟩)
  | n + 1, hn =>
    k2_pay2 (if (n + 1) % 16 = 0 then k2_pay1 (F := F) else accAt2 n (Nat.lt_of_succ_lt hn))
      (iblk2 V c 0 ⟨n + 1, hn⟩) (iblk2 V c 1 ⟨n + 1, hn⟩)

def outsAt2 : (n : ℕ) → n < cfg2.N → Vec F S1024x256 .f32 × Vec F S1024x256 .f32 :=
  fun n hn => (accAt2 V c n hn, accAt2 V c n hn)

theorem sc2_first (t : Fin cfg2.N) (h : t.val % 16 = 0) :
    (outsAt2 V c t.val t.isLt).2 = k2_pay2 (k2_pay1 (F := F)) (iblk2 V c 0 t) (iblk2 V c 1 t) := by
  obtain ⟨_ | n, hn⟩ := t
  · rfl
  · show k2_pay2 (if _ then _ else _) _ _ = _; rw [if_pos h]

theorem sc2_next (t : Fin cfg2.N) (h : t.val % 16 ≠ 0) :
    (outsAt2 V c t.val t.isLt).2 = k2_pay2 (outsAt2 V c (t.val - 1) (Nat.lt_of_le_of_lt (Nat.sub_le _ _) t.isLt)).2 (iblk2 V c 0 t) (iblk2 V c 1 t) := by
  obtain ⟨_ | n, hn⟩ := t
  · exact absurd (Nat.zero_mod _) h
  · show k2_pay2 (if _ then _ else _) _ _ = _; rw [if_neg h]; rfl

theorem out2_last (t : Fin cfg2.N) (h : t.val % 16 = 15) :
    (outsAt2 V c t.val t.isLt).1 = (outsAt2 V c t.val t.isLt).2 := rfl

-- The scratch before position n: at anything before the first point, afterwards at what the point before left.
def PhiS2 (n : ℕ) (hn : n ≤ cfg2.N) : sProp 𝕄 :=
  iprop(iprop(iprop(∃ a, ⌜∀ h : n ≠ 0, a = accAt2 V c (n - 1) (by omega)⌝ ∗ owns c.tc (Memref.whole cc2_scratch0) fullShare a)
      ∗ Pipeline.scopedRestBut spec2 c [cc2_scratch0]) ∗ (∃ r, prngReg c r))

def dat2 : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
  Φ t := PhiS2 V c t.val (Nat.le_of_lt_succ t.isLt)
  q _ := fullShare
  owed _ := 0

theorem A_eq2 (w : Fin cfg2.W) : (dat2 V c).A w = V c (Pipeline.arrRef spec2 w) := rfl

theorem after2_2 (t : Fin cfg2.N) : (dat2 V c).after 2 t = (outsAt2 V c t.val t.isLt).1 := rfl

theorem before2_0 (t : Fin cfg2.N) (d) : (dat2 V c).before 0 t d = iblk2 V c 0 t :=
  (dat2 V c).before_in_eq_fetched 0 rfl (fun _ => rfl) (fun _ _ _ => rfl) (fun _ => rfl) t d
theorem before2_1 (t : Fin cfg2.N) (d) : (dat2 V c).before 1 t d = iblk2 V c 1 t :=
  (dat2 V c).before_in_eq_fetched 1 rfl (fun _ => rfl) (fun _ _ _ => rfl) (fun _ => rfl) t d

-- Where the second condition holds the output is left at the scratch, elsewhere as it was found.
theorem after2_out (t : Fin cfg2.N) (d) :
    owns c.tc (win2_2.stage (cfg2.slots t 2)) fullShare
        (if cond2_1 (grid2.coords t) then (outsAt2 V c t.val t.isLt).2 else (dat2 V c).before 2 t d) ⊢ (dat2 V c).leavesExact 2 t := by
  have hi := idleAt2_2 t
  split_ifs at hi ⊢
  · unfold Dat.leavesExact; rw [hi]; exact .rfl
  · rw [Dat.leavesExact_idle _ 2 t hi.1 hi.2]; iintro H; iexists d; iexact H

theorem PhiS2_eq (t : Fin (cfg2.N + 1)) : (dat2 V c).Φ t = PhiS2 V c t.val (Nat.le_of_lt_succ t.isLt) := rfl

theorem body_obligation2 : BodyObligation (dat2 (F := F) V c) (defs₀ (F := F)) Variants.none () Set.univ := fun t => by
  rw [bigSep_W2, bigSep_W2]
  simp only [before2_0, before2_1, PhiS2_eq, PhiS2]
  sl_whnfR [defs₀, Defs.onTc]
  iintro ⟨⟨⟨⟨%a, %ha, HS⟩, HR⟩, Hg⟩, Ho, ⟨%d0, H0⟩, ⟨%d1, H1⟩, ⟨%d2, H2⟩⟩
  have key : (outsAt2 V c t.val t.isLt).2
      = k2_pay2 (if cond2_0 (grid2.coords t) then k2_pay1 (F := F) else a) (iblk2 V c 0 t) (iblk2 V c 1 t) := by
    by_cases h : t.val % 16 = 0
    · rw [if_pos ((hcond2_0 t).mpr h)]; exact sc2_first V c t h
    · rw [if_neg fun hc => h ((hcond2_0 t).mp hc), ha fun e => h (by rw [show t.val = 0 from e])]; exact sc2_next V c t h
  iapply (kernelRun2_A c (grid2.coords t) _ _ _ _ _ _ ((dat2 V c).before 2 t d2) _ _ key Set.univ _)
  iframe H0 H1 H2 HS
  iintro ⟨H0, H1, H2, HS⟩
  isplitl [HS HR Hg]
  · iframe HR Hg; iexists _; isplitr; swap; · iexact HS
    ipureintro; exact fun _ => rfl
  isplitl [Ho]; · iexact Ho
  isplitl [H0]; · iexact H0
  isplitl [H1]; · iexact H1
  iapply (after2_out V c t d2); iexact H2

theorem hin2 : (Pipeline.ΦA spec2 c : sProp 𝕄) ⊢ (dat2 V c).Φ 0 := by
  simp only [Pipeline.ΦA, scopedRest2_split, ← owns_whole c.tc cc2_scratch0, PhiS2_eq, PhiS2]
  iintro ⟨⟨⟨%a, HS⟩, HR⟩, Hg⟩
  iframe HR Hg
  iexists a; isplitr; · ipureintro; exact fun h => absurd rfl h
  iexact HS

theorem hout2 : (dat2 V c).Φ (Fin.last cfg2.N) ⊢ (Pipeline.ΦA spec2 c : sProp 𝕄) := by
  simp only [Pipeline.ΦA, scopedRest2_split, ← owns_whole c.tc cc2_scratch0, PhiS2_eq, PhiS2]
  iintro ⟨⟨⟨%a, -, HS⟩, HR⟩, Hg⟩
  iframe HR Hg
  iexists a; iexact HS

end Cert.KernelIdeal.Hand

end
-- ==== Proof.KI.R3.lean ====
/- Region 3: a block product accumulated along the last grid axis into a scratch that is stored out at the axis's
   last step. The proof data over the entry contents `V`, the body run once for every point, and the recurrences
   the scratch obeys. -/
import proofs.«401501_j17162689315356_1_alg».proof.Proof.Gen.KernelIdeal.Launch
import proofs.«401501_j17162689315356_1_alg».proof.Proof.Gen.KernelIdeal.Skeleton
import proofs.«401501_j17162689315356_1_alg».proof.Proof.Gen.KernelIdeal.Points
import Idealize.ShloMosaic.Lib.Pipeline.Value
import Idealize.ShloMosaic.Lib.Ring
import Idealize.ShloMosaic.Lib.Tactic

noncomputable section

namespace Cert.KernelIdeal.Hand

open Cert.KernelIdeal.Gen
open Idealize.ShloMosaic Idealize.ShloMosaic.TcCoe
open Idealize.SL Idealize.SL.RA Idealize.SL.BI Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD)

def iblk3 (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev cond3_0 (i : grid3.Coords) : Prop := (Scalar.cmpi .ne (Scalar.extui (Scalar.cmpi .eq (BitVec.ofNat 32 (i 2).val) 0#32)) 0#32) = 1#1
abbrev cond3_1 (i : grid3.Coords) : Prop := k3_cond2 i = 1#1

theorem hcond3_0 : ∀ t : Fin cfg3.N, cond3_0 (grid3.coords t) ↔ t.val % 16 = 0 :=
  (by decide +kernel : ∀ t : Fin grid3.N, cond3_0 (grid3.coords t) ↔ t.val % 16 = 0)

theorem idleAt3_2 : ∀ t : Fin cfg3.N, if cond3_1 (grid3.coords t) then cfg3.idle 2 (grid3.coords t) = false
    else cfg3.idle 2 (grid3.coords t) = true ∧ (cfg3.win 2).flush t = false := by decide +kernel

theorem hz3 : (![0, 0] : Fin 2 → Nat) = fun _ => 0 := funext fun a => by fin_cases a <;> rfl

-- A store of a whole block, made last, is what the buffer then reads.
theorem cover3_read {S : Shape} {e : EltTy} {sig' : RefSig} {κ : Kind} {sp : Space} (v : View sig' κ sp S e) (f : v.ty.Contents (Elt F))
    {off : Fin S.rank → ℕ} (hz : off = fun _ => 0) (inb : ∀ a, off a + S.size a ≤ S.size a) (w : S.Idx → Elt F e)
    (L : List (View.Piece (Elt F) S e)) : v.read (Elt F) (v.writes (Elt F) f (⟨Rect.unit off S.size inb, w⟩ :: L)) = w :=
  (View.read_writes_eq_canon _ _ _ fun y => ⟨_, List.mem_cons_self, View.mem_set_unit_zero hz inb y⟩).trans
    (View.canon_cons_unit_zero hz inb w L)

-- The body at any grid point: the scratch, reset under the first condition, takes the block product; under the second it is copied out.
theorem kernelRun3_A (i : grid3.Coords) {m0 : Memref sig .tc .vmem S1024x1024 .bf16} {m1 : Memref sig .tc .vmem S1024x512 .bf16}
    {m2 m3 : Memref sig .tc .vmem S1024x512 .f32} (h0 : m0.IsWhole) (h1 : m1.IsWhole) (h2 : m2.IsWhole) (h3 : m3.IsWhole)
    (x0 : Vec F S1024x1024 .bf16) (x1 : Vec F S1024x512 .bf16) (xo xs s : Vec F S1024x512 .f32)
    (hs : s = k3_pay2 (if cond3_0 i then k3_pay1 (F := F) else xs) x0 x1) (E : Set ℕ) (K : PUnit → sProp 𝕄) :
    iprop(owns c.tc m0 fullShare x0 ∗ owns c.tc m1 fullShare x1 ∗ owns c.tc m2 fullShare xo ∗ owns c.tc m3 fullShare xs
        ∗ (iprop(owns c.tc m0 fullShare x0 ∗ owns c.tc m1 fullShare x1 ∗ owns c.tc m2 fullShare (if cond3_1 i then s else xo)
            ∗ owns c.tc m3 fullShare s) -∗ K ⟨⟩))
      ⊢ wp frame (wpE (defs₀ (F := F)) Variants.none c none) E (cc3__matmul_kernel i m0 h0 m1 h1 m2 h2 m3 h3) K := by
  subst hs; split_ifs
  all_goals
    simp only [cc3__matmul_kernel_eq_skeleton]; unfold cc3__matmul_kernel_skel owns
    iintro ⟨⟨%f0, %e0, H0⟩, ⟨%f1, %e1, H1⟩, ⟨%fo, %eo, HO⟩, ⟨%fs, %es, HS⟩, Hk⟩
    sl_exec
    sl_step
    iapply Hk
    isplitl [H0]; iexists _; isplitr; swap; iexact H0; rotate_left
    isplitl [H1]; iexists _; isplitr; swap; iexact H1; rotate_left
    isplitl [HO]; iexists _; isplitr; swap; iexact HO; rotate_left
    iexists _; isplitr; swap; iexact HS
    all_goals
      ipureintro; try sl_unfold_words
      simp only [cover3_read (S := S1024x512) _ _ hz3, View.readCov_cons_toLoadRect, View.readAt_eq_ld,
        e0, e1, eo, es, View.ld_unit_zero (S := S1024x1024) hz3, View.ld_unit_zero (S := S1024x512) hz3]

def accAt3 : (n : ℕ) → n < cfg3.N → Vec F S1024x512 .f32
  | 0, hn => k3_pay2 (k3_pay1 (F := F)) (iblk3 V c 0 ⟨0, hn⟩) (iblk3 V c 1 ⟨0, hn⟩)
  | n + 1, hn =>
    k3_pay2 (if (n + 1) % 16 = 0 then k3_pay1 (F := F) else accAt3 n (Nat.lt_of_succ_lt hn))
      (iblk3 V c 0 ⟨n + 1, hn⟩) (iblk3 V c 1 ⟨n + 1, hn⟩)

def outsAt3 : (n : ℕ) → n < cfg3.N → Vec F S1024x512 .f32 × Vec F S1024x512 .f32 :=
  fun n hn => (accAt3 V c n hn, accAt3 V c n hn)

theorem sc3_first (t : Fin cfg3.N) (h : t.val % 16 = 0) :
    (outsAt3 V c t.val t.isLt).2 = k3_pay2 (k3_pay1 (F := F)) (iblk3 V c 0 t) (iblk3 V c 1 t) := by
  obtain ⟨_ | n, hn⟩ := t
  · rfl
  · show k3_pay2 (if _ then _ else _) _ _ = _; rw [if_pos h]

theorem sc3_next (t : Fin cfg3.N) (h : t.val % 16 ≠ 0) :
    (outsAt3 V c t.val t.isLt).2 = k3_pay2 (outsAt3 V c (t.val - 1) (Nat.lt_of_le_of_lt (Nat.sub_le _ _) t.isLt)).2 (iblk3 V c 0 t) (iblk3 V c 1 t) := by
  obtain ⟨_ | n, hn⟩ := t
  · exact absurd (Nat.zero_mod _) h
  · show k3_pay2 (if _ then _ else _) _ _ = _; rw [if_neg h]; rfl

theorem out3_last (t : Fin cfg3.N) (h : t.val % 16 = 15) :
    (outsAt3 V c t.val t.isLt).1 = (outsAt3 V c t.val t.isLt).2 := rfl

-- The scratch before position n: at anything before the first point, afterwards at what the point before left.
def PhiS3 (n : ℕ) (hn : n ≤ cfg3.N) : sProp 𝕄 :=
  iprop(iprop(iprop(∃ a, ⌜∀ h : n ≠ 0, a = accAt3 V c (n - 1) (by omega)⌝ ∗ owns c.tc (Memref.whole cc3_scratch0) fullShare a)
      ∗ Pipeline.scopedRestBut spec3 c [cc3_scratch0]) ∗ (∃ r, prngReg c r))

def dat3 : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => (outsAt3 V c t.val t.isLt).1
  Φ t := PhiS3 V c t.val (Nat.le_of_lt_succ t.isLt)
  q _ := fullShare
  owed _ := 0

theorem A_eq3 (w : Fin cfg3.W) : (dat3 V c).A w = V c (Pipeline.arrRef spec3 w) := rfl

theorem after3_2 (t : Fin cfg3.N) : (dat3 V c).after 2 t = (outsAt3 V c t.val t.isLt).1 := rfl

theorem before3_0 (t : Fin cfg3.N) (d) : (dat3 V c).before 0 t d = iblk3 V c 0 t :=
  (dat3 V c).before_in_eq_fetched 0 rfl (fun _ => rfl) (fun _ _ _ => rfl) (fun _ => rfl) t d
theorem before3_1 (t : Fin cfg3.N) (d) : (dat3 V c).before 1 t d = iblk3 V c 1 t :=
  (dat3 V c).before_in_eq_fetched 1 rfl (fun _ => rfl) (fun _ _ _ => rfl) (fun _ => rfl) t d

-- Where the second condition holds the output is left at the scratch, elsewhere as it was found.
theorem after3_out (t : Fin cfg3.N) (d) :
    owns c.tc (win3_2.stage (cfg3.slots t 2)) fullShare
        (if cond3_1 (grid3.coords t) then (outsAt3 V c t.val t.isLt).2 else (dat3 V c).before 2 t d) ⊢ (dat3 V c).leavesExact 2 t := by
  have hi := idleAt3_2 t
  split_ifs at hi ⊢
  · unfold Dat.leavesExact; rw [hi]; exact .rfl
  · rw [Dat.leavesExact_idle _ 2 t hi.1 hi.2]; iintro H; iexists d; iexact H

theorem PhiS3_eq (t : Fin (cfg3.N + 1)) : (dat3 V c).Φ t = PhiS3 V c t.val (Nat.le_of_lt_succ t.isLt) := rfl

theorem body_obligation3 : BodyObligation (dat3 (F := F) V c) (defs₀ (F := F)) Variants.none () Set.univ := fun t => by
  rw [bigSep_W3, bigSep_W3]
  simp only [before3_0, before3_1, PhiS3_eq, PhiS3]
  sl_whnfR [defs₀, Defs.onTc]
  iintro ⟨⟨⟨⟨%a, %ha, HS⟩, HR⟩, Hg⟩, Ho, ⟨%d0, H0⟩, ⟨%d1, H1⟩, ⟨%d2, H2⟩⟩
  have key : (outsAt3 V c t.val t.isLt).2
      = k3_pay2 (if cond3_0 (grid3.coords t) then k3_pay1 (F := F) else a) (iblk3 V c 0 t) (iblk3 V c 1 t) := by
    by_cases h : t.val % 16 = 0
    · rw [if_pos ((hcond3_0 t).mpr h)]; exact sc3_first V c t h
    · rw [if_neg fun hc => h ((hcond3_0 t).mp hc), ha fun e => h (by rw [show t.val = 0 from e])]; exact sc3_next V c t h
  iapply (kernelRun3_A c (grid3.coords t) _ _ _ _ _ _ ((dat3 V c).before 2 t d2) _ _ key Set.univ _)
  iframe H0 H1 H2 HS
  iintro ⟨H0, H1, H2, HS⟩
  isplitl [HS HR Hg]
  · iframe HR Hg; iexists _; isplitr; swap; · iexact HS
    ipureintro; exact fun _ => rfl
  isplitl [Ho]; · iexact Ho
  isplitl [H0]; · iexact H0
  isplitl [H1]; · iexact H1
  iapply (after3_out V c t d2); iexact H2

theorem hin3 : (Pipeline.ΦA spec3 c : sProp 𝕄) ⊢ (dat3 V c).Φ 0 := by
  simp only [Pipeline.ΦA, scopedRest3_split, ← owns_whole c.tc cc3_scratch0, PhiS3_eq, PhiS3]
  iintro ⟨⟨⟨%a, HS⟩, HR⟩, Hg⟩
  iframe HR Hg
  iexists a; isplitr; · ipureintro; exact fun h => absurd rfl h
  iexact HS

theorem hout3 : (dat3 V c).Φ (Fin.last cfg3.N) ⊢ (Pipeline.ΦA spec3 c : sProp 𝕄) := by
  simp only [Pipeline.ΦA, scopedRest3_split, ← owns_whole c.tc cc3_scratch0, PhiS3_eq, PhiS3]
  iintro ⟨⟨⟨%a, -, HS⟩, HR⟩, Hg⟩
  iframe HR Hg
  iexists a; iexact HS

end Cert.KernelIdeal.Hand

end
-- ==== Proof.KI.R4.lean ====
/- Region 4 of @main: at every grid point the output block is the zero block plus the product of the two input
   blocks (the last grid axis has one step). The region's proof data, its body obligation, and that block. -/
import proofs.«401501_j17162689315356_1_alg».proof.Proof.Gen.KernelIdeal.Launch
import proofs.«401501_j17162689315356_1_alg».proof.Proof.Gen.KernelIdeal.Skeleton
import proofs.«401501_j17162689315356_1_alg».proof.Proof.Gen.KernelIdeal.Points
import Idealize.ShloMosaic.Lib.Pipeline.Value
import Idealize.ShloMosaic.Lib.Ring
import Idealize.ShloMosaic.Lib.Tactic

noncomputable section

namespace Cert.KernelIdeal.Hand

open Cert.KernelIdeal.Gen
open Idealize.ShloMosaic Idealize.ShloMosaic.TcCoe
open Idealize.SL Idealize.SL.RA Idealize.SL.BI Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD)

/-- The body's two conditions on the last grid coordinate; both hold at every point. -/
abbrev cond4_0 (i : grid4.Coords) : Prop :=
  Scalar.cmpi .ne (Scalar.extui (Scalar.cmpi .eq (BitVec.ofNat 32 (i 2).val) 0#32)) 0#32 = 1#1 ∧ k4_cond2 i = 1#1

theorem hcond4_0 : ∀ t : Fin cfg4.N, cond4_0 (grid4.coords t) := by decide +kernel

theorem liveAt4_2 : ∀ t : Fin cfg4.N, cfg4.idle 2 (grid4.coords t) = false := by decide +kernel

theorem hz4 : (![0, 0] : Fin 2 → Nat) = fun _ => 0 := funext fun a => by fin_cases a <;> rfl

/-- With both conditions true the body leaves `0 + xa · xb` (as `k4_pay2 k4_pay1 xa xb`) in the output and the inputs as they were. -/
theorem kernelRun4 (i : grid4.Coords) (arg3 : Memref sig .tc .vmem S1024x256 .bf16) (harg3 : arg3.IsWhole) (arg4 : Memref sig .tc .vmem S256x64 .bf16) (harg4 : arg4.IsWhole) (arg5 : Memref sig .tc .vmem S1024x64 .f32) (harg5 : arg5.IsWhole) (arg6 : Memref sig .tc .vmem S1024x64 .f32) (harg6 : arg6.IsWhole) (hc : cond4_0 i)
    (xa : Vec F S1024x256 .bf16) (xb : Vec F S256x64 .bf16) (K : PUnit → sProp 𝕄) :
    iprop(owns (c : Thread nD τ) arg3 fullShare xa ∗ owns (c : Thread nD τ) arg4 fullShare xb ∗ (∃ d, owns (c : Thread nD τ) arg5 fullShare d) ∗ (∃ d, owns (c : Thread nD τ) arg6 fullShare d)
        ∗ (iprop(owns (c : Thread nD τ) arg3 fullShare xa ∗ owns (c : Thread nD τ) arg4 fullShare xb ∗ owns (c : Thread nD τ) arg5 fullShare (k4_pay2 (k4_pay1 (F := F)) xa xb) ∗ (∃ d, owns (c : Thread nD τ) arg6 fullShare d)) -∗ K ⟨⟩))
      ⊢ wp frame (wpE (defs₀ (F := F)) Variants.none c none) Set.univ (cc4__matmul_kernel i arg3 harg3 arg4 harg4 arg5 harg5 arg6 harg6) K := by
  simp only [cc4__matmul_kernel_eq_skeleton]; unfold cc4__matmul_kernel_skel
  unfold owns
  iintro ⟨⟨%fa, %hfa, Ha⟩, ⟨%fb, %hfb, Hb⟩, ⟨%dO, %fO, -, HO⟩, ⟨%dS, %fS, -, HS⟩, Hk⟩
  obtain rfl := harg3.eq_unread hfa; obtain rfl := harg4.eq_unread hfb
  sl_exec (disch := first | exact hc.1 | exact hc.2)
  sl_step
  iapply Hk
  isplitl [Ha]
  · iexists _; isplitr; · ipureintro; exact harg3.read_unread _
    iexact Ha
  isplitl [Hb]
  · iexists _; isplitr; · ipureintro; exact harg4.read_unread _
    iexact Hb
  isplitl [HO]
  · iexists _; isplitr; swap; · iexact HO
    ipureintro; sl_unfold_words
    rw [View.read_writes_eq_canon _ _ _ fun y => ⟨_, List.mem_cons_self, View.mem_set_unit_zero hz4 inb_S1024x64_S1024x64_0_0 y⟩,
      View.canon_unit_zero hz4, View.readCov_cons_toLoadRect, View.readCov_cons_toLoadRect]
    simp only [View.readAt_eq_ld, harg3.read_unread, harg4.read_unread, View.ld_unit_zero (S := S1024x256) hz4,
      View.ld_unit_zero (S := S256x64) hz4]
  iexists _, _; isplitr; swap; · iexact HS
  ipureintro; rfl

/-- Window `w`'s block at point `t` of the array contents `V`. -/
def iblk4 (w : Fin cfg4.W) (t : Fin cfg4.N) : ((cfg4.win w).xblock (cfg4.grid.coords t)).Idx → Elt F (cfg4.win w).elt :=
  ((cfg4.win w).blk t).view.read (Elt F) (V c (Pipeline.arrRef spec4 w))

/-- What the step at position `n` leaves (output block, accumulator): the product of its two input blocks. -/
def outsAt4 : (n : ℕ) → n < cfg4.N → Vec F S1024x64 .f32 × Vec F S1024x64 .f32 :=
  fun n hn => let y := k4_pay2 (k4_pay1 (F := F)) (iblk4 V c 0 ⟨n, hn⟩) (iblk4 V c 1 ⟨n, hn⟩); (y, y)

/-- The region's proof data: no point depends on the one before, so the invariant is the same at every point. -/
def dat4 : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => (outsAt4 V c t.val t.isLt).1
  Φ _ := Pipeline.ΦA spec4 c
  q _ := fullShare
  owed _ := 0

theorem A_eq4 (w : Fin cfg4.W) : (dat4 V c).A w = V c (Pipeline.arrRef spec4 w) := rfl

theorem after4_0 (t : Fin cfg4.N) : (dat4 V c).after 0 t = iblk4 V c 0 t := by dsimp only [dat4]
theorem after4_1 (t : Fin cfg4.N) : (dat4 V c).after 1 t = iblk4 V c 1 t := by dsimp only [dat4]
theorem after4_2 (t : Fin cfg4.N) : (dat4 V c).after 2 t = (outsAt4 V c t.val t.isLt).1 := by dsimp only [dat4]

theorem out4_step (t : Fin cfg4.N) :
    (outsAt4 V c t.val t.isLt).1 = k4_pay2 (k4_pay1 (F := F)) (iblk4 V c 0 t) (iblk4 V c 1 t) := rfl

theorem Phi4_eq (t : Fin (cfg4.N + 1)) : (dat4 V c).Φ t = (Pipeline.ΦA spec4 c : sProp 𝕄) := rfl

theorem hin4 : (Pipeline.ΦA spec4 c : sProp 𝕄) ⊢ (dat4 V c).Φ 0 := by rw [Phi4_eq]

theorem hout4 : (dat4 V c).Φ (Fin.last cfg4.N) ⊢ (Pipeline.ΦA spec4 c : sProp 𝕄) := by rw [Phi4_eq]

/-- At every point the body finds each input window at the array's block there. -/
theorem before4_0 (t : Fin cfg4.N) (d) : (dat4 V c).before 0 t d = iblk4 V c 0 t :=
  (dat4 V c).before_in_eq_fetched 0 rfl (fun _ => rfl) (fun _ _ _ => rfl) (fun _ => rfl) t d

theorem before4_1 (t : Fin cfg4.N) (d) : (dat4 V c).before 1 t d = iblk4 V c 1 t :=
  (dat4 V c).before_in_eq_fetched 1 rfl (fun _ => rfl) (fun _ _ _ => rfl) (fun _ => rfl) t d

/-- At every point the body meets `kernelRun4` on the two input blocks; nothing else changes. -/
theorem body_obligation4 : BodyObligation (dat4 (F := F) V c) (defs₀ (F := F)) Variants.none () Set.univ := fun t => by
  rw [bigSep_W4, bigSep_W4, liveAt4_2 t]
  simp only [before4_0, before4_1, after4_0, after4_1, after4_2, out4_step, Phi4_eq, Pipeline.ΦA, scopedRest4_split,
    ← owns_whole c.tc cc4_scratch0]
  sl_whnfR [defs₀, Defs.onTc]
  iintro ⟨⟨⟨HS, Hrest⟩, Hg⟩, Ho, ⟨%da, Ha⟩, ⟨%db, Hb⟩, ⟨%dO, HO⟩⟩
  iapply kernelRun4 c (grid4.coords t) _ _ _ _ _ _ _ _ (hcond4_0 t) (iblk4 V c 0 t) (iblk4 V c 1 t) _
  iframe Ha Hb HS
  isplitl [HO]; · iexists _; iexact HO
  iintro ⟨Ha, Hb, HO, HS⟩
  iframe
  iexact Ho

end Cert.KernelIdeal.Hand

end
-- ==== Proof.KI.R5.lean ====
/- Region 5: a block product accumulated along the last grid axis into a scratch that is stored out at the axis's
   last step. The proof data over the entry contents `V`, the body run once for every point, and the recurrences
   the scratch obeys. -/
import proofs.«401501_j17162689315356_1_alg».proof.Proof.Gen.KernelIdeal.Launch
import proofs.«401501_j17162689315356_1_alg».proof.Proof.Gen.KernelIdeal.Skeleton
import proofs.«401501_j17162689315356_1_alg».proof.Proof.Gen.KernelIdeal.Points
import Idealize.ShloMosaic.Lib.Pipeline.Value
import Idealize.ShloMosaic.Lib.Ring
import Idealize.ShloMosaic.Lib.Tactic

noncomputable section

namespace Cert.KernelIdeal.Hand

open Cert.KernelIdeal.Gen
open Idealize.ShloMosaic Idealize.ShloMosaic.TcCoe
open Idealize.SL Idealize.SL.RA Idealize.SL.BI Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD)

def iblk5 (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev cond5_0 (i : grid5.Coords) : Prop := (Scalar.cmpi .ne (Scalar.extui (Scalar.cmpi .eq (BitVec.ofNat 32 (i 2).val) 0#32)) 0#32) = 1#1
abbrev cond5_1 (i : grid5.Coords) : Prop := k5_cond2 i = 1#1

theorem hcond5_0 : ∀ t : Fin cfg5.N, cond5_0 (grid5.coords t) ↔ t.val % 16 = 0 :=
  (by decide +kernel : ∀ t : Fin grid5.N, cond5_0 (grid5.coords t) ↔ t.val % 16 = 0)

theorem idleAt5_2 : ∀ t : Fin cfg5.N, if cond5_1 (grid5.coords t) then cfg5.idle 2 (grid5.coords t) = false
    else cfg5.idle 2 (grid5.coords t) = true ∧ (cfg5.win 2).flush t = false := by decide +kernel

theorem hz5 : (![0, 0] : Fin 2 → Nat) = fun _ => 0 := funext fun a => by fin_cases a <;> rfl

-- A store of a whole block, made last, is what the buffer then reads.
theorem cover5_read {S : Shape} {e : EltTy} {sig' : RefSig} {κ : Kind} {sp : Space} (v : View sig' κ sp S e) (f : v.ty.Contents (Elt F))
    {off : Fin S.rank → ℕ} (hz : off = fun _ => 0) (inb : ∀ a, off a + S.size a ≤ S.size a) (w : S.Idx → Elt F e)
    (L : List (View.Piece (Elt F) S e)) : v.read (Elt F) (v.writes (Elt F) f (⟨Rect.unit off S.size inb, w⟩ :: L)) = w :=
  (View.read_writes_eq_canon _ _ _ fun y => ⟨_, List.mem_cons_self, View.mem_set_unit_zero hz inb y⟩).trans
    (View.canon_cons_unit_zero hz inb w L)

-- The body at any grid point: the scratch, reset under the first condition, takes the block product; under the second it is copied out.
theorem kernelRun5_A (i : grid5.Coords) {m0 : Memref sig .tc .vmem S1024x1024 .bf16} {m1 : Memref sig .tc .vmem S1024x64 .bf16}
    {m2 m3 : Memref sig .tc .vmem S1024x64 .f32} (h0 : m0.IsWhole) (h1 : m1.IsWhole) (h2 : m2.IsWhole) (h3 : m3.IsWhole)
    (x0 : Vec F S1024x1024 .bf16) (x1 : Vec F S1024x64 .bf16) (xo xs s : Vec F S1024x64 .f32)
    (hs : s = k5_pay2 (if cond5_0 i then k5_pay1 (F := F) else xs) x0 x1) (E : Set ℕ) (K : PUnit → sProp 𝕄) :
    iprop(owns c.tc m0 fullShare x0 ∗ owns c.tc m1 fullShare x1 ∗ owns c.tc m2 fullShare xo ∗ owns c.tc m3 fullShare xs
        ∗ (iprop(owns c.tc m0 fullShare x0 ∗ owns c.tc m1 fullShare x1 ∗ owns c.tc m2 fullShare (if cond5_1 i then s else xo)
            ∗ owns c.tc m3 fullShare s) -∗ K ⟨⟩))
      ⊢ wp frame (wpE (defs₀ (F := F)) Variants.none c none) E (cc5__matmul_kernel i m0 h0 m1 h1 m2 h2 m3 h3) K := by
  subst hs; split_ifs
  all_goals
    simp only [cc5__matmul_kernel_eq_skeleton]; unfold cc5__matmul_kernel_skel owns
    iintro ⟨⟨%f0, %e0, H0⟩, ⟨%f1, %e1, H1⟩, ⟨%fo, %eo, HO⟩, ⟨%fs, %es, HS⟩, Hk⟩
    sl_exec
    sl_step
    iapply Hk
    isplitl [H0]; iexists _; isplitr; swap; iexact H0; rotate_left
    isplitl [H1]; iexists _; isplitr; swap; iexact H1; rotate_left
    isplitl [HO]; iexists _; isplitr; swap; iexact HO; rotate_left
    iexists _; isplitr; swap; iexact HS
    all_goals
      ipureintro; try sl_unfold_words
      simp only [cover5_read (S := S1024x64) _ _ hz5, View.readCov_cons_toLoadRect, View.readAt_eq_ld,
        e0, e1, eo, es, View.ld_unit_zero (S := S1024x1024) hz5, View.ld_unit_zero (S := S1024x64) hz5]

def accAt5 : (n : ℕ) → n < cfg5.N → Vec F S1024x64 .f32
  | 0, hn => k5_pay2 (k5_pay1 (F := F)) (iblk5 V c 0 ⟨0, hn⟩) (iblk5 V c 1 ⟨0, hn⟩)
  | n + 1, hn =>
    k5_pay2 (if (n + 1) % 16 = 0 then k5_pay1 (F := F) else accAt5 n (Nat.lt_of_succ_lt hn))
      (iblk5 V c 0 ⟨n + 1, hn⟩) (iblk5 V c 1 ⟨n + 1, hn⟩)

def outsAt5 : (n : ℕ) → n < cfg5.N → Vec F S1024x64 .f32 × Vec F S1024x64 .f32 :=
  fun n hn => (accAt5 V c n hn, accAt5 V c n hn)

theorem sc5_first (t : Fin cfg5.N) (h : t.val % 16 = 0) :
    (outsAt5 V c t.val t.isLt).2 = k5_pay2 (k5_pay1 (F := F)) (iblk5 V c 0 t) (iblk5 V c 1 t) := by
  obtain ⟨_ | n, hn⟩ := t
  · rfl
  · show k5_pay2 (if _ then _ else _) _ _ = _; rw [if_pos h]

theorem sc5_next (t : Fin cfg5.N) (h : t.val % 16 ≠ 0) :
    (outsAt5 V c t.val t.isLt).2 = k5_pay2 (outsAt5 V c (t.val - 1) (Nat.lt_of_le_of_lt (Nat.sub_le _ _) t.isLt)).2 (iblk5 V c 0 t) (iblk5 V c 1 t) := by
  obtain ⟨_ | n, hn⟩ := t
  · exact absurd (Nat.zero_mod _) h
  · show k5_pay2 (if _ then _ else _) _ _ = _; rw [if_neg h]; rfl

theorem out5_last (t : Fin cfg5.N) (h : t.val % 16 = 15) :
    (outsAt5 V c t.val t.isLt).1 = (outsAt5 V c t.val t.isLt).2 := rfl

-- The scratch before position n: at anything before the first point, afterwards at what the point before left.
def PhiS5 (n : ℕ) (hn : n ≤ cfg5.N) : sProp 𝕄 :=
  iprop(iprop(iprop(∃ a, ⌜∀ h : n ≠ 0, a = accAt5 V c (n - 1) (by omega)⌝ ∗ owns c.tc (Memref.whole cc5_scratch0) fullShare a)
      ∗ Pipeline.scopedRestBut spec5 c [cc5_scratch0]) ∗ (∃ r, prngReg c r))

def dat5 : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => (outsAt5 V c t.val t.isLt).1
  Φ t := PhiS5 V c t.val (Nat.le_of_lt_succ t.isLt)
  q _ := fullShare
  owed _ := 0

theorem A_eq5 (w : Fin cfg5.W) : (dat5 V c).A w = V c (Pipeline.arrRef spec5 w) := rfl

theorem after5_2 (t : Fin cfg5.N) : (dat5 V c).after 2 t = (outsAt5 V c t.val t.isLt).1 := rfl

theorem before5_0 (t : Fin cfg5.N) (d) : (dat5 V c).before 0 t d = iblk5 V c 0 t :=
  (dat5 V c).before_in_eq_fetched 0 rfl (fun _ => rfl) (fun _ _ _ => rfl) (fun _ => rfl) t d
theorem before5_1 (t : Fin cfg5.N) (d) : (dat5 V c).before 1 t d = iblk5 V c 1 t :=
  (dat5 V c).before_in_eq_fetched 1 rfl (fun _ => rfl) (fun _ _ _ => rfl) (fun _ => rfl) t d

-- Where the second condition holds the output is left at the scratch, elsewhere as it was found.
theorem after5_out (t : Fin cfg5.N) (d) :
    owns c.tc (win5_2.stage (cfg5.slots t 2)) fullShare
        (if cond5_1 (grid5.coords t) then (outsAt5 V c t.val t.isLt).2 else (dat5 V c).before 2 t d) ⊢ (dat5 V c).leavesExact 2 t := by
  have hi := idleAt5_2 t
  split_ifs at hi ⊢
  · unfold Dat.leavesExact; rw [hi]; exact .rfl
  · rw [Dat.leavesExact_idle _ 2 t hi.1 hi.2]; iintro H; iexists d; iexact H

theorem PhiS5_eq (t : Fin (cfg5.N + 1)) : (dat5 V c).Φ t = PhiS5 V c t.val (Nat.le_of_lt_succ t.isLt) := rfl

theorem body_obligation5 : BodyObligation (dat5 (F := F) V c) (defs₀ (F := F)) Variants.none () Set.univ := fun t => by
  rw [bigSep_W5, bigSep_W5]
  simp only [before5_0, before5_1, PhiS5_eq, PhiS5]
  sl_whnfR [defs₀, Defs.onTc]
  iintro ⟨⟨⟨⟨%a, %ha, HS⟩, HR⟩, Hg⟩, Ho, ⟨%d0, H0⟩, ⟨%d1, H1⟩, ⟨%d2, H2⟩⟩
  have key : (outsAt5 V c t.val t.isLt).2
      = k5_pay2 (if cond5_0 (grid5.coords t) then k5_pay1 (F := F) else a) (iblk5 V c 0 t) (iblk5 V c 1 t) := by
    by_cases h : t.val % 16 = 0
    · rw [if_pos ((hcond5_0 t).mpr h)]; exact sc5_first V c t h
    · rw [if_neg fun hc => h ((hcond5_0 t).mp hc), ha fun e => h (by rw [show t.val = 0 from e])]; exact sc5_next V c t h
  iapply (kernelRun5_A c (grid5.coords t) _ _ _ _ _ _ ((dat5 V c).before 2 t d2) _ _ key Set.univ _)
  iframe H0 H1 H2 HS
  iintro ⟨H0, H1, H2, HS⟩
  isplitl [HS HR Hg]
  · iframe HR Hg; iexists _; isplitr; swap; · iexact HS
    ipureintro; exact fun _ => rfl
  isplitl [Ho]; · iexact Ho
  isplitl [H0]; · iexact H0
  isplitl [H1]; · iexact H1
  iapply (after5_out V c t d2); iexact H2

theorem hin5 : (Pipeline.ΦA spec5 c : sProp 𝕄) ⊢ (dat5 V c).Φ 0 := by
  simp only [Pipeline.ΦA, scopedRest5_split, ← owns_whole c.tc cc5_scratch0, PhiS5_eq, PhiS5]
  iintro ⟨⟨⟨%a, HS⟩, HR⟩, Hg⟩
  iframe HR Hg
  iexists a; isplitr; · ipureintro; exact fun h => absurd rfl h
  iexact HS

theorem hout5 : (dat5 V c).Φ (Fin.last cfg5.N) ⊢ (Pipeline.ΦA spec5 c : sProp 𝕄) := by
  simp only [Pipeline.ΦA, scopedRest5_split, ← owns_whole c.tc cc5_scratch0, PhiS5_eq, PhiS5]
  iintro ⟨⟨⟨%a, -, HS⟩, HR⟩, Hg⟩
  iframe HR Hg
  iexists a; iexact HS

end Cert.KernelIdeal.Hand

end
-- ==== Proof.KI.Vals.lean ====
/- The contents of a core's unscoped buffers at each boundary between two items of @main, folded from the launch memory. -/
import proofs.«401501_j17162689315356_1_alg».proof.Proof.KI.R0
import proofs.«401501_j17162689315356_1_alg».proof.Proof.KI.R1
import proofs.«401501_j17162689315356_1_alg».proof.Proof.KI.R2
import proofs.«401501_j17162689315356_1_alg».proof.Proof.KI.R3
import proofs.«401501_j17162689315356_1_alg».proof.Proof.KI.R4
import proofs.«401501_j17162689315356_1_alg».proof.Proof.KI.R5
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe

variable {F : FTy → Type} [FloatOps F]
variable (m : (ℓ : Loc nD τ sig) → Buf (Elt F) ℓ)

abbrev W0 : Dev nD → Valuation τ sig (Elt F) := fun c b => m ((c : Dev nD), b)

abbrev W1 : Dev nD → Valuation τ sig (Elt F) := fun c => StableHlo.after hostOps0 (W0 m c)
abbrev V1 : (c : Dev nD) → (b : Ref sig .tc) → Buf (Elt F) ((c : Thread nD τ).loc b) := fun c b => W1 m c b

def W2 (c : Dev nD) : Valuation τ sig (Elt F) :=
  Pipeline.withArrays spec0 c (W1 m c) fun w => (dat0 (V1 m) c).arrAt w cfg0.N
abbrev V2 : (c : Dev nD) → (b : Ref sig .tc) → Buf (Elt F) ((c : Thread nD τ).loc b) := fun c b => W2 m c b
abbrev W3 : Dev nD → Valuation τ sig (Elt F) := fun c => StableHlo.after hostOps1 (W2 m c)
abbrev V3 : (c : Dev nD) → (b : Ref sig .tc) → Buf (Elt F) ((c : Thread nD τ).loc b) := fun c b => W3 m c b

def W4 (c : Dev nD) : Valuation τ sig (Elt F) :=
  Pipeline.withArrays spec1 c (W3 m c) fun w => (dat1 (V3 m) c).arrAt w cfg1.N
abbrev V4 : (c : Dev nD) → (b : Ref sig .tc) → Buf (Elt F) ((c : Thread nD τ).loc b) := fun c b => W4 m c b
abbrev W5 : Dev nD → Valuation τ sig (Elt F) := fun c => StableHlo.after hostOps2 (W4 m c)
abbrev V5 : (c : Dev nD) → (b : Ref sig .tc) → Buf (Elt F) ((c : Thread nD τ).loc b) := fun c b => W5 m c b

def W6 (c : Dev nD) : Valuation τ sig (Elt F) :=
  Pipeline.withArrays spec2 c (W5 m c) fun w => (dat2 (V5 m) c).arrAt w cfg2.N
abbrev V6 : (c : Dev nD) → (b : Ref sig .tc) → Buf (Elt F) ((c : Thread nD τ).loc b) := fun c b => W6 m c b
abbrev W7 : Dev nD → Valuation τ sig (Elt F) := fun c => StableHlo.after hostOps3 (W6 m c)
abbrev W8 : Dev nD → Valuation τ sig (Elt F) := fun c => StableHlo.after hostOps3_1 (W7 m c)
abbrev V8 : (c : Dev nD) → (b : Ref sig .tc) → Buf (Elt F) ((c : Thread nD τ).loc b) := fun c b => W8 m c b

def W9 (c : Dev nD) : Valuation τ sig (Elt F) :=
  Pipeline.withArrays spec3 c (W8 m c) fun w => (dat3 (V8 m) c).arrAt w cfg3.N
abbrev V9 : (c : Dev nD) → (b : Ref sig .tc) → Buf (Elt F) ((c : Thread nD τ).loc b) := fun c b => W9 m c b
abbrev W10 : Dev nD → Valuation τ sig (Elt F) := fun c => StableHlo.after hostOps4 (W9 m c)
abbrev V10 : (c : Dev nD) → (b : Ref sig .tc) → Buf (Elt F) ((c : Thread nD τ).loc b) := fun c b => W10 m c b

def W11 (c : Dev nD) : Valuation τ sig (Elt F) :=
  Pipeline.withArrays spec4 c (W10 m c) fun w => (dat4 (V10 m) c).arrAt w cfg4.N
abbrev V11 : (c : Dev nD) → (b : Ref sig .tc) → Buf (Elt F) ((c : Thread nD τ).loc b) := fun c b => W11 m c b
abbrev W12 : Dev nD → Valuation τ sig (Elt F) := fun c => StableHlo.after hostOps5 (W11 m c)
abbrev V12 : (c : Dev nD) → (b : Ref sig .tc) → Buf (Elt F) ((c : Thread nD τ).loc b) := fun c b => W12 m c b

def W13 (c : Dev nD) : Valuation τ sig (Elt F) :=
  Pipeline.withArrays spec5 c (W12 m c) fun w => (dat5 (V12 m) c).arrAt w cfg5.N
abbrev V13 : (c : Dev nD) → (b : Ref sig .tc) → Buf (Elt F) ((c : Thread nD τ).loc b) := fun c b => W13 m c b

abbrev W14 : Dev nD → Valuation τ sig (Elt F) := fun c => StableHlo.after hostOps6 (W13 m c)

end Cert.KernelIdeal.Hand

end
-- ==== Proof.KI.Arr.lean ====
/- A region's exit contents: its windows' arrays as the write-backs leave them, every other buffer as found. -/
import proofs.«401501_j17162689315356_1_alg».proof.Proof.KI.Vals

set_option maxRecDepth 16384

noncomputable section

namespace Cert.KernelIdeal.Hand

open Cert.KernelIdeal Cert.KernelIdeal.Gen
open Idealize.ShloMosaic Idealize.ShloMosaic.TcCoe

variable {F : FTy → Type} [FloatOps F]
variable (m : (ℓ : Loc nD τ sig) → Buf (Elt F) ℓ)

theorem W2_arr (c : Dev nD) (w : Fin cfg0.W) :
    W2 m c (Proc.devRef .tc (Pipeline.arrRef spec0 w)) = (dat0 (V1 m) c).arrAt w cfg0.N :=
  Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) :=
  Pipeline.withArrays_of_ne spec0 c _ _ b hb

theorem W4_arr (c : Dev nD) (w : Fin cfg1.W) :
    W4 m c (Proc.devRef .tc (Pipeline.arrRef spec1 w)) = (dat1 (V3 m) c).arrAt w cfg1.N :=
  Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) :=
  Pipeline.withArrays_of_ne spec1 c _ _ b hb

theorem W6_arr (c : Dev nD) (w : Fin cfg2.W) :
    W6 m c (Proc.devRef .tc (Pipeline.arrRef spec2 w)) = (dat2 (V5 m) c).arrAt w cfg2.N :=
  Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) :=
  Pipeline.withArrays_of_ne spec2 c _ _ b hb

theorem W9_arr (c : Dev nD) (w : Fin cfg3.W) :
    W9 m c (Proc.devRef .tc (Pipeline.arrRef spec3 w)) = (dat3 (V8 m) c).arrAt w cfg3.N :=
  Pipeline.withArrays_arr spec3 launch3.win.arr_inj c _ _ w
theorem W9_of_ne (c : Dev nD) (b : Ref sig .tc) (hb : ∀ w, Pipeline.arrRef spec3 w ≠ b) :
    W9 m c (Proc.devRef .tc b) = W8 m c (Proc.devRef .tc b) :=
  Pipeline.withArrays_of_ne spec3 c _ _ b hb

theorem W11_arr (c : Dev nD) (w : Fin cfg4.W) :
    W11 m c (Proc.devRef .tc (Pipeline.arrRef spec4 w)) = (dat4 (V10 m) c).arrAt w cfg4.N :=
  Pipeline.withArrays_arr spec4 launch4.win.arr_inj c _ _ w
theorem W11_of_ne (c : Dev nD) (b : Ref sig .tc) (hb : ∀ w, Pipeline.arrRef spec4 w ≠ b) :
    W11 m c (Proc.devRef .tc b) = W10 m c (Proc.devRef .tc b) :=
  Pipeline.withArrays_of_ne spec4 c _ _ b hb

theorem W13_arr (c : Dev nD) (w : Fin cfg5.W) :
    W13 m c (Proc.devRef .tc (Pipeline.arrRef spec5 w)) = (dat5 (V12 m) c).arrAt w cfg5.N :=
  Pipeline.withArrays_arr spec5 launch5.win.arr_inj c _ _ w
theorem W13_of_ne (c : Dev nD) (b : Ref sig .tc) (hb : ∀ w, Pipeline.arrRef spec5 w ≠ b) :
    W13 m c (Proc.devRef .tc b) = W12 m c (Proc.devRef .tc b) :=
  Pipeline.withArrays_of_ne spec5 c _ _ b hb

end Cert.KernelIdeal.Hand

end
-- ==== Proof.KI.Run.lean ====
/- The launch of @main: its fourteen items run in order from the launch memory, every unscoped buffer ends at the
   last boundary's contents, and no item changes an argument array. -/
import proofs.«401501_j17162689315356_1_alg».proof.Proof.KI.Arr
import proofs.«401501_j17162689315356_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ)

-- Each stretch leaves what it does not write, each region what is no array of its windows.
theorem W14_of_untouched (c : Dev nD) (r : Ref sig .tc)
    (h : (r ∉ hostOps0_W ∧ r ∉ hostOps1_W ∧ r ∉ hostOps2_W ∧ r ∉ hostOps3_W ∧ r ∉ hostOps3_1_W ∧ r ∉ hostOps4_W
      ∧ r ∉ hostOps5_W ∧ r ∉ hostOps6_W) ∧ ∀ p w, Pipeline.arrRef (cfgs p).spec w ≠ r) :
    W14 m c (Proc.devRef .tc r) = m ((c : Thread nD τ).loc r) := by
  obtain ⟨⟨h0, h1, h2, h3, h3', h4, h5, h6⟩, n⟩ := h
  exact (StableHlo.after_of_writes_sub hostOps6 _ hostOps6_writes h6).trans <| (W13_of_ne m c r (n 5)).trans <|
    (StableHlo.after_of_writes_sub hostOps5 _ hostOps5_writes h5).trans <| (W11_of_ne m c r (n 4)).trans <|
    (StableHlo.after_of_writes_sub hostOps4 _ hostOps4_writes h4).trans <| (W9_of_ne m c r (n 3)).trans <|
    (StableHlo.after_of_writes_sub hostOps3_1 _ hostOps3_1_writes h3').trans <|
    (StableHlo.after_of_writes_sub hostOps3 _ hostOps3_writes h3).trans <| (W6_of_ne m c r (n 2)).trans <|
    (StableHlo.after_of_writes_sub hostOps2 _ hostOps2_writes h2).trans <| (W4_of_ne m c r (n 1)).trans <|
    (StableHlo.after_of_writes_sub hostOps1 _ hostOps1_writes h1).trans <| (W2_of_ne m c r (n 0)).trans <|
    StableHlo.after_of_writes_sub hostOps0 _ hostOps0_writes h0

namespace Run

def pdats : (p : Fin 6) → (c : Dev nD) → Dat τ (Elt F) Unit ℕ (UR sig nD τ) ℕ (Pipeline.pin (pcfgs (F := F)) adm p) c
  | ⟨0, _⟩ => dat0 (V1 m)
  | ⟨1, _⟩ => dat1 (V3 m)
  | ⟨2, _⟩ => dat2 (V5 m)
  | ⟨3, _⟩ => dat3 (V8 m)
  | ⟨4, _⟩ => dat4 (V10 m)
  | ⟨5, _⟩ => dat5 (V12 m)

-- By cases on the region: each fact holds by the definition of that region's proof data.
theorem pdats_plain (p : Fin 6) (c : Dev nD) : (∀ t, (pdats m p c).owed t = 0) ∧ (∀ x, x ∈ (pdats m p c).recorded 0)
    ∧ ∀ w, (pdats m p c).q w = fullShare := by
  fin_cases p <;> exact ⟨fun _ => rfl, fun _ => trivial, fun _ => rfl⟩

abbrev 𝒱₀ : Variants := Variants.none
abbrev L : GSem nD τ sig → Finset Unit := fun _ => ∅
abbrev lv : GSem nD τ sig → Unit → ℕ := fun _ _ => 0
-- What rides beside the buffers through every item: the generator register at some state, and nothing owed.
abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (List.forall_iff_forall_mem.mp hfresh) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

-- What region `p` leaves when entered from `Wb`: its arrays as written back, every other buffer as found.
abbrev exitAt (p : Fin 6) (Wb : Dev nD → Valuation τ sig (Elt F)) (c : Dev nD) : Valuation τ sig (Elt F) :=
  Pipeline.withArrays (cfgs p).spec c (Wb c) fun w => (pdats m p c).arrAt w (cfgs p).N

-- Region `p` entered from `Wb`: entry splits its arrays out of the unscoped buffers, exit puts them back.
set_option backward.isDefEq.respectTransparency.types false in
def regionSeg (p : Fin 6) (lf : Pipeline.LaunchFacts (nD := nD) (τ := τ) cfgs p)
    (Wb : Dev nD → Valuation τ sig (Elt F))
    (hbody : ∀ c, BodyObligation (pdats m p c) (defs₀ (F := F)) Variants.none () Set.univ)
    (hA : ∀ c w, (pdats m p c).A w = Wb c (Proc.devRef .tc (Pipeline.arrRef (cfgs p).spec w)))
    (hΦin : ∀ c, (Pipeline.ΦA (cfgs p).spec c : sProp 𝕄) ⊢ (pdats m p c).Φ 0)
    (hΦout : ∀ c, (pdats m p c).Φ (Fin.last (cfgs p).N) ⊢ (Pipeline.ΦA (cfgs p).spec c : sProp 𝕄)) :
    Pipeline.RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p fun c => (pdats_plain m p c).1
  pre c := iprop(StableHlo.held (c : Thread nD τ) (Pipeline.ucRefs τ sig) (Wb c) ∗ R c)
  post c := iprop(StableHlo.held (c : Thread nD τ) (Pipeline.ucRefs τ sig) (exitAt m p Wb c) ∗ R c)
  X c := iprop(∃ r, prngReg c r)
  Y c := iprop(∃ r, prngReg c r)
  Z c := Pipeline.unscopedRest (Ix := Unit) (Name := ℕ) (U := UR sig nD τ) (Lvl := ℕ) (cfgs p).spec c (fun b => Wb c b)
  hentry c := by
    rw [Pipeline.ownSems0_none]
    have hsplit := Pipeline.arrays_of_unscopedBufs (p := p) (pcfgs (F := F)) adm (pdats m) lf.win lf.arr_whole c
      ((pdats m p c).share_full (pdats_plain m p c).2.2) (fun b => Wb c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [(pdats_plain m p c).1 0]
      icases HO with ⟨%W, HO⟩; iexists W; isplitr; · ipureintro; exact fun x _ => Or.inl ((pdats_plain m p c).2.1 x)
      iexact HO
    isplitl [Hp]; · iexact Hp
    iexact Hrest
  hin c := by
    refine BIBase.Entails.trans ?_ (hΦin c)
    unfold Pipeline.ΦA
    iintro ⟨Hp, -, Hr⟩
    iframe
  hout c := by
    rw [Pipeline.ownSems0_none]
    refine BIBase.Entails.trans (hΦout c) ?_
    unfold Pipeline.ΦA
    iintro ⟨Hr, Hp⟩
    iframe; iempintro
  hexit c := by
    have hjoin := Pipeline.unscopedBufs_of_arrays (p := p) (pcfgs (F := F)) adm (Ix := Unit) (Name := ℕ) (U := UR sig nD τ) (Lvl := ℕ)
      lf.win lf.arr_whole c (pdats m) ((pdats m p c).share_full (pdats_plain m p c).2.2)
      (fun b => Wb c b) (fun b => exitAt m p Wb c b) _ (fun w => (Pipeline.withArrays_arr _ lf.win.arr_inj c _ _ w).symm)
      (fun b hb => Pipeline.withArrays_of_ne _ c _ _ b fun w e => hb (Finset.mem_image.mpr ⟨w, Finset.mem_univ _, e⟩))
    rw [Pipeline.unscopedBufs_held] at hjoin
    unfold Pipeline.Dat.owesAt Pipeline.owesWithin
    rw [(pdats_plain m p c).1 (Fin.last _)]
    iintro ⟨Ha, HO, HY, Hrest⟩
    imodintro
    isplitl [Ha Hrest]
    · iapply hjoin; isplitl [Ha] <;> iassumption
    isplitl [HY]; · iexact HY
    icases HO with ⟨%W, -, HO⟩; iexists W; iexact HO

def reg0 : Pipeline.RegionSeg (pcfgs (F := F)) adm (pdats m) () defs₀ 𝒱₀ L lv 0 :=
  regionSeg m 0 launch0 (W1 m) (body_obligation0 (V1 m)) (A_eq0 (V1 m)) (hin0 (V1 m)) (hout0 (V1 m))
def reg1 : Pipeline.RegionSeg (pcfgs (F := F)) adm (pdats m) () defs₀ 𝒱₀ L lv 1 :=
  regionSeg m 1 launch1 (W3 m) (body_obligation1 (V3 m)) (A_eq1 (V3 m)) (hin1 (V3 m)) (hout1 (V3 m))
def reg2 : Pipeline.RegionSeg (pcfgs (F := F)) adm (pdats m) () defs₀ 𝒱₀ L lv 2 :=
  regionSeg m 2 launch2 (W5 m) (body_obligation2 (V5 m)) (A_eq2 (V5 m)) (hin2 (V5 m)) (hout2 (V5 m))
def reg3 : Pipeline.RegionSeg (pcfgs (F := F)) adm (pdats m) () defs₀ 𝒱₀ L lv 3 :=
  regionSeg m 3 launch3 (W8 m) (body_obligation3 (V8 m)) (A_eq3 (V8 m)) (hin3 (V8 m)) (hout3 (V8 m))
def reg4 : Pipeline.RegionSeg (pcfgs (F := F)) adm (pdats m) () defs₀ 𝒱₀ L lv 4 :=
  regionSeg m 4 launch4 (W10 m) (body_obligation4 (V10 m)) (A_eq4 (V10 m)) (hin4 (V10 m)) (hout4 (V10 m))
def reg5 : Pipeline.RegionSeg (pcfgs (F := F)) adm (pdats m) () defs₀ 𝒱₀ L lv 5 :=
  regionSeg m 5 launch5 (W12 m) (body_obligation5 (V12 m)) (A_eq5 (V12 m)) (hin5 (V12 m)) (hout5 (V12 m))

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)),
    .host (hseg hostOps3_1 hostOps3_1_sub hostOps3_1_fresh (W7 m)),
    .region (reg3 m),
    .host (hseg hostOps4 hostOps4_sub hostOps4_fresh (W9 m)),
    .region (reg4 m),
    .host (hseg hostOps5 hostOps5_sub hostOps5_fresh (W11 m)),
    .region (reg5 m),
    .host (hseg hostOps6 hostOps6_sub hostOps6_fresh (W13 m)) ]

end Run

open Run

-- @main terminates with every unscoped buffer at `W14`; no item changes an argument array.
set_option backward.isDefEq.respectTransparency.types false in
theorem result (ρ : Dev nD → PrngReg) :
    θ_run defs (onTc (τ := τ) (main (F := F))) ⟨m, fun _ => 0, ρ⟩ (fun r => ∀ c : Dev nD,
      r.2.mem ((c.tc : Thread nD τ).loc main_v92) = W14 m c (Proc.devRef .tc main_v92)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m) () cellOf_inj emb₁ defs₀ 𝒱₀ L lv m ρ main (Run.segs m)
    (fun c Q => by rw [main_chain c, Pipeline.Seg.run_eq_chain]; exact .rfl)
    (by simp only [Run.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl,
      fun c => by
        show iprop(StableHlo.held (c : Thread nD τ) (Pipeline.ucRefs τ sig) (W14 m c) ∗ R c)
          ⊢ iprop(StableHlo.held (c : Thread nD τ) (Pipeline.ucRefs τ sig) (W14 m c)
              ∗ ∃ W, owes (c : Thread nD τ) (0 : CellTallies nD τ sig Unit) W)
        iintro ⟨Hh, -, HO⟩
        iframe⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m c b)
    (hfin := fun c s' => by
      iintro ⟨Hh, HSI⟩
      unfold StableHlo.held
      imodintro
      iapply (pointsTo_read_all (Pipeline.ucRefs τ sig) (fun b => (((c : Thread nD τ)).1, b)) (W14 m c) s')
      iframe)
    (hQ := fun s h c => ⟨h c _ (mem_uc _ (by decide)), by
      and_intros <;> exact (h c _ (mem_uc _ (by decide))).trans (W14_of_untouched m c _ (by decide))⟩)

theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => (h c).2) (result m ρ)

end Cert.KernelIdeal.Hand

end
-- ==== Proof.Spec.lean ====
/- The mathematics both programs are compared through, over extended reals: the product of two matrices given as
   functions of a rank-2 index, what it means for an array to hold real numbers, and the domain of the claim. -/
import Idealize.ShloMosaic.PureOps.Ideal
import Idealize.ShloMosaic.Lib.ValueIdx

open scoped BigOperators

noncomputable section

namespace Cert.Spec

open Idealize.ShloMosaic Idealize.ShloMosaic.ValueIdx

section
variable {M K N : Nat} (a : (⟨2, ![M, K]⟩ : Shape).Idx → EReal) (b : (⟨2, ![K, N]⟩ : Shape).Idx → EReal)

def mm : (⟨2, ![M, N]⟩ : Shape).Idx → EReal :=
  fun i => ∑ k : Fin K, a (ix2 (i 0) k) * b (ix2 k (i 1))

theorem mm_apply (p : Fin M) (q : Fin N) : mm a b (ix2 p q) = ∑ k : Fin K, a (ix2 p k) * b (ix2 k q) := rfl

end

def IsReal {S : Shape} (a : S.Idx → EReal) : Prop := ∀ i, ∃ r : ℝ, a i = (r : EReal)

-- Every float input is real, every edge's endpoints (read signed) are nodes, and no feature scale is zero.
structure Hyp (x : (⟨2, ![16384, 512]⟩ : Shape).Idx → EReal) (src tgt : (⟨1, ![262144]⟩ : Shape).Idx → BitVec 32)
    (w : (⟨1, ![262144]⟩ : Shape).Idx → EReal) (W1 : (⟨2, ![256, 512]⟩ : Shape).Idx → EReal)
    (b1 : (⟨1, ![256]⟩ : Shape).Idx → EReal) (σ1 : (⟨1, ![512]⟩ : Shape).Idx → EReal)
    (W2 : (⟨2, ![64, 256]⟩ : Shape).Idx → EReal) (b2 : (⟨1, ![64]⟩ : Shape).Idx → EReal)
    (σ2 : (⟨1, ![256]⟩ : Shape).Idx → EReal) : Prop where
  x_real : IsReal x
  w_real : IsReal w
  W1_real : IsReal W1
  b1_real : IsReal b1
  σ1_real : IsReal σ1
  W2_real : IsReal W2
  b2_real : IsReal b2
  σ2_real : IsReal σ2
  src_range : ∀ i, 0 ≤ (src i).toInt ∧ (src i).toInt < 16384
  tgt_range : ∀ i, 0 ≤ (tgt i).toInt ∧ (tgt i).toInt < 16384
  σ1_ne : ∀ i, σ1 i ≠ 0
  σ2_ne : ∀ i, σ2 i ≠ 0

end Cert.Spec

end
-- ==== Proof.LibBlocks.lean ====
/- Sums taken block by block, a matrix read at natural-number coordinates, and where an element of a window's block
   sits in its array: what the value of a matrix product computed block by block is read through. -/
import Idealize.ShloMosaic.Lib.Pipeline.Value
import Idealize.ShloMosaic.Lib.ValueIdx

namespace Cert.Blocks

open Idealize.ShloMosaic ValueIdx

-- A sum over nb · bs consecutive naturals is the sum, over the nb blocks of bs, of each block's sum.
theorem sum_by_blocks {M : Type*} [AddCommMonoid M] (nb bs : ℕ) (f : ℕ → M) :
    ∑ s ∈ Finset.range nb, ∑ k : Fin bs, f (bs * s + k.val) = ∑ κ : Fin (nb * bs), f κ.val := by
  rw [Finset.sum_range, ← Equiv.sum_comp finProdFinEquiv, Fintype.sum_prod_type]
  exact Finset.sum_congr rfl fun a _ => Finset.sum_congr rfl fun b _ => congrArg f (Nat.add_comm ..)

-- A matrix of extended reals read at natural-number coordinates, zero outside it: sums over blocks need no bound proofs.
noncomputable def natRd {n0 n1 : ℕ} (a : (⟨2, ![n0, n1]⟩ : Shape).Idx → EReal) (r k : ℕ) : EReal :=
  if h : r < n0 ∧ k < n1 then a (ix2 ⟨r, h.1⟩ ⟨k, h.2⟩) else 0

theorem natRd_eq {n0 n1 : ℕ} (a : (⟨2, ![n0, n1]⟩ : Shape).Idx → EReal)
    (i : (⟨2, ![n0, n1]⟩ : Shape).Idx) {r k : ℕ} (hr : (i 0).val = r) (hk : (i 1).val = k) : a i = natRd a r k := by
  subst hr hk
  exact ((dif_pos ⟨(i 0).isLt, (i 1).isLt⟩).trans (congrArg a (eq_ix2 i).symm)).symm

-- Where an element of a window's block sits in the array, on an axis whose block index is known.
theorem emb_val {sig : RefSig} {G : Pipeline.Grid} (w : Pipeline.Window sig G) (t : Fin G.N)
    (y : (w.xblock (G.coords t)).Idx) (a : Fin w.shape.rank) {n : ℕ} (h : w.index t a = n) :
    ((w.rect t).emb y a : ℕ) = w.size a * n + y a := by
  rw [w.rect_emb_val, h, Nat.mul_comm]

end Cert.Blocks
-- ==== Proof.KI.V0.lean ====
/- Region 0 at the ideal instance leaves in its output array the matrix product of its two input arrays: the 16 steps
   of a row block add 16 block products, and 16 sums of 1024 terms regroup into one sum of 16384 terms. -/
import proofs.«401501_j17162689315356_1_alg».proof.Proof.KI.R0
import proofs.«401501_j17162689315356_1_alg».proof.Proof.Spec
import proofs.«401501_j17162689315356_1_alg».proof.Proof.LibBlocks
import Idealize.ShloMosaic.Lib.StackMember

noncomputable section

namespace Cert.KernelIdeal.Hand

open Gen Cert.Blocks Idealize.ShloMosaic TcCoe ValueIdx StackMember

namespace Val0

theorem pay1_apply0 (j : S1024x1024.Idx) : k0_pay1 (F := Ideal) j = 0 := by
  unfold k0_pay1
  simp only [shapeCast_self]
  exact Ideal.ofBits_zero_f32

-- One step adds, at index i, row i₀ of the left block times column i₁ of the right block.
theorem pay2_apply0 (v3 : Vec Ideal S1024x1024 .f32) (v4 : Vec Ideal S1024x1024 .bf16) (v6 : Vec Ideal S1024x1024 .bf16)
    (i : S1024x1024.Idx) :
    k0_pay2 (F := Ideal) v3 v4 v6 i = v3 i + ∑ k : Fin 1024, v4 (ix2 (i 0) k) * v6 (ix2 k (i 1)) := by
  unfold k0_pay2
  simp only [shapeCast_self, matmul]
  rw [addf_apply, Ideal.matmul_constant_zero_apply, ← Ideal.dotGeneral_apply _ none .single, eq_ix2 i]
  exact congrArg (v3 _ + ·) (dotGeneral_plain_apply (φ₁ := .bf16) (φ₂ := .bf16) none v4 v6 (i 0) (i 1))

theorem idx_facts0 : ∀ t : Fin cfg0.N, win0_0.index t 0 = t.val / 16 ∧ win0_0.index t 1 = t.val % 16
    ∧ win0_1.index t 0 = t.val % 16 ∧ win0_1.index t 1 = 0 ∧ win0_2.index t 0 = t.val / 16 ∧ win0_2.index t 1 = 0 :=
  (by decide +kernel : ∀ t : Fin grid0.N, _)

variable (V : (c : Dev nD) → (b : Ref sig .tc) → Buf (Elt Ideal) ((c : Thread nD τ).loc b)) (c : Dev nD)

-- What the step at point n adds at index i of the output block.
def addend0 (n : ℕ) (i : S1024x1024.Idx) : EReal :=
  ∑ k : Fin 1024, natRd (V c main_v24) (1024 * (n / 16) + (i 0).val) (1024 * (n % 16) + k.val)
    * natRd (V c main_v27) (1024 * (n % 16) + k.val) (i 1).val

abbrev step0 (n : ℕ) (h : n < cfg0.N) (acc : Vec Ideal S1024x1024 .f32) : Vec Ideal S1024x1024 .f32 :=
  k0_pay2 acc (iblk0 V c 0 ⟨n, h⟩) (iblk0 V c 1 ⟨n, h⟩)

theorem step_apply0 (t : Fin cfg0.N) (acc : Vec Ideal S1024x1024 .f32) (i : S1024x1024.Idx) :
    step0 V c t.val t.isLt acc i = acc i + addend0 V c t.val i := by
  obtain ⟨e0, e1, e2, e3, -⟩ := idx_facts0 t
  exact (pay2_apply0 _ _ _ i).trans (congrArg _ (Finset.sum_congr rfl fun k _ => congrArg₂ _
    (natRd_eq _ _ (emb_val win0_0 t _ 0 e0) (emb_val win0_0 t _ 1 e1))
    (natRd_eq _ _ (emb_val win0_1 t _ 0 e2) (win0_1.rect_emb_val_of_index_zero t 1 e3 _))))

-- The 16 steps of a row block leave that row block of the product: 16 sums of 1024 terms are one sum of 16384 terms.
theorem scratch_last0 (t : Fin cfg0.N) (h15 : t.val % 16 = 15) (hb : t.val / 16 < 16) (i : S1024x1024.Idx) :
    (outsAt0 V c t.val t.isLt).2 i = Cert.Spec.mm (V c main_v24) (V c main_v27)
      (ix2 ⟨1024 * (t.val / 16) + (i 0).val, by have := idx2_lt0 i; omega⟩ ⟨(i 1).val, idx2_lt1 i⟩) := by
  have h' : 16 * (t.val / 16) + t.val % 16 < cfg0.N := by rw [Nat.div_add_mod]; exact t.isLt
  refine (congrFun (Pipeline.eq_accAt_of_mod (fun n h => (outsAt0 V c n h).2) 16
    (fun n h => step0 V c n h (k0_pay1 (F := Ideal))) (step0 V c) (fun n h => sc0_first V c ⟨n, h⟩)
    (fun n h => sc0_next V c ⟨n + 1, h⟩) (by decide) t.val t.isLt h') i).trans ?_
  rw [Pipeline.accAt_add_apply _ _ (k0_pay1 (F := Ideal)) (addend0 V c) _ 15 (fun h i => step_apply0 V c ⟨_, h⟩ _ i)
    (fun n h acc i _ _ => step_apply0 V c ⟨n, h⟩ acc i) _ (by omega) h' i, pay1_apply0, zero_add, h15, Cert.Spec.mm_apply]
  refine (Finset.sum_congr rfl fun s hs => ?_).trans ((sum_by_blocks 16 1024 fun κ =>
    natRd (V c main_v24) (1024 * (t.val / 16) + (i 0).val) κ * natRd (V c main_v27) κ (i 1).val).trans
    (Finset.sum_congr rfl fun κ _ => Eq.symm (congrArg₂ (· * ·) (natRd_eq _ _ rfl rfl) (natRd_eq _ _ rfl rfl))))
  have := Finset.mem_range.mp hs
  unfold addend0
  rw [show (16 * (t.val / 16) + s) / 16 = t.val / 16 by omega, show (16 * (t.val / 16) + s) % 16 = s by omega]

theorem read_out0 (t : Fin cfg0.N) (G : S16384x1024.Idx → EReal) (j : ((cfg0.win 2).xblock (grid0.coords t)).Idx) :
    ((cfg0.win 2).blk t).view.read (Elt Ideal) G j = G (((cfg0.win 2).blk t).view.emb j) := rfl

-- What a point that writes its output block back writes is that block of the product.
theorem flushed_eq0 (t : Fin cfg0.N) (hf : (cfg0.win 2).flush t = true) :
    (dat0 V c).flushed 2 t
      = ((cfg0.win 2).blk t).view.read (Elt Ideal) (Cert.Spec.mm (V c main_v24) (V c main_v27)) := by
  have h15 : t.val % 16 = 15 := (flush0_2 t).mp hf
  obtain ⟨-, -, -, -, e4, e5⟩ := idx_facts0 t
  have ht : t.val < grid0.N := t.isLt
  rw [N_0] at ht
  rw [Pipeline.Dat.flushed, after0_2, out0_last V c t h15]
  funext j
  exact (scratch_last0 V c t h15 (by omega) _).trans ((congrArg (Cert.Spec.mm _ _)
    (Shape.idx_ext₂ (emb_val win0_2 t j 0 e4).symm (win0_2.rect_emb_val_of_index_zero t 1 e5 j).symm)).trans
    (read_out0 t _ j).symm)

-- Every index of the output array is in the block the last step of its row block writes back.
theorem cover0 (i : S16384x1024.Idx) :
    ∃ t : Fin cfg0.N, (cfg0.win 2).flush t = true ∧ i ∈ ((cfg0.win 2).blk t).view.set := by
  have h0 := idx2_lt0 i
  have hN : 16 * ((i 0).val / 1024) + 15 < grid0.N := by rw [N_0]; omega
  obtain ⟨-, -, -, -, e4, e5⟩ := idx_facts0 ⟨_, hN⟩
  let y : S1024x1024.Idx := ix2 ⟨(i 0).val % 1024, Nat.mod_lt _ (by decide)⟩ ⟨(i 1).val, idx2_lt1 i⟩
  refine ⟨⟨_, hN⟩, (flush0_2 _).mpr (show (16 * ((i 0).val / 1024) + 15) % 16 = 15 by omega),
    Finset.mem_map.mpr ⟨y, Finset.mem_univ _, Shape.idx_ext₂ ((emb_val win0_2 ⟨_, hN⟩ y 0 e4).trans ?_)
      (win0_2.rect_emb_val_of_index_zero ⟨_, hN⟩ 1 e5 y)⟩⟩
  show 1024 * ((16 * ((i 0).val / 1024) + 15) / 16) + (i 0).val % 1024 = (i 0).val
  omega

end Val0

theorem final0 (V : (c : Dev nD) → (b : Ref sig .tc) → Buf (Elt Ideal) ((c : Thread nD τ).loc b)) (c : Dev nD) :
    (dat0 (F := Ideal) V c).arrAt 2 cfg0.N = Cert.Spec.mm (V c main_v24) (V c main_v27) :=
  (dat0 V c).arrAt_eq_of_cover 2 (Cert.Spec.mm (V c main_v24) (V c main_v27)) (Val0.flushed_eq0 V c) Val0.cover0

end Cert.KernelIdeal.Hand
end
-- ==== Proof.KI.V1.lean ====
/- Region 1 at the ideal instance: its output array ends as the matrix product of its two input arrays. -/
import proofs.«401501_j17162689315356_1_alg».proof.Proof.KI.R1
import proofs.«401501_j17162689315356_1_alg».proof.Proof.Spec
import proofs.«401501_j17162689315356_1_alg».proof.Proof.LibBlocks
import Idealize.ShloMosaic.Lib.StackMember

noncomputable section

namespace Cert.KernelIdeal.Hand

open Gen Cert.Blocks Idealize.ShloMosaic TcCoe ValueIdx StackMember

-- The stored block at index i: the zero block plus row i₀ of the left block times column i₁ of the right block.
theorem pay1_apply (x : Vec Ideal S1024x512 .bf16) (y : Vec Ideal S512x256 .bf16) (i : S1024x256.Idx) :
    k1_pay2 (k1_pay1 (F := Ideal)) x y i = ∑ k : Fin 512, x (ix2 (i 0) k) * y (ix2 k (i 1)) := by
  unfold k1_pay2 k1_pay1
  simp only [shapeCast_self, matmul]
  rw [addf_apply, Ideal.matmul_constant_zero_apply, ← Ideal.dotGeneral_apply _ none .single, eq_ix2 i]
  show Ideal.ofBits .f32 0x00000000#32 + _ = _
  rw [Ideal.ofBits_zero_f32, zero_add]
  exact dotGeneral_plain_apply (φ₁ := .bf16) (φ₂ := .bf16) none x y (i 0) (i 1)

theorem idx_facts1 : ∀ t : Fin cfg1.N, win1_0.index t 0 = t.val ∧ win1_0.index t 1 = 0 ∧ win1_1.index t 0 = 0
    ∧ win1_1.index t 1 = 0 ∧ win1_2.index t 0 = t.val ∧ win1_2.index t 1 = 0 :=
  (by decide +kernel : ∀ t : Fin grid1.N, _)

variable (V : (c : Dev nD) → (b : Ref sig .tc) → Buf (Elt Ideal) ((c : Thread nD τ).loc b)) (c : Dev nD)

-- The left block at point t is rows 1024 t … of the left array, the right block the whole right array.
theorem flushed1_eq (t : Fin cfg1.N) :
    (dat1 V c).flushed 2 t = ((cfg1.win 2).blk t).view.read (Elt Ideal) (Cert.Spec.mm (V c main_v49) (V c main_v51)) := by
  obtain ⟨a0, a1, b0, b1, e0, e1⟩ := idx_facts1 t
  rw [Pipeline.Dat.flushed, after1_2, out1_step]
  funext j
  show _ = Cert.Spec.mm (V c main_v49) (V c main_v51) (((cfg1.win 2).blk t).view.emb j)
  exact (pay1_apply _ _ j).trans (Finset.sum_congr rfl fun k _ => congrArg₂ (· * ·)
    (congrArg (V c main_v49) (Shape.idx_ext₂ ((emb_val win1_0 t _ 0 a0).trans (emb_val win1_2 t j 0 e0).symm)
      (win1_0.rect_emb_val_of_index_zero t 1 a1 _)))
    (congrArg (V c main_v51) (Shape.idx_ext₂ (win1_1.rect_emb_val_of_index_zero t 0 b0 _)
      ((win1_1.rect_emb_val_of_index_zero t 1 b1 _).trans (win1_2.rect_emb_val_of_index_zero t 1 e1 j).symm))))

-- Row ρ of the output array lies in the block of the point ρ / 1024, and every point writes back.
theorem cover1 (i : S16384x256.Idx) : ∃ t : Fin cfg1.N, (cfg1.win 2).flush t = true ∧ i ∈ ((cfg1.win 2).blk t).view.set := by
  have h0 := idx2_lt0 i
  have hN : (i 0).val / 1024 < grid1.N := by rw [N_1]; omega
  obtain ⟨-, -, -, -, e0, e1⟩ := idx_facts1 ⟨_, hN⟩
  let y : S1024x256.Idx := ix2 ⟨(i 0).val % 1024, Nat.mod_lt _ (by decide)⟩ ⟨(i 1).val, idx2_lt1 i⟩
  refine ⟨⟨_, hN⟩, flush1_2 _, Finset.mem_map.mpr ⟨y, Finset.mem_univ _,
    Shape.idx_ext₂ ((emb_val win1_2 ⟨_, hN⟩ y 0 e0).trans ?_) (win1_2.rect_emb_val_of_index_zero ⟨_, hN⟩ 1 e1 y)⟩⟩
  show 1024 * ((i 0).val / 1024) + (i 0).val % 1024 = (i 0).val
  omega

theorem final1 (V : (c : Dev nD) → (b : Ref sig .tc) → Buf (Elt Ideal) ((c : Thread nD τ).loc b)) (c : Dev nD) :
    (dat1 (F := Ideal) V c).arrAt 2 cfg1.N = Cert.Spec.mm (V c main_v49) (V c main_v51) :=
  (dat1 V c).arrAt_eq_of_cover 2 _ (fun t _ => flushed1_eq V c t) cover1

end Cert.KernelIdeal.Hand

end
-- ==== Proof.KI.V2.lean ====
/- Region 2 at the ideal instance leaves in its output array the matrix product of its two input arrays: the 16 steps
   of a row block add 16 block products, and 16 sums of 1024 terms regroup into one sum of 16384 terms. -/
import proofs.«401501_j17162689315356_1_alg».proof.Proof.KI.R2
import proofs.«401501_j17162689315356_1_alg».proof.Proof.Spec
import proofs.«401501_j17162689315356_1_alg».proof.Proof.LibBlocks
import Idealize.ShloMosaic.Lib.StackMember

noncomputable section

namespace Cert.KernelIdeal.Hand

open Gen Cert.Blocks Idealize.ShloMosaic TcCoe ValueIdx StackMember

namespace Val2

theorem pay1_apply2 (j : S1024x256.Idx) : k2_pay1 (F := Ideal) j = 0 := by
  unfold k2_pay1
  simp only [shapeCast_self]
  exact Ideal.ofBits_zero_f32

-- One step adds, at index i, row i₀ of the left block times column i₁ of the right block.
theorem pay2_apply2 (v3 : Vec Ideal S1024x256 .f32) (v4 : Vec Ideal S1024x1024 .bf16) (v6 : Vec Ideal S1024x256 .bf16)
    (i : S1024x256.Idx) :
    k2_pay2 (F := Ideal) v3 v4 v6 i = v3 i + ∑ k : Fin 1024, v4 (ix2 (i 0) k) * v6 (ix2 k (i 1)) := by
  unfold k2_pay2
  simp only [shapeCast_self, matmul]
  rw [addf_apply, Ideal.matmul_constant_zero_apply, ← Ideal.dotGeneral_apply _ none .single, eq_ix2 i]
  exact congrArg (v3 _ + ·) (dotGeneral_plain_apply (φ₁ := .bf16) (φ₂ := .bf16) none v4 v6 (i 0) (i 1))

theorem idx_facts2 : ∀ t : Fin cfg2.N, win2_0.index t 0 = t.val / 16 ∧ win2_0.index t 1 = t.val % 16
    ∧ win2_1.index t 0 = t.val % 16 ∧ win2_1.index t 1 = 0 ∧ win2_2.index t 0 = t.val / 16 ∧ win2_2.index t 1 = 0 :=
  (by decide +kernel : ∀ t : Fin grid2.N, _)

variable (V : (c : Dev nD) → (b : Ref sig .tc) → Buf (Elt Ideal) ((c : Thread nD τ).loc b)) (c : Dev nD)

-- What the step at point n adds at index i of the output block.
def addend2 (n : ℕ) (i : S1024x256.Idx) : EReal :=
  ∑ k : Fin 1024, natRd (V c main_v24) (1024 * (n / 16) + (i 0).val) (1024 * (n % 16) + k.val)
    * natRd (V c main_v56) (1024 * (n % 16) + k.val) (i 1).val

abbrev step2 (n : ℕ) (h : n < cfg2.N) (acc : Vec Ideal S1024x256 .f32) : Vec Ideal S1024x256 .f32 :=
  k2_pay2 acc (iblk2 V c 0 ⟨n, h⟩) (iblk2 V c 1 ⟨n, h⟩)

theorem step_apply2 (t : Fin cfg2.N) (acc : Vec Ideal S1024x256 .f32) (i : S1024x256.Idx) :
    step2 V c t.val t.isLt acc i = acc i + addend2 V c t.val i := by
  obtain ⟨e0, e1, e2, e3, -⟩ := idx_facts2 t
  exact (pay2_apply2 _ _ _ i).trans (congrArg _ (Finset.sum_congr rfl fun k _ => congrArg₂ _
    (natRd_eq _ _ (emb_val win2_0 t _ 0 e0) (emb_val win2_0 t _ 1 e1))
    (natRd_eq _ _ (emb_val win2_1 t _ 0 e2) (win2_1.rect_emb_val_of_index_zero t 1 e3 _))))

-- The 16 steps of a row block leave that row block of the product: 16 sums of 1024 terms are one sum of 16384 terms.
theorem scratch_last2 (t : Fin cfg2.N) (h15 : t.val % 16 = 15) (hb : t.val / 16 < 16) (i : S1024x256.Idx) :
    (outsAt2 V c t.val t.isLt).2 i = Cert.Spec.mm (V c main_v24) (V c main_v56)
      (ix2 ⟨1024 * (t.val / 16) + (i 0).val, by have := idx2_lt0 i; omega⟩ ⟨(i 1).val, idx2_lt1 i⟩) := by
  have h' : 16 * (t.val / 16) + t.val % 16 < cfg2.N := by rw [Nat.div_add_mod]; exact t.isLt
  refine (congrFun (Pipeline.eq_accAt_of_mod (fun n h => (outsAt2 V c n h).2) 16
    (fun n h => step2 V c n h (k2_pay1 (F := Ideal))) (step2 V c) (fun n h => sc2_first V c ⟨n, h⟩)
    (fun n h => sc2_next V c ⟨n + 1, h⟩) (by decide) t.val t.isLt h') i).trans ?_
  rw [Pipeline.accAt_add_apply _ _ (k2_pay1 (F := Ideal)) (addend2 V c) _ 15 (fun h i => step_apply2 V c ⟨_, h⟩ _ i)
    (fun n h acc i _ _ => step_apply2 V c ⟨n, h⟩ acc i) _ (by omega) h' i, pay1_apply2, zero_add, h15, Cert.Spec.mm_apply]
  refine (Finset.sum_congr rfl fun s hs => ?_).trans ((sum_by_blocks 16 1024 fun κ =>
    natRd (V c main_v24) (1024 * (t.val / 16) + (i 0).val) κ * natRd (V c main_v56) κ (i 1).val).trans
    (Finset.sum_congr rfl fun κ _ => Eq.symm (congrArg₂ (· * ·) (natRd_eq _ _ rfl rfl) (natRd_eq _ _ rfl rfl))))
  have := Finset.mem_range.mp hs
  unfold addend2
  rw [show (16 * (t.val / 16) + s) / 16 = t.val / 16 by omega, show (16 * (t.val / 16) + s) % 16 = s by omega]

theorem read_out2 (t : Fin cfg2.N) (G : S16384x256.Idx → EReal) (j : ((cfg2.win 2).xblock (grid2.coords t)).Idx) :
    ((cfg2.win 2).blk t).view.read (Elt Ideal) G j = G (((cfg2.win 2).blk t).view.emb j) := rfl

-- What a point that writes its output block back writes is that block of the product.
theorem flushed_eq2 (t : Fin cfg2.N) (hf : (cfg2.win 2).flush t = true) :
    (dat2 V c).flushed 2 t
      = ((cfg2.win 2).blk t).view.read (Elt Ideal) (Cert.Spec.mm (V c main_v24) (V c main_v56)) := by
  have h15 : t.val % 16 = 15 := (flush2_2 t).mp hf
  obtain ⟨-, -, -, -, e4, e5⟩ := idx_facts2 t
  have ht : t.val < grid2.N := t.isLt
  rw [N_2] at ht
  rw [Pipeline.Dat.flushed, after2_2, out2_last V c t h15]
  funext j
  exact (scratch_last2 V c t h15 (by omega) _).trans ((congrArg (Cert.Spec.mm _ _)
    (Shape.idx_ext₂ (emb_val win2_2 t j 0 e4).symm (win2_2.rect_emb_val_of_index_zero t 1 e5 j).symm)).trans
    (read_out2 t _ j).symm)

-- Every index of the output array is in the block the last step of its row block writes back.
theorem cover2 (i : S16384x256.Idx) :
    ∃ t : Fin cfg2.N, (cfg2.win 2).flush t = true ∧ i ∈ ((cfg2.win 2).blk t).view.set := by
  have h0 := idx2_lt0 i
  have hN : 16 * ((i 0).val / 1024) + 15 < grid2.N := by rw [N_2]; omega
  obtain ⟨-, -, -, -, e4, e5⟩ := idx_facts2 ⟨_, hN⟩
  let y : S1024x256.Idx := ix2 ⟨(i 0).val % 1024, Nat.mod_lt _ (by decide)⟩ ⟨(i 1).val, idx2_lt1 i⟩
  refine ⟨⟨_, hN⟩, (flush2_2 _).mpr (show (16 * ((i 0).val / 1024) + 15) % 16 = 15 by omega),
    Finset.mem_map.mpr ⟨y, Finset.mem_univ _, Shape.idx_ext₂ ((emb_val win2_2 ⟨_, hN⟩ y 0 e4).trans ?_)
      (win2_2.rect_emb_val_of_index_zero ⟨_, hN⟩ 1 e5 y)⟩⟩
  show 1024 * ((16 * ((i 0).val / 1024) + 15) / 16) + (i 0).val % 1024 = (i 0).val
  omega

end Val2

theorem final2 (V : (c : Dev nD) → (b : Ref sig .tc) → Buf (Elt Ideal) ((c : Thread nD τ).loc b)) (c : Dev nD) :
    (dat2 (F := Ideal) V c).arrAt 2 cfg2.N = Cert.Spec.mm (V c main_v24) (V c main_v56) :=
  (dat2 V c).arrAt_eq_of_cover 2 (Cert.Spec.mm (V c main_v24) (V c main_v56)) (Val2.flushed_eq2 V c) Val2.cover2

end Cert.KernelIdeal.Hand
end
-- ==== Proof.KI.V3.lean ====
/- Region 3 at the ideal instance leaves in its output array the matrix product of its two input arrays: the 16 steps
   of a row block add 16 block products, and 16 sums of 1024 terms regroup into one sum of 16384 terms. -/
import proofs.«401501_j17162689315356_1_alg».proof.Proof.KI.R3
import proofs.«401501_j17162689315356_1_alg».proof.Proof.Spec
import proofs.«401501_j17162689315356_1_alg».proof.Proof.LibBlocks
import Idealize.ShloMosaic.Lib.StackMember

noncomputable section

namespace Cert.KernelIdeal.Hand

open Gen Cert.Blocks Idealize.ShloMosaic TcCoe ValueIdx StackMember

namespace Val3

theorem pay1_apply3 (j : S1024x512.Idx) : k3_pay1 (F := Ideal) j = 0 := by
  unfold k3_pay1
  simp only [shapeCast_self]
  exact Ideal.ofBits_zero_f32

-- One step adds, at index i, row i₀ of the left block times column i₁ of the right block.
theorem pay2_apply3 (v3 : Vec Ideal S1024x512 .f32) (v4 : Vec Ideal S1024x1024 .bf16) (v6 : Vec Ideal S1024x512 .bf16)
    (i : S1024x512.Idx) :
    k3_pay2 (F := Ideal) v3 v4 v6 i = v3 i + ∑ k : Fin 1024, v4 (ix2 (i 0) k) * v6 (ix2 k (i 1)) := by
  unfold k3_pay2
  simp only [shapeCast_self, matmul]
  rw [addf_apply, Ideal.matmul_constant_zero_apply, ← Ideal.dotGeneral_apply _ none .single, eq_ix2 i]
  exact congrArg (v3 _ + ·) (dotGeneral_plain_apply (φ₁ := .bf16) (φ₂ := .bf16) none v4 v6 (i 0) (i 1))

theorem idx_facts3 : ∀ t : Fin cfg3.N, win3_0.index t 0 = t.val / 16 ∧ win3_0.index t 1 = t.val % 16
    ∧ win3_1.index t 0 = t.val % 16 ∧ win3_1.index t 1 = 0 ∧ win3_2.index t 0 = t.val / 16 ∧ win3_2.index t 1 = 0 :=
  (by decide +kernel : ∀ t : Fin grid3.N, _)

variable (V : (c : Dev nD) → (b : Ref sig .tc) → Buf (Elt Ideal) ((c : Thread nD τ).loc b)) (c : Dev nD)

-- What the step at point n adds at index i of the output block.
def addend3 (n : ℕ) (i : S1024x512.Idx) : EReal :=
  ∑ k : Fin 1024, natRd (V c main_v24) (1024 * (n / 16) + (i 0).val) (1024 * (n % 16) + k.val)
    * natRd (V c main_v61) (1024 * (n % 16) + k.val) (i 1).val

abbrev step3 (n : ℕ) (h : n < cfg3.N) (acc : Vec Ideal S1024x512 .f32) : Vec Ideal S1024x512 .f32 :=
  k3_pay2 acc (iblk3 V c 0 ⟨n, h⟩) (iblk3 V c 1 ⟨n, h⟩)

theorem step_apply3 (t : Fin cfg3.N) (acc : Vec Ideal S1024x512 .f32) (i : S1024x512.Idx) :
    step3 V c t.val t.isLt acc i = acc i + addend3 V c t.val i := by
  obtain ⟨e0, e1, e2, e3, -⟩ := idx_facts3 t
  exact (pay2_apply3 _ _ _ i).trans (congrArg _ (Finset.sum_congr rfl fun k _ => congrArg₂ _
    (natRd_eq _ _ (emb_val win3_0 t _ 0 e0) (emb_val win3_0 t _ 1 e1))
    (natRd_eq _ _ (emb_val win3_1 t _ 0 e2) (win3_1.rect_emb_val_of_index_zero t 1 e3 _))))

-- The 16 steps of a row block leave that row block of the product: 16 sums of 1024 terms are one sum of 16384 terms.
theorem scratch_last3 (t : Fin cfg3.N) (h15 : t.val % 16 = 15) (hb : t.val / 16 < 16) (i : S1024x512.Idx) :
    (outsAt3 V c t.val t.isLt).2 i = Cert.Spec.mm (V c main_v24) (V c main_v61)
      (ix2 ⟨1024 * (t.val / 16) + (i 0).val, by have := idx2_lt0 i; omega⟩ ⟨(i 1).val, idx2_lt1 i⟩) := by
  have h' : 16 * (t.val / 16) + t.val % 16 < cfg3.N := by rw [Nat.div_add_mod]; exact t.isLt
  refine (congrFun (Pipeline.eq_accAt_of_mod (fun n h => (outsAt3 V c n h).2) 16
    (fun n h => step3 V c n h (k3_pay1 (F := Ideal))) (step3 V c) (fun n h => sc3_first V c ⟨n, h⟩)
    (fun n h => sc3_next V c ⟨n + 1, h⟩) (by decide) t.val t.isLt h') i).trans ?_
  rw [Pipeline.accAt_add_apply _ _ (k3_pay1 (F := Ideal)) (addend3 V c) _ 15 (fun h i => step_apply3 V c ⟨_, h⟩ _ i)
    (fun n h acc i _ _ => step_apply3 V c ⟨n, h⟩ acc i) _ (by omega) h' i, pay1_apply3, zero_add, h15, Cert.Spec.mm_apply]
  refine (Finset.sum_congr rfl fun s hs => ?_).trans ((sum_by_blocks 16 1024 fun κ =>
    natRd (V c main_v24) (1024 * (t.val / 16) + (i 0).val) κ * natRd (V c main_v61) κ (i 1).val).trans
    (Finset.sum_congr rfl fun κ _ => Eq.symm (congrArg₂ (· * ·) (natRd_eq _ _ rfl rfl) (natRd_eq _ _ rfl rfl))))
  have := Finset.mem_range.mp hs
  unfold addend3
  rw [show (16 * (t.val / 16) + s) / 16 = t.val / 16 by omega, show (16 * (t.val / 16) + s) % 16 = s by omega]

theorem read_out3 (t : Fin cfg3.N) (G : S16384x512.Idx → EReal) (j : ((cfg3.win 2).xblock (grid3.coords t)).Idx) :
    ((cfg3.win 2).blk t).view.read (Elt Ideal) G j = G (((cfg3.win 2).blk t).view.emb j) := rfl

-- What a point that writes its output block back writes is that block of the product.
theorem flushed_eq3 (t : Fin cfg3.N) (hf : (cfg3.win 2).flush t = true) :
    (dat3 V c).flushed 2 t
      = ((cfg3.win 2).blk t).view.read (Elt Ideal) (Cert.Spec.mm (V c main_v24) (V c main_v61)) := by
  have h15 : t.val % 16 = 15 := (flush3_2 t).mp hf
  obtain ⟨-, -, -, -, e4, e5⟩ := idx_facts3 t
  have ht : t.val < grid3.N := t.isLt
  rw [N_3] at ht
  rw [Pipeline.Dat.flushed, after3_2, out3_last V c t h15]
  funext j
  exact (scratch_last3 V c t h15 (by omega) _).trans ((congrArg (Cert.Spec.mm _ _)
    (Shape.idx_ext₂ (emb_val win3_2 t j 0 e4).symm (win3_2.rect_emb_val_of_index_zero t 1 e5 j).symm)).trans
    (read_out3 t _ j).symm)

-- Every index of the output array is in the block the last step of its row block writes back.
theorem cover3 (i : S16384x512.Idx) :
    ∃ t : Fin cfg3.N, (cfg3.win 2).flush t = true ∧ i ∈ ((cfg3.win 2).blk t).view.set := by
  have h0 := idx2_lt0 i
  have hN : 16 * ((i 0).val / 1024) + 15 < grid3.N := by rw [N_3]; omega
  obtain ⟨-, -, -, -, e4, e5⟩ := idx_facts3 ⟨_, hN⟩
  let y : S1024x512.Idx := ix2 ⟨(i 0).val % 1024, Nat.mod_lt _ (by decide)⟩ ⟨(i 1).val, idx2_lt1 i⟩
  refine ⟨⟨_, hN⟩, (flush3_2 _).mpr (show (16 * ((i 0).val / 1024) + 15) % 16 = 15 by omega),
    Finset.mem_map.mpr ⟨y, Finset.mem_univ _, Shape.idx_ext₂ ((emb_val win3_2 ⟨_, hN⟩ y 0 e4).trans ?_)
      (win3_2.rect_emb_val_of_index_zero ⟨_, hN⟩ 1 e5 y)⟩⟩
  show 1024 * ((16 * ((i 0).val / 1024) + 15) / 16) + (i 0).val % 1024 = (i 0).val
  omega

end Val3

theorem final3 (V : (c : Dev nD) → (b : Ref sig .tc) → Buf (Elt Ideal) ((c : Thread nD τ).loc b)) (c : Dev nD) :
    (dat3 (F := Ideal) V c).arrAt 2 cfg3.N = Cert.Spec.mm (V c main_v24) (V c main_v61) :=
  (dat3 V c).arrAt_eq_of_cover 2 (Cert.Spec.mm (V c main_v24) (V c main_v61)) (Val3.flushed_eq3 V c) Val3.cover3

end Cert.KernelIdeal.Hand
end
-- ==== Proof.KI.V4.lean ====
/- Region 4 at the ideal instance: its output array ends as the matrix product of its two input arrays. -/
import proofs.«401501_j17162689315356_1_alg».proof.Proof.KI.R4
import proofs.«401501_j17162689315356_1_alg».proof.Proof.Spec
import proofs.«401501_j17162689315356_1_alg».proof.Proof.LibBlocks
import Idealize.ShloMosaic.Lib.StackMember

noncomputable section

namespace Cert.KernelIdeal.Hand

open Gen Cert.Blocks Idealize.ShloMosaic TcCoe ValueIdx StackMember

-- The stored block at index i: the zero block plus row i₀ of the left block times column i₁ of the right block.
theorem pay4_apply (x : Vec Ideal S1024x256 .bf16) (y : Vec Ideal S256x64 .bf16) (i : S1024x64.Idx) :
    k4_pay2 (k4_pay1 (F := Ideal)) x y i = ∑ k : Fin 256, x (ix2 (i 0) k) * y (ix2 k (i 1)) := by
  unfold k4_pay2 k4_pay1
  simp only [shapeCast_self, matmul]
  rw [addf_apply, Ideal.matmul_constant_zero_apply, ← Ideal.dotGeneral_apply _ none .single, eq_ix2 i]
  show Ideal.ofBits .f32 0x00000000#32 + _ = _
  rw [Ideal.ofBits_zero_f32, zero_add]
  exact dotGeneral_plain_apply (φ₁ := .bf16) (φ₂ := .bf16) none x y (i 0) (i 1)

theorem idx_facts4 : ∀ t : Fin cfg4.N, win4_0.index t 0 = t.val ∧ win4_0.index t 1 = 0 ∧ win4_1.index t 0 = 0
    ∧ win4_1.index t 1 = 0 ∧ win4_2.index t 0 = t.val ∧ win4_2.index t 1 = 0 :=
  (by decide +kernel : ∀ t : Fin grid4.N, _)

variable (V : (c : Dev nD) → (b : Ref sig .tc) → Buf (Elt Ideal) ((c : Thread nD τ).loc b)) (c : Dev nD)

-- The left block at point t is rows 1024 t … of the left array, the right block the whole right array.
theorem flushed4_eq (t : Fin cfg4.N) :
    (dat4 V c).flushed 2 t = ((cfg4.win 2).blk t).view.read (Elt Ideal) (Cert.Spec.mm (V c main_v83) (V c main_v85)) := by
  obtain ⟨a0, a1, b0, b1, e0, e1⟩ := idx_facts4 t
  rw [Pipeline.Dat.flushed, after4_2, out4_step]
  funext j
  show _ = Cert.Spec.mm (V c main_v83) (V c main_v85) (((cfg4.win 2).blk t).view.emb j)
  exact (pay4_apply _ _ j).trans (Finset.sum_congr rfl fun k _ => congrArg₂ (· * ·)
    (congrArg (V c main_v83) (Shape.idx_ext₂ ((emb_val win4_0 t _ 0 a0).trans (emb_val win4_2 t j 0 e0).symm)
      (win4_0.rect_emb_val_of_index_zero t 1 a1 _)))
    (congrArg (V c main_v85) (Shape.idx_ext₂ (win4_1.rect_emb_val_of_index_zero t 0 b0 _)
      ((win4_1.rect_emb_val_of_index_zero t 1 b1 _).trans (win4_2.rect_emb_val_of_index_zero t 1 e1 j).symm))))

-- Row ρ of the output array lies in the block of the point ρ / 1024, and every point writes back.
theorem cover4 (i : S16384x64.Idx) : ∃ t : Fin cfg4.N, (cfg4.win 2).flush t = true ∧ i ∈ ((cfg4.win 2).blk t).view.set := by
  have h0 := idx2_lt0 i
  have hN : (i 0).val / 1024 < grid4.N := by rw [N_4]; omega
  obtain ⟨-, -, -, -, e0, e1⟩ := idx_facts4 ⟨_, hN⟩
  let y : S1024x64.Idx := ix2 ⟨(i 0).val % 1024, Nat.mod_lt _ (by decide)⟩ ⟨(i 1).val, idx2_lt1 i⟩
  refine ⟨⟨_, hN⟩, flush4_2 _, Finset.mem_map.mpr ⟨y, Finset.mem_univ _,
    Shape.idx_ext₂ ((emb_val win4_2 ⟨_, hN⟩ y 0 e0).trans ?_) (win4_2.rect_emb_val_of_index_zero ⟨_, hN⟩ 1 e1 y)⟩⟩
  show 1024 * ((i 0).val / 1024) + (i 0).val % 1024 = (i 0).val
  omega

theorem final4 (V : (c : Dev nD) → (b : Ref sig .tc) → Buf (Elt Ideal) ((c : Thread nD τ).loc b)) (c : Dev nD) :
    (dat4 (F := Ideal) V c).arrAt 2 cfg4.N = Cert.Spec.mm (V c main_v83) (V c main_v85) :=
  (dat4 V c).arrAt_eq_of_cover 2 _ (fun t _ => flushed4_eq V c t) cover4

end Cert.KernelIdeal.Hand

end
-- ==== Proof.KI.V5.lean ====
/- Region 5 at the ideal instance leaves in its output array the matrix product of its two input arrays: the 16 steps
   of a row block add 16 block products, and 16 sums of 1024 terms regroup into one sum of 16384 terms. -/
import proofs.«401501_j17162689315356_1_alg».proof.Proof.KI.R5
import proofs.«401501_j17162689315356_1_alg».proof.Proof.Spec
import proofs.«401501_j17162689315356_1_alg».proof.Proof.LibBlocks
import Idealize.ShloMosaic.Lib.StackMember

noncomputable section

namespace Cert.KernelIdeal.Hand

open Gen Cert.Blocks Idealize.ShloMosaic TcCoe ValueIdx StackMember

namespace Val5

theorem pay1_apply5 (j : S1024x64.Idx) : k5_pay1 (F := Ideal) j = 0 := by
  unfold k5_pay1
  simp only [shapeCast_self]
  exact Ideal.ofBits_zero_f32

-- One step adds, at index i, row i₀ of the left block times column i₁ of the right block.
theorem pay2_apply5 (v3 : Vec Ideal S1024x64 .f32) (v4 : Vec Ideal S1024x1024 .bf16) (v6 : Vec Ideal S1024x64 .bf16)
    (i : S1024x64.Idx) :
    k5_pay2 (F := Ideal) v3 v4 v6 i = v3 i + ∑ k : Fin 1024, v4 (ix2 (i 0) k) * v6 (ix2 k (i 1)) := by
  unfold k5_pay2
  simp only [shapeCast_self, matmul]
  rw [addf_apply, Ideal.matmul_constant_zero_apply, ← Ideal.dotGeneral_apply _ none .single, eq_ix2 i]
  exact congrArg (v3 _ + ·) (dotGeneral_plain_apply (φ₁ := .bf16) (φ₂ := .bf16) none v4 v6 (i 0) (i 1))

theorem idx_facts5 : ∀ t : Fin cfg5.N, win5_0.index t 0 = t.val / 16 ∧ win5_0.index t 1 = t.val % 16
    ∧ win5_1.index t 0 = t.val % 16 ∧ win5_1.index t 1 = 0 ∧ win5_2.index t 0 = t.val / 16 ∧ win5_2.index t 1 = 0 :=
  (by decide +kernel : ∀ t : Fin grid5.N, _)

variable (V : (c : Dev nD) → (b : Ref sig .tc) → Buf (Elt Ideal) ((c : Thread nD τ).loc b)) (c : Dev nD)

-- What the step at point n adds at index i of the output block.
def addend5 (n : ℕ) (i : S1024x64.Idx) : EReal :=
  ∑ k : Fin 1024, natRd (V c main_v24) (1024 * (n / 16) + (i 0).val) (1024 * (n % 16) + k.val)
    * natRd (V c main_v90) (1024 * (n % 16) + k.val) (i 1).val

abbrev step5 (n : ℕ) (h : n < cfg5.N) (acc : Vec Ideal S1024x64 .f32) : Vec Ideal S1024x64 .f32 :=
  k5_pay2 acc (iblk5 V c 0 ⟨n, h⟩) (iblk5 V c 1 ⟨n, h⟩)

theorem step_apply5 (t : Fin cfg5.N) (acc : Vec Ideal S1024x64 .f32) (i : S1024x64.Idx) :
    step5 V c t.val t.isLt acc i = acc i + addend5 V c t.val i := by
  obtain ⟨e0, e1, e2, e3, -⟩ := idx_facts5 t
  exact (pay2_apply5 _ _ _ i).trans (congrArg _ (Finset.sum_congr rfl fun k _ => congrArg₂ _
    (natRd_eq _ _ (emb_val win5_0 t _ 0 e0) (emb_val win5_0 t _ 1 e1))
    (natRd_eq _ _ (emb_val win5_1 t _ 0 e2) (win5_1.rect_emb_val_of_index_zero t 1 e3 _))))

-- The 16 steps of a row block leave that row block of the product: 16 sums of 1024 terms are one sum of 16384 terms.
theorem scratch_last5 (t : Fin cfg5.N) (h15 : t.val % 16 = 15) (hb : t.val / 16 < 16) (i : S1024x64.Idx) :
    (outsAt5 V c t.val t.isLt).2 i = Cert.Spec.mm (V c main_v24) (V c main_v90)
      (ix2 ⟨1024 * (t.val / 16) + (i 0).val, by have := idx2_lt0 i; omega⟩ ⟨(i 1).val, idx2_lt1 i⟩) := by
  have h' : 16 * (t.val / 16) + t.val % 16 < cfg5.N := by rw [Nat.div_add_mod]; exact t.isLt
  refine (congrFun (Pipeline.eq_accAt_of_mod (fun n h => (outsAt5 V c n h).2) 16
    (fun n h => step5 V c n h (k5_pay1 (F := Ideal))) (step5 V c) (fun n h => sc5_first V c ⟨n, h⟩)
    (fun n h => sc5_next V c ⟨n + 1, h⟩) (by decide) t.val t.isLt h') i).trans ?_
  rw [Pipeline.accAt_add_apply _ _ (k5_pay1 (F := Ideal)) (addend5 V c) _ 15 (fun h i => step_apply5 V c ⟨_, h⟩ _ i)
    (fun n h acc i _ _ => step_apply5 V c ⟨n, h⟩ acc i) _ (by omega) h' i, pay1_apply5, zero_add, h15, Cert.Spec.mm_apply]
  refine (Finset.sum_congr rfl fun s hs => ?_).trans ((sum_by_blocks 16 1024 fun κ =>
    natRd (V c main_v24) (1024 * (t.val / 16) + (i 0).val) κ * natRd (V c main_v90) κ (i 1).val).trans
    (Finset.sum_congr rfl fun κ _ => Eq.symm (congrArg₂ (· * ·) (natRd_eq _ _ rfl rfl) (natRd_eq _ _ rfl rfl))))
  have := Finset.mem_range.mp hs
  unfold addend5
  rw [show (16 * (t.val / 16) + s) / 16 = t.val / 16 by omega, show (16 * (t.val / 16) + s) % 16 = s by omega]

theorem read_out5 (t : Fin cfg5.N) (G : S16384x64.Idx → EReal) (j : ((cfg5.win 2).xblock (grid5.coords t)).Idx) :
    ((cfg5.win 2).blk t).view.read (Elt Ideal) G j = G (((cfg5.win 2).blk t).view.emb j) := rfl

-- What a point that writes its output block back writes is that block of the product.
theorem flushed_eq5 (t : Fin cfg5.N) (hf : (cfg5.win 2).flush t = true) :
    (dat5 V c).flushed 2 t
      = ((cfg5.win 2).blk t).view.read (Elt Ideal) (Cert.Spec.mm (V c main_v24) (V c main_v90)) := by
  have h15 : t.val % 16 = 15 := (flush5_2 t).mp hf
  obtain ⟨-, -, -, -, e4, e5⟩ := idx_facts5 t
  have ht : t.val < grid5.N := t.isLt
  rw [N_5] at ht
  rw [Pipeline.Dat.flushed, after5_2, out5_last V c t h15]
  funext j
  exact (scratch_last5 V c t h15 (by omega) _).trans ((congrArg (Cert.Spec.mm _ _)
    (Shape.idx_ext₂ (emb_val win5_2 t j 0 e4).symm (win5_2.rect_emb_val_of_index_zero t 1 e5 j).symm)).trans
    (read_out5 t _ j).symm)

-- Every index of the output array is in the block the last step of its row block writes back.
theorem cover5 (i : S16384x64.Idx) :
    ∃ t : Fin cfg5.N, (cfg5.win 2).flush t = true ∧ i ∈ ((cfg5.win 2).blk t).view.set := by
  have h0 := idx2_lt0 i
  have hN : 16 * ((i 0).val / 1024) + 15 < grid5.N := by rw [N_5]; omega
  obtain ⟨-, -, -, -, e4, e5⟩ := idx_facts5 ⟨_, hN⟩
  let y : S1024x64.Idx := ix2 ⟨(i 0).val % 1024, Nat.mod_lt _ (by decide)⟩ ⟨(i 1).val, idx2_lt1 i⟩
  refine ⟨⟨_, hN⟩, (flush5_2 _).mpr (show (16 * ((i 0).val / 1024) + 15) % 16 = 15 by omega),
    Finset.mem_map.mpr ⟨y, Finset.mem_univ _, Shape.idx_ext₂ ((emb_val win5_2 ⟨_, hN⟩ y 0 e4).trans ?_)
      (win5_2.rect_emb_val_of_index_zero ⟨_, hN⟩ 1 e5 y)⟩⟩
  show 1024 * ((16 * ((i 0).val / 1024) + 15) / 16) + (i 0).val % 1024 = (i 0).val
  omega

end Val5

theorem final5 (V : (c : Dev nD) → (b : Ref sig .tc) → Buf (Elt Ideal) ((c : Thread nD τ).loc b)) (c : Dev nD) :
    (dat5 (F := Ideal) V c).arrAt 2 cfg5.N = Cert.Spec.mm (V c main_v24) (V c main_v90) :=
  (dat5 V c).arrAt_eq_of_cover 2 (Cert.Spec.mm (V c main_v24) (V c main_v90)) (Val5.flushed_eq5 V c) Val5.cover5

end Cert.KernelIdeal.Hand
end
-- ==== Proof.RefEq.lean ====
/- The reference's result as the composition of its stages: the fold of its operations over the launch contents,
   read at the result buffer, is the last stage's value of the ten arguments. The list is cut where the second layer's
   aggregated messages are complete, and once more after the row maximum of the log-softmax that follows. -/
import proofs.«401501_j17162689315356_1_alg».proof.Proof.RefRun
import proofs.«401501_j17162689315356_1_alg».proof.Proof.RefRead

noncomputable section

namespace Cert.ReferenceIdeal.Read

open Cert.ReferenceIdeal Cert.ReferenceIdeal.Gen Idealize.ShloMosaic Idealize.ShloMosaic.TcCoe Idealize.SL.Sem Idealize.ShloMosaic.StableHlo

variable {F : FTy → Type} [FloatOps F]

theorem after_concat : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_concat l₁ l₂]

-- The last fifteen operations: the row maximum of `main_v106`, then the rest of the log-softmax.
abbrev opsMax : List (HloOp τ sig (Elt F)) := (Value.ops.drop 128).take 2
abbrev opsRest : List (HloOp τ sig (Elt F)) := (Value.ops.drop 128).drop 2

theorem ops_eq : (Value.ops : List (HloOp τ sig (Elt F))) = Value.ops.take 128 ++ (opsMax ++ opsRest) := by
  unfold opsMax opsRest
  rw [List.take_append_drop, List.take_append_drop]

set_option maxRecDepth 8192 in
set_option maxHeartbeats 57200000 in
-- Each of the first 128 operations' results is its function of its operands' results, and none of the later fifteen writes `main_v106`.
theorem at_v106 (m : (ℓ : Loc nD τ sig) → Buf (Elt F) ℓ) (c : Dev nD) :
    after (Value.ops (F := F)) (launchContents m c) (Proc.devRef .tc main_v106)
      = val_main_v106 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  after_results_simp <;> rfl

variable (W : Valuation τ sig (Elt F)) {x0 : (⟨S16384x512, .f32⟩ : BufTy).Contents (Elt F)}
  {x1 x2 : (⟨S262144, .i32⟩ : BufTy).Contents (Elt F)} {x3 : (⟨S262144, .f32⟩ : BufTy).Contents (Elt F)}
  {x4 : (⟨S256x512, .f32⟩ : BufTy).Contents (Elt F)} {x5 : (⟨S256, .f32⟩ : BufTy).Contents (Elt F)}
  {x6 : (⟨S512, .f32⟩ : BufTy).Contents (Elt F)} {x7 : (⟨S64x256, .f32⟩ : BufTy).Contents (Elt F)}
  {x8 : (⟨S64, .f32⟩ : BufTy).Contents (Elt F)} {x9 : (⟨S256, .f32⟩ : BufTy).Contents (Elt F)}

theorem max_v106 : after (opsMax (F := F)) W (Proc.devRef .tc main_v106) = W (Proc.devRef .tc main_v106) := by
  simp only [opsMax, opsRest, Value.ops, List.drop_succ_cons, List.drop_zero, List.take_succ_cons, List.take_zero]
  after_results_simp

theorem rest_v106 : after (opsRest (F := F)) W (Proc.devRef .tc main_v106) = W (Proc.devRef .tc main_v106) := by
  simp only [opsMax, opsRest, Value.ops, List.drop_succ_cons, List.drop_zero, List.take_succ_cons, List.take_zero]
  after_results_simp

-- The transports along the buffers' type equalities are rewritten away first, so that the two folds have one operand.
theorem max_v0 (h : W (Proc.devRef .tc main_v106) = val_main_v106 (F := F) x0 x1 x2 x3 x4 x5 x6 x7 x8 x9) :
    after (opsMax (F := F)) W (Proc.devRef .tc main_call1_v0) = val_main_call1_v0 (F := F) x0 x1 x2 x3 x4 x5 x6 x7 x8 x9 := by
  simp only [opsMax, opsRest, Value.ops, List.drop_succ_cons, List.drop_zero, List.take_succ_cons, List.take_zero]
  after_results_simp
  simp only [TRef.ofBuf, TRef.toBuf]
  simp only [cast_eq]
  rw [h]
  rfl

-- Both sides are brought to terms over the two buffers' contents, so the row maximum is never opened.
theorem rest_v107 (h106 : W (Proc.devRef .tc main_v106) = val_main_v106 (F := F) x0 x1 x2 x3 x4 x5 x6 x7 x8 x9)
    (h0 : W (Proc.devRef .tc main_call1_v0) = val_main_call1_v0 (F := F) x0 x1 x2 x3 x4 x5 x6 x7 x8 x9) :
    after (opsRest (F := F)) W (Proc.devRef .tc main_v107) = val_main_v107 (F := F) x0 x1 x2 x3 x4 x5 x6 x7 x8 x9 := by
  simp only [opsMax, opsRest, Value.ops, List.drop_succ_cons, List.drop_zero, List.take_succ_cons, List.take_zero]
  after_results_simp
  simp only [val_main_v107, val_main_call1_v10, val_main_call1_v9, val_main_call1_v8, val_main_call1_v7, val_main_call1_cst_1, val_main_call1_v6, val_main_call1_v5, val_main_call1_v4, val_main_call1_v3, val_main_call1_v2, val_main_call1_v1, val_main_call1_cst_0]
  rw [← h106, ← h0]
  rfl

theorem val_main_v107_eq (m : (ℓ : Loc nD τ sig) → Buf (Elt F) ℓ) (c : Dev nD) :
    Cert.ReferenceIdeal.Value.res_main_v107 m c = val_main_v107 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  unfold Cert.ReferenceIdeal.Value.res_main_v107
  have hs : ∀ b, after (Value.ops (F := F)) (launchContents m c) b
      = after opsRest (after opsMax (after ((Value.ops (F := F)).take 128) (launchContents m c))) b := fun b => by
    conv_lhs => rw [ops_eq]
    rw [after_concat, after_concat]
  have h106 := at_v106 (F := F) m c
  rw [hs, rest_v106, max_v106] at h106
  rw [hs]
  exact rest_v107 _ ((max_v106 _).trans h106) (max_v0 _ h106)

end Cert.ReferenceIdeal.Read

end
-- ==== Proof.PreRead.lean ====
/- Decoding the precondition: the printed scalar is the conjunction of fourteen tests, each an and-reduction over all
   entries of an array of comparisons. Its being 1 says every float input is real, every edge endpoint is a node, and
   no feature scale is zero. -/
import proofs.«401501_j17162689315356_1_alg».proof.Pre_finite_inputs
import proofs.«401501_j17162689315356_1_alg».proof.Proof.Spec
import Idealize.ShloMosaic.Lib.ReduceAll
import Idealize.ShloMosaic.Lib.StableHlo.Predicate
import Idealize.ShloMosaic.PureOps.Ideal.Laws

noncomputable section

namespace Cert.PreRead

open Idealize.ShloMosaic Idealize.ShloMosaic.StableHlo.Predicate

abbrev S0 : Shape := ⟨0, ![]⟩

instance : Subsingleton S0.Idx := ⟨fun _ _ => funext fun d => d.elim0⟩

theorem ofBits_inf : Ideal.ofBits .f32 0x7F800000#32 = (⊤ : EReal) := by
  simp [Ideal.ofBits, Ideal.ieee]

-- Neither infinity has absolute value below plus infinity.
theorem real_of_abs_lt_top (x : EReal) (h : max x (-x) < (⊤ : EReal)) : ∃ r : ℝ, x = (r : EReal) := by
  induction x using EReal.rec with
  | bot => simp at h
  | coe r => exact ⟨r, rfl⟩
  | top => simp at h

section Arrays
variable {S : Shape} {axes : List (Fin S.rank)} {hb : S0.BroadcastsInDim S (![] : Fin 0 → Fin S.rank)}
  {hr : S.ReducesTo axes S0} {hu : 0 < S0.numel} {init : IVec S0 1} {j : S0.Idx}

theorem isReal_of_all {x : FVec Ideal S .f32}
    (e : Host.reduce IntOp.andi (cmpf .olt (Host.absf x) (broadcastInDim S ![] hb (constant S0 .f32 0x7F800000#32)))
      init hr hu j = 1#1) : Cert.Spec.IsReal x := fun i => by
  have hi : BitVec.ofBool (decide (max (x i) (-(x i)) < Ideal.ofBits .f32 0x7F800000#32)) = 1#1 :=
    Host.reduce_andi_all _ init hr hu j e i
  rw [ofBool_eq_one_iff, decide_eq_true_eq, ofBits_inf] at hi
  exact real_of_abs_lt_top _ hi

theorem ne_zero_of_all {x : FVec Ideal S .f32}
    (e : Host.reduce IntOp.andi (cmpf .ogt (Host.absf x) (broadcastInDim S ![] hb (constant S0 .f32 0x00000000#32)))
      init hr hu j = 1#1) (i : S.Idx) : x i ≠ 0 := fun h0 => by
  have hi : BitVec.ofBool (decide (Ideal.ofBits .f32 0x00000000#32 < max (x i) (-(x i)))) = 1#1 :=
    Host.reduce_andi_all _ init hr hu j e i
  rw [ofBool_eq_one_iff, decide_eq_true_eq, Ideal.ofBits_zero_f32, h0] at hi
  simp at hi

theorem nonneg_of_all {x : IVec S 32}
    (e : Host.reduce IntOp.andi (cmpi .sge x (broadcastInDim S ![] hb (constantI S0 32 0#32))) init hr hu j = 1#1)
    (i : S.Idx) : 0 ≤ (x i).toInt := by
  have hi : BitVec.ofBool ((0#32).sle (x i)) = 1#1 := Host.reduce_andi_all _ init hr hu j e i
  rw [ofBool_eq_one_iff] at hi
  simpa [BitVec.sle] using hi

theorem lt_of_all {x : IVec S 32}
    (e : Host.reduce IntOp.andi (cmpi .slt x (broadcastInDim S ![] hb (constantI S0 32 16384#32))) init hr hu j = 1#1)
    (i : S.Idx) : (x i).toInt < 16384 := by
  have hi : BitVec.ofBool ((x i).slt 16384#32) = 1#1 := Host.reduce_andi_all _ init hr hu j e i
  rw [ofBool_eq_one_iff] at hi
  have e : (16384#32 : BitVec 32).toInt = 16384 := by decide
  simpa [BitVec.slt, e] using hi

end Arrays

open Cert.Pre_finite_inputs in
-- The conjunction is taken apart from the left; each test is read by the lemma of its kind.
theorem hyp_of_pre [Facts] (x0 : FVec Ideal S16384x512 .f32) (x1 x2 : IVec S262144 32) (x3 : FVec Ideal S262144 .f32)
    (x4 : FVec Ideal S256x512 .f32) (x5 : FVec Ideal S256 .f32) (x6 : FVec Ideal S512 .f32)
    (x7 : FVec Ideal S64x256 .f32) (x8 : FVec Ideal S64 .f32) (x9 : FVec Ideal S256 .f32)
    (h : fn (F := Ideal) x0 x1 x2 x3 x4 x5 x6 x7 x8 x9 = fun _ => 1#1) :
    Cert.Spec.Hyp x0 x1 x2 x3 x4 x5 x6 x7 x8 x9 := by
  have e := congrFun h ValueIdx.ix0
  dsimp only [fn, fn_part1, fn_part2, fn_part3, andi] at e
  simp only [IntOp.andi_eq_one] at e
  obtain ⟨⟨⟨⟨⟨⟨⟨⟨⟨⟨⟨⟨⟨h0, h3⟩, h4⟩, h5⟩, h6⟩, h7⟩, h8⟩, h9⟩, h1a⟩, h1b⟩, h2a⟩, h2b⟩, h6z⟩, h9z⟩ := e
  exact ⟨isReal_of_all h0, isReal_of_all h3, isReal_of_all h4, isReal_of_all h5, isReal_of_all h6, isReal_of_all h7,
    isReal_of_all h8, isReal_of_all h9, fun i => ⟨nonneg_of_all h1a i, lt_of_all h1b i⟩,
    fun i => ⟨nonneg_of_all h2a i, lt_of_all h2b i⟩, ne_zero_of_all h6z, ne_zero_of_all h9z⟩

end Cert.PreRead

end
-- ==== Proof.LibGatherScatter.lean ====
/- A row gather and a row scatter-add of a two-axis table, read at one element; and, for any scatter, the axis-wise
   condition under which an update lands on a given element. -/
import Idealize.ShloMosaic.PureOps.Ideal
import Idealize.ShloMosaic.Lib.ValueIdx

open scoped BigOperators

namespace Cert.Bridge.GS

open Idealize.ShloMosaic Idealize.ShloMosaic.ValueIdx

section Gather
variable {α : Type} {N E W w : Nat}

-- The row axis is collapsed and start-indexed, the column axis is the one offset axis; an in-range start is not clamped.
theorem gather_apply_of_inRange (d : GatherDims ⟨2, ![N, W]⟩ ⟨2, ![E, 1]⟩ ⟨2, ![E, W]⟩)
    (hoff : d.offsetDims = [1]) (hcoll : d.collapsedSliceDims = [0]) (hob : d.operandBatchingDims = [])
    (hsim : d.startIndexMap = [0]) (hivd : d.indexVectorDim = 1)
    (x : (⟨2, ![N, W]⟩ : Shape).Idx → α) (idx : IVec ⟨2, ![E, 1]⟩ w) (e : Fin E) (j : Fin W)
    (h0 : 0 ≤ (idx (ix2 e 0)).toInt) (h1 : (idx (ix2 e 0)).toInt < N) :
    Host.gather d x idx (ix2 e j) = x (ix2 ⟨(idx (ix2 e 0)).toInt.toNat, by omega⟩ j) := by
  obtain ⟨od, cd, ob, sb, sim, ivd, ss, wf⟩ := d
  dsimp only at hoff hcoll hob hsim hivd
  subst hoff hcoll hob hsim hivd
  set D : GatherDims ⟨2, ![N, W]⟩ ⟨2, ![E, 1]⟩ ⟨2, ![E, W]⟩ := ⟨[1], [0], [], sb, [0], 1, ss, wf⟩
  have hsl : ss 0 = 1 := D.slice_collapsed 0 (List.mem_singleton.mpr rfl)
  have hi : ∀ h, D.siIdx (ix2 e j) ⟨List.idxOf (0 : Fin 2) [0], h⟩ = ix2 e 0 := fun h =>
    funext fun b => Fin.ext (match b with | ⟨0, _⟩ => rfl | ⟨1, _⟩ => rfl)
  unfold Host.gather
  congr 1
  funext a
  refine Fin.ext ?_
  match a with
  | ⟨0, _⟩ =>
    show min (idx (D.siIdx (ix2 e j) ⟨List.idxOf (0 : Fin 2) [0], _⟩)).toInt.toNat (N - ss 0) + 0 + 0 = (idx (ix2 e 0)).toInt.toNat
    rw [hi]
    omega
  | ⟨1, _⟩ =>
    show 0 + 0 + j.val = j.val
    omega

end Gather

-- An update lands on `i` exactly when, on every axis, its start plus its window coordinate is `i`'s coordinate.
theorem resultIdx?_eq_some_iff {s si u : Shape} (d : ScatterDims s si u) {w : Nat} (j : u.Idx) (idx : IVec si w) (i : s.Idx) :
    d.resultIdx? j idx = some i ↔ ∀ a, d.start j idx a + d.window j a = (i a).val := by
  unfold ScatterDims.resultIdx?
  split
  · next h =>
    rw [Option.some.injEq, funext_iff]
    exact forall_congr' fun a => by have := h a; rw [Fin.ext_iff]; show Int.toNat _ = _ ↔ _; omega
  · next h =>
    exact iff_of_false nofun fun h' => h fun a => by have := (i a).isLt; rw [h' a]; omega

-- The scatter-add at `i`: the table's element plus every update that lands on `i`.
theorem hostScatterAdd_apply {s si u : Shape} (d : ScatterDims s si u) {w : Nat} (x : s.Idx → EReal) (idx : IVec si w)
    (upd : u.Idx → EReal) (i : s.Idx) :
    Ideal.hostScatterAdd d x idx upd i
      = x i + ∑ j, if ∀ a, d.start j idx a + d.window j a = (i a).val then upd j else 0 := by
  unfold Ideal.hostScatterAdd
  rw [Finset.sum_filter]
  simp only [resultIdx?_eq_some_iff]

section Scatter
variable {N E W w : Nat} {φ : FTy}

-- The row axis is inserted and scattered, unclamped; the column axis is the window: update (e, j') lands on (idx e, j').
theorem scatterAdd_apply (d : ScatterDims ⟨2, ![N, W]⟩ ⟨2, ![E, 1]⟩ ⟨2, ![E, W]⟩)
    (huw : d.updateWindowDims = [1]) (hiw : d.insertedWindowDims = [0]) (hsd : d.scatterDimsToOperandDims = [0])
    (hivd : d.indexVectorDim = 1)
    (x : FVec Ideal ⟨2, ![N, W]⟩ φ) (idx : IVec ⟨2, ![E, 1]⟩ w) (upd : FVec Ideal ⟨2, ![E, W]⟩ φ) (n : Fin N) (j : Fin W) :
    Host.scatterAdd d x idx upd (ix2 n j) =
      x (ix2 n j) + ∑ e ∈ Finset.univ.filter (fun e : Fin E => (idx (ix2 e 0)).toInt = (n.val : Int)), upd (ix2 e j) := by
  obtain ⟨uw, iw, sd, ivd, wf⟩ := d
  dsimp only at huw hiw hsd hivd
  subst huw hiw hsd hivd
  set D : ScatterDims ⟨2, ![N, W]⟩ ⟨2, ![E, 1]⟩ ⟨2, ![E, W]⟩ := ⟨[1], [0], [0], 1, wf⟩
  refine (hostScatterAdd_apply D x idx upd _).trans ?_
  rw [sum_idx2, Finset.sum_filter]
  congr 1
  refine Finset.sum_congr rfl fun e _ => ?_
  have key : ∀ j', (∀ a, D.start (ix2 e j') idx a + D.window (ix2 e j') a = ((ix2 n j) a).val)
      ↔ j' = j ∧ (idx (ix2 e 0)).toInt = n.val := fun j' => by
    have hi : ∀ h, D.siIdx (ix2 e j') ⟨List.idxOf (0 : Fin 2) [0], h⟩ = ix2 e 0 := fun h =>
      funext fun b => Fin.ext (match b with | ⟨0, _⟩ => rfl | ⟨1, _⟩ => rfl)
    rw [Fin.forall_fin_two]
    show (idx (D.siIdx _ _)).toInt + (0 : Nat) = n.val ∧ (0 : Int) + j'.val = j.val ↔ _
    rw [hi, Fin.ext_iff]
    omega
  simp only [key, ite_and, Finset.sum_ite_eq', Finset.mem_univ, if_true]

end Scatter

end Cert.Bridge.GS
-- ==== Proof.LibScatter1.lean ====
/- Scatter-add into a rank-one table, read at one element. -/
import proofs.«401501_j17162689315356_1_alg».proof.Proof.LibGatherScatter
import Idealize.ShloMosaic.Lib.ValueIdxRank1

open scoped BigOperators

namespace Cert.Bridge.GS1

open Idealize.ShloMosaic Idealize.ShloMosaic.ValueIdx

variable {N E w : Nat} {φ : FTy}

-- The table's one axis is inserted and scattered, unclamped, with no window: update `e` lands on `idx e`.
theorem scatterAdd_apply (d : ScatterDims ⟨1, ![N]⟩ ⟨2, ![E, 1]⟩ ⟨1, ![E]⟩)
    (huw : d.updateWindowDims = []) (hiw : d.insertedWindowDims = [0]) (hsd : d.scatterDimsToOperandDims = [0])
    (hivd : d.indexVectorDim = 1)
    (x : FVec Ideal ⟨1, ![N]⟩ φ) (idx : IVec ⟨2, ![E, 1]⟩ w) (upd : FVec Ideal ⟨1, ![E]⟩ φ) (n : Fin N) :
    Host.scatterAdd d x idx upd (ix1 n) =
      x (ix1 n) + ∑ e ∈ Finset.univ.filter (fun e : Fin E => (idx (ix2 e 0)).toInt = (n.val : Int)), upd (ix1 e) := by
  obtain ⟨uw, iw, sd, ivd, wf⟩ := d
  dsimp only at huw hiw hsd hivd
  subst huw hiw hsd hivd
  set D : ScatterDims ⟨1, ![N]⟩ ⟨2, ![E, 1]⟩ ⟨1, ![E]⟩ := ⟨[], [0], [0], 1, wf⟩
  refine (GS.hostScatterAdd_apply D x idx upd _).trans ?_
  rw [← Equiv.sum_comp idxEquiv1.symm, Finset.sum_filter]
  congr 1
  refine Finset.sum_congr rfl fun e _ => if_congr ?_ rfl rfl
  have hi : ∀ h, D.siIdx (ix1 e) ⟨List.idxOf (0 : Fin 1) [0], h⟩ = ix2 e 0 := fun h =>
    funext fun b => Fin.ext (match b with | ⟨0, _⟩ => rfl | ⟨1, _⟩ => rfl)
  rw [Fin.forall_fin_one]
  show (idx (D.siIdx (ix1 e) _)).toInt + (0 : Nat) = n.val ↔ _
  rw [hi]
  omega

end Cert.Bridge.GS1
-- ==== Proof.LibScatter2.lean ====
/- Point scatter-add into a two-axis table, and the shape operations around it (a two-piece concatenation along
   the columns, the wrap of a negative position, broadcasts), each read at one element. -/
import proofs.«401501_j17162689315356_1_alg».proof.Proof.LibGatherScatter
import Idealize.ShloMosaic.Lib.ValueIdxRank1
import Idealize.ShloMosaic.Lib.Pipeline.Value

open scoped BigOperators

namespace Cert.Bridge.GS2

open Idealize.ShloMosaic Idealize.ShloMosaic.ValueIdx

section Scatter
variable {N M E w : Nat} {φ : FTy}

-- Both axes of the table are inserted and scattered, unclamped, with no window: update `e` lands on its pair.
theorem scatterAdd_apply (d : ScatterDims ⟨2, ![N, M]⟩ ⟨2, ![E, 2]⟩ ⟨1, ![E]⟩)
    (huw : d.updateWindowDims = []) (hiw : d.insertedWindowDims = [0, 1]) (hsd : d.scatterDimsToOperandDims = [0, 1])
    (hivd : d.indexVectorDim = 1)
    (x : FVec Ideal ⟨2, ![N, M]⟩ φ) (idx : IVec ⟨2, ![E, 2]⟩ w) (upd : FVec Ideal ⟨1, ![E]⟩ φ) (n : Fin N) (k : Fin M) :
    Host.scatterAdd d x idx upd (ix2 n k) =
      x (ix2 n k) + ∑ e ∈ Finset.univ.filter (fun e : Fin E =>
        (idx (ix2 e 0)).toInt = (n.val : Int) ∧ (idx (ix2 e 1)).toInt = (k.val : Int)), upd (ix1 e) := by
  obtain ⟨uw, iw, sd, ivd, wf⟩ := d
  dsimp only at huw hiw hsd hivd
  subst huw hiw hsd hivd
  set D : ScatterDims ⟨2, ![N, M]⟩ ⟨2, ![E, 2]⟩ ⟨1, ![E]⟩ := ⟨[], [0, 1], [0, 1], 1, wf⟩
  refine (GS.hostScatterAdd_apply D x idx upd _).trans ?_
  rw [← Equiv.sum_comp idxEquiv1.symm, Finset.sum_filter]
  congr 1
  refine Finset.sum_congr rfl fun e _ => ?_
  have hi0 : ∀ h, D.siIdx (ix1 e) ⟨List.idxOf (0 : Fin 2) [0, 1], h⟩ = ix2 e 0 := fun h =>
    funext fun b => Fin.ext (match b with | ⟨0, _⟩ => rfl | ⟨1, _⟩ => rfl)
  have hi1 : ∀ h, D.siIdx (ix1 e) ⟨List.idxOf (1 : Fin 2) [0, 1], h⟩ = ix2 e 1 := fun h =>
    funext fun b => Fin.ext (match b with | ⟨0, _⟩ => rfl | ⟨1, _⟩ => rfl)
  have key : (∀ a, D.start (ix1 e) idx a + D.window (ix1 e) a = ((ix2 n k) a).val)
      ↔ (idx (ix2 e 0)).toInt = n.val ∧ (idx (ix2 e 1)).toInt = k.val := by
    rw [Fin.forall_fin_two]
    show (idx (D.siIdx (ix1 e) _)).toInt + (0 : Nat) = n.val ∧ (idx (D.siIdx (ix1 e) _)).toInt + (0 : Nat) = k.val ↔ _
    rw [hi0, hi1]
    omega
  have he : (idxEquiv1.symm e : (⟨1, ![E]⟩ : Shape).Idx) = ix1 e := rfl
  simp only [he, key]

end Scatter

section Concat
variable {α : Type}

theorem concat_cols_left {N W₁ W₂ V : Nat} (a : (⟨2, ![N, W₁]⟩ : Shape).Idx → α) (b : (⟨2, ![N, W₂]⟩ : Shape).Idx → α)
    (h : Shape.Concatenates [⟨2, ![N, W₁]⟩, ⟨2, ![N, W₂]⟩] ⟨2, ![N, V]⟩ 1) (n : Fin N) (q : Fin W₁) (hq : q.val < V) :
    concatenate ⟨2, ![N, V]⟩ 1 [⟨⟨2, ![N, W₁]⟩, a⟩, ⟨⟨2, ![N, W₂]⟩, b⟩] h (ix2 n ⟨q.val, hq⟩) = a (ix2 n q) :=
  concatenate_pair_apply_left 1 a b h (ix2 n ⟨q.val, hq⟩) rfl (ix2 n q) fun
    | ⟨0, _⟩ => rfl
    | ⟨1, _⟩ => rfl

theorem concat_cols_right {N W₁ W₂ V : Nat} (a : (⟨2, ![N, W₁]⟩ : Shape).Idx → α) (b : (⟨2, ![N, W₂]⟩ : Shape).Idx → α)
    (h : Shape.Concatenates [⟨2, ![N, W₁]⟩, ⟨2, ![N, W₂]⟩] ⟨2, ![N, V]⟩ 1) (n : Fin N) (q : Fin W₂)
    (hq : W₁ + q.val < V) :
    concatenate ⟨2, ![N, V]⟩ 1 [⟨⟨2, ![N, W₁]⟩, a⟩, ⟨⟨2, ![N, W₂]⟩, b⟩] h (ix2 n ⟨W₁ + q.val, hq⟩) = b (ix2 n q) :=
  concatenate_pair_apply_right 1 a b h (ix2 n ⟨W₁ + q.val, hq⟩) rfl rfl (ix2 n q)
    (fun
      | ⟨0, _⟩, _ => rfl
      | ⟨1, _⟩, hne => absurd rfl hne)
    (Nat.add_comm _ _)

theorem concat_pair_zero {E : Nat} (a b : (⟨2, ![E, 1]⟩ : Shape).Idx → α)
    (h : Shape.Concatenates [⟨2, ![E, 1]⟩, ⟨2, ![E, 1]⟩] ⟨2, ![E, 2]⟩ 1) (e : Fin E) :
    concatenate ⟨2, ![E, 2]⟩ 1 [⟨⟨2, ![E, 1]⟩, a⟩, ⟨⟨2, ![E, 1]⟩, b⟩] h (ix2 e 0) = a (ix2 e 0) :=
  concat_cols_left a b h e 0 (by decide)

theorem concat_pair_one {E : Nat} (a b : (⟨2, ![E, 1]⟩ : Shape).Idx → α)
    (h : Shape.Concatenates [⟨2, ![E, 1]⟩, ⟨2, ![E, 1]⟩] ⟨2, ![E, 2]⟩ 1) (e : Fin E) :
    concatenate ⟨2, ![E, 2]⟩ 1 [⟨⟨2, ![E, 1]⟩, a⟩, ⟨⟨2, ![E, 1]⟩, b⟩] h (ix2 e 1) = b (ix2 e 0) :=
  concat_cols_right a b h e 0 (by decide)

end Concat

-- A position that is not negative, read signed, fails the test `< 0`, so the select keeps it.
theorem wrap_of_nonneg {t : Shape} {w : Nat} (idx : IVec t w) (hpos : ∀ i, 0 ≤ (idx i).toInt)
    (h0 : (⟨0, ![]⟩ : Shape).BroadcastsInDim t ![]) (n : BitVec w) :
    select (cmpi .slt idx (broadcastInDim t ![] h0 (constantI ⟨0, ![]⟩ w 0#w)))
      (addi idx (broadcastInDim t ![] h0 (constantI ⟨0, ![]⟩ w n))) idx = idx := by
  funext i
  have hs : (idx i).slt 0#w = false := by
    simp only [BitVec.slt, BitVec.toInt_zero, decide_eq_false_iff_not, not_lt]
    exact hpos i
  show Scalar.select (BitVec.ofBool ((idx i).slt 0#w)) _ (idx i) = idx i
  rw [hs]
  exact select_zero _ _

section Bcast
variable {α : Type}

-- A broadcast reads the operand at any index that agrees with `j` on the axes that are not stretched.
theorem bcast_apply_of {s t : Shape} {dims : Fin s.rank → Fin t.rank} (h : s.BroadcastsInDim t dims) (x : s.Idx → α)
    (j : t.Idx) (i : s.Idx) (hi : ∀ a, s.size a ≠ 1 → (i a).val = (j (dims a)).val) :
    broadcastInDim t dims h x j = x i :=
  broadcastInDim_apply dims h x j i fun a => by
    split
    · next h1 => have := (i a).isLt; omega
    · next h1 => exact hi a h1

theorem bcast_scalar_apply {t : Shape} (h : (⟨0, ![]⟩ : Shape).BroadcastsInDim t ![]) (v : (⟨0, ![]⟩ : Shape).Idx → α)
    (j : t.Idx) : broadcastInDim t ![] h v j = v ix0 :=
  bcast_apply_of h v j ix0 fun a => a.elim0

theorem bcast_vec_col {E : Nat} (h : (⟨1, ![E]⟩ : Shape).BroadcastsInDim ⟨2, ![E, 1]⟩ ![0])
    (v : (⟨1, ![E]⟩ : Shape).Idx → α) (e : Fin E) :
    broadcastInDim ⟨2, ![E, 1]⟩ ![0] h v (ix2 e 0) = v (ix1 e) :=
  bcast_apply_of h v _ (ix1 e) fun
    | ⟨0, _⟩, _ => rfl

theorem bcast_col_across {E W : Nat} (h : (⟨2, ![E, 1]⟩ : Shape).BroadcastsInDim ⟨2, ![E, W]⟩ ![0, 1])
    (col : (⟨2, ![E, 1]⟩ : Shape).Idx → α) (e : Fin E) (j : Fin W) :
    broadcastInDim ⟨2, ![E, W]⟩ ![0, 1] h col (ix2 e j) = col (ix2 e 0) :=
  bcast_apply_of h col _ (ix2 e 0) fun
    | ⟨0, _⟩, _ => rfl
    | ⟨1, _⟩, hne => absurd rfl hne

theorem bcast_vec_rows {N W : Nat} (h₁ : (⟨1, ![N]⟩ : Shape).BroadcastsInDim ⟨2, ![N, 1]⟩ ![0])
    (h₂ : (⟨2, ![N, 1]⟩ : Shape).BroadcastsInDim ⟨2, ![N, W]⟩ ![0, 1]) (v : (⟨1, ![N]⟩ : Shape).Idx → α)
    (n : Fin N) (j : Fin W) :
    broadcastInDim ⟨2, ![N, W]⟩ ![0, 1] h₂ (broadcastInDim ⟨2, ![N, 1]⟩ ![0] h₁ v) (ix2 n j) = v (ix1 n) :=
  (bcast_col_across h₂ _ n j).trans (bcast_vec_col h₁ v n)

theorem bcast_vec_cols {N W : Nat} (h₁ : (⟨1, ![W]⟩ : Shape).BroadcastsInDim ⟨2, ![1, W]⟩ ![1])
    (h₂ : (⟨2, ![1, W]⟩ : Shape).BroadcastsInDim ⟨2, ![N, W]⟩ ![0, 1]) (v : (⟨1, ![W]⟩ : Shape).Idx → α)
    (n : Fin N) (j : Fin W) :
    broadcastInDim ⟨2, ![N, W]⟩ ![0, 1] h₂ (broadcastInDim ⟨2, ![1, W]⟩ ![1] h₁ v) (ix2 n j) = v (ix1 j) :=
  (bcast_apply_of h₂ _ _ (ix2 0 j) fun
    | ⟨0, _⟩, hne => absurd rfl hne
    | ⟨1, _⟩, _ => rfl).trans
  (bcast_apply_of h₁ v _ (ix1 j) fun
    | ⟨0, _⟩, _ => rfl)

end Bcast

end Cert.Bridge.GS2
-- ==== Proof.LibGraph.lean ====
/- Sums over the edges of a weighted graph, regrouped through its adjacency matrix, for real values held as extended
   reals; and the extended-real operations keep real values real. -/
import Mathlib.Data.EReal.Basic
import Mathlib.Data.EReal.Operations
import Mathlib.Algebra.BigOperators.Group.Finset.Basic
import Mathlib.Algebra.BigOperators.Ring.Finset
import Mathlib.Analysis.SpecialFunctions.Exp
import Mathlib.Tactic.Ring

open scoped BigOperators

namespace Cert.Bridge.Graph

variable {N E : Nat} {a b : EReal}

section
variable (ha : ∃ r : ℝ, a = (r : EReal)) (hb : ∃ r : ℝ, b = (r : EReal))
include ha

theorem real_zero_add : ∃ r : ℝ, 0 + a = (r : EReal) := by
  rwa [zero_add]

include hb

theorem real_add : ∃ r : ℝ, a + b = (r : EReal) := by
  obtain ⟨r, rfl⟩ := ha; obtain ⟨s, rfl⟩ := hb; exact ⟨r + s, rfl⟩
theorem real_sub : ∃ r : ℝ, a - b = (r : EReal) := by
  obtain ⟨r, rfl⟩ := ha; obtain ⟨s, rfl⟩ := hb; exact ⟨r - s, rfl⟩
theorem real_mul : ∃ r : ℝ, a * b = (r : EReal) := by
  obtain ⟨r, rfl⟩ := ha; obtain ⟨s, rfl⟩ := hb; exact ⟨r * s, (EReal.coe_mul r s).symm⟩
theorem real_max : ∃ r : ℝ, max a b = (r : EReal) := by
  rcases max_choice a b with h | h <;> rw [h] <;> assumption

end

theorem real_sum {ι : Type*} (s : Finset ι) (f : ι → EReal) (hf : ∀ i ∈ s, ∃ r : ℝ, f i = (r : EReal)) :
    ∃ r : ℝ, ∑ i ∈ s, f i = (r : EReal) :=
  Finset.sum_induction f (fun a => ∃ r : ℝ, a = (r : EReal)) (fun _ _ => real_add) ⟨0, rfl⟩ hf

theorem coe_sum {ι : Type*} (s : Finset ι) (f : ι → ℝ) : ((∑ i ∈ s, f i : ℝ) : EReal) = ∑ i ∈ s, (f i : EReal) :=
  map_sum (⟨⟨(↑), EReal.coe_zero⟩, EReal.coe_add⟩ : ℝ →+ EReal) f s

-- The edges out of `n` fall into classes by target; on the class of `k` the factor `L (tgt e)` is the constant `L k`.
theorem spmm_real (src tgt : Fin E → Fin N) (w : Fin E → ℝ) (L : Fin N → ℝ) (n : Fin N) :
    (∑ k, (∑ e ∈ Finset.univ.filter (fun e => src e = n ∧ tgt e = k), w e) * L k)
      = ∑ e ∈ Finset.univ.filter (fun e => src e = n), w e * L (tgt e) := by
  rw [← Finset.sum_fiberwise (Finset.univ.filter (fun e => src e = n)) tgt]
  refine Finset.sum_congr rfl fun k _ => ?_
  rw [Finset.sum_mul, Finset.filter_filter]
  exact Finset.sum_congr rfl fun e he => by rw [(Finset.mem_filter.mp he).2.2]

-- The square of the difference expanded on every edge out of `n`, where `x (src e) = x n`.
theorem sqdiff_real (src tgt : Fin E → Fin N) (w : Fin E → ℝ) (x : Fin N → ℝ) (n : Fin N) :
    x n * x n * (∑ e ∈ Finset.univ.filter (fun e => src e = n), w e)
        - (2 * x n) * (∑ e ∈ Finset.univ.filter (fun e => src e = n), w e * x (tgt e))
        + (∑ e ∈ Finset.univ.filter (fun e => src e = n), w e * (x (tgt e) * x (tgt e)))
      = ∑ e ∈ Finset.univ.filter (fun e => src e = n),
          ((x (src e) - x (tgt e)) * (x (src e) - x (tgt e))) * w e := by
  rw [Finset.mul_sum, Finset.mul_sum, ← Finset.sum_sub_distrib, ← Finset.sum_add_distrib]
  exact Finset.sum_congr rfl fun e he => by rw [(Finset.mem_filter.mp he).2]; ring

-- Both sides are the extended reals of real sums, where the distributive law holds.
theorem spmm_sum (src tgt : Fin E → Fin N) (w : Fin E → EReal) (hw : ∀ e, ∃ r : ℝ, w e = (r : EReal))
    (L : Fin N → EReal) (hL : ∀ k, ∃ r : ℝ, L k = (r : EReal)) (n : Fin N)
    (adj : Fin N → EReal)
    (hadj : ∀ k, adj k = 0 + ∑ e ∈ Finset.univ.filter (fun e => src e = n ∧ tgt e = k), w e) :
    (∑ k, adj k * L k) = 0 + ∑ e ∈ Finset.univ.filter (fun e => src e = n), w e * L (tgt e) := by
  choose wr hwr using hw
  choose Lr hLr using hL
  simp only [hadj, hwr, hLr, zero_add, ← EReal.coe_mul, ← coe_sum]
  exact congrArg _ (spmm_real src tgt wr Lr n)

theorem sqdiff_sum (src tgt : Fin E → Fin N) (w : Fin E → EReal) (hw : ∀ e, ∃ r : ℝ, w e = (r : EReal))
    (x : Fin N → EReal) (hx : ∀ k, ∃ r : ℝ, x k = (r : EReal)) (n : Fin N)
    (S0 : EReal) (hS0 : S0 = 0 + ∑ e ∈ Finset.univ.filter (fun e => src e = n), w e)
    (adj : Fin N → EReal)
    (hadj : ∀ k, adj k = 0 + ∑ e ∈ Finset.univ.filter (fun e => src e = n ∧ tgt e = k), w e)
    (two : EReal) (htwo : two = ((2 : ℝ) : EReal)) :
    x n * x n * S0 - (two * x n) * (∑ k, adj k * x k) + (∑ k, adj k * (x k * x k))
      = 0 + ∑ e ∈ Finset.univ.filter (fun e => src e = n),
          ((x (src e) - x (tgt e)) * (x (src e) - x (tgt e))) * w e := by
  rw [spmm_sum src tgt w hw x hx n adj hadj,
    spmm_sum src tgt w hw (fun k => x k * x k) (fun k => real_mul (hx k) (hx k)) n adj hadj]
  choose wr hwr using hw
  choose xr hxr using hx
  simp only [hS0, htwo, hwr, hxr, zero_add, ← EReal.coe_mul, ← EReal.coe_sub, ← EReal.coe_add, ← coe_sum]
  exact congrArg _ (sqdiff_real src tgt wr xr n)

end Cert.Bridge.Graph
-- ==== Proof.Bridge.L1K.lean ====
/- The value bridge's shared part: one graph-convolution layer at any widths, with both programs' sums over the edges
   read at an element, and the kernel program's buffers through its first layer. -/
import proofs.«401501_j17162689315356_1_alg».proof.Proof.KI.Arr
import proofs.«401501_j17162689315356_1_alg».proof.Proof.Gen.KernelIdeal.Regions
import proofs.«401501_j17162689315356_1_alg».proof.Proof.Spec
import proofs.«401501_j17162689315356_1_alg».proof.Proof.LibGatherScatter
import proofs.«401501_j17162689315356_1_alg».proof.Proof.LibScatter1
import proofs.«401501_j17162689315356_1_alg».proof.Proof.LibScatter2
import proofs.«401501_j17162689315356_1_alg».proof.Proof.LibGraph
import proofs.«401501_j17162689315356_1_alg».proof.Proof.RefRead
import Idealize.ShloMosaic.Lib.IdealHost

set_option maxRecDepth 16384

open scoped BigOperators

noncomputable section

namespace Cert.Bridge

open Cert.KernelIdeal Cert.KernelIdeal.Gen Cert.KernelIdeal.Hand
open Idealize.ShloMosaic Idealize.ShloMosaic.TcCoe Idealize.ShloMosaic.ValueIdx
open Idealize.SL Idealize.SL.Sem
open Cert.Spec (IsReal mm mm_apply)

section Generic
variable {N E W : Nat}

def nodeOf (x : IVec ⟨1, ![E]⟩ 32) (hx : ∀ i, 0 ≤ (x i).toInt ∧ (x i).toInt < (N : Int)) (e : Fin E) : Fin N :=
  ⟨(x (ix1 e)).toInt.toNat, by have := hx (ix1 e); omega⟩

-- A node's edges, summed (onto the zero the scatters start from).
def esum (x : IVec ⟨1, ![E]⟩ 32) (hx : ∀ i, 0 ≤ (x i).toInt ∧ (x i).toInt < (N : Int)) (f : Fin E → EReal) (n : Fin N) :
    EReal :=
  0 + ∑ e ∈ Finset.univ.filter (fun e => nodeOf x hx e = n), f e

variable (x1 x2 : IVec ⟨1, ![E]⟩ 32) (hx1 : ∀ i, 0 ≤ (x1 i).toInt ∧ (x1 i).toInt < (N : Int))
  (hx2 : ∀ i, 0 ≤ (x2 i).toInt ∧ (x2 i).toInt < (N : Int)) (w : FVec Ideal ⟨1, ![E]⟩ .f32)

theorem nodeOf_eq_iff (e : Fin E) (n : Fin N) : nodeOf x1 hx1 e = n ↔ (x1 (ix1 e)).toInt = (n.val : Int) := by
  have := hx1 (ix1 e)
  rw [Fin.ext_iff]
  show (x1 (ix1 e)).toInt.toNat = n.val ↔ _
  omega

theorem esum_real (f : Fin E → EReal) (hf : ∀ e, ∃ r : ℝ, f e = (r : EReal)) (n : Fin N) :
    ∃ r : ℝ, esum x1 hx1 f n = (r : EReal) :=
  Graph.real_zero_add (Graph.real_sum _ _ fun e _ => hf e)

theorem filter_node (n : Fin N) :
    Finset.univ.filter (fun e : Fin E => (x1 (ix1 e)).toInt = (n.val : Int))
      = Finset.univ.filter (fun e : Fin E => nodeOf x1 hx1 e = n) :=
  Finset.filter_congr fun e _ => (nodeOf_eq_iff x1 hx1 e n).symm

theorem filter_node2 (n k : Fin N) :
    Finset.univ.filter (fun e : Fin E => (x1 (ix1 e)).toInt = (n.val : Int) ∧ (x2 (ix1 e)).toInt = (k.val : Int))
      = Finset.univ.filter (fun e : Fin E => nodeOf x1 hx1 e = n ∧ nodeOf x2 hx2 e = k) :=
  Finset.filter_congr fun e _ => by rw [nodeOf_eq_iff, nodeOf_eq_iff]

-- One edge's term of the squared-difference sum.
def sqd (h : FVec Ideal ⟨2, ![N, W]⟩ .f32) (j : Fin W) (e : Fin E) : EReal :=
  (h (ix2 (nodeOf x1 hx1 e) j) - h (ix2 (nodeOf x2 hx2 e) j))
    * (h (ix2 (nodeOf x1 hx1 e) j) - h (ix2 (nodeOf x2 hx2 e) j)) * w (ix1 e)

variable (dS : ScatterDims ⟨2, ![N, W]⟩ ⟨2, ![E, 1]⟩ ⟨2, ![E, W]⟩)
  (huw : dS.updateWindowDims = [1]) (hiw : dS.insertedWindowDims = [0]) (hsd : dS.scatterDimsToOperandDims = [0])
  (hsv : dS.indexVectorDim = 1)
  (dG : GatherDims ⟨2, ![N, W]⟩ ⟨2, ![E, 1]⟩ ⟨2, ![E, W]⟩)
  (hoff : dG.offsetDims = [1]) (hcoll : dG.collapsedSliceDims = [0]) (hob : dG.operandBatchingDims = [])
  (hsim : dG.startIndexMap = [0]) (hgv : dG.indexVectorDim = 1)
  (hb : (⟨1, ![E]⟩ : Shape).BroadcastsInDim ⟨2, ![E, 1]⟩ ![0])
  (hb2 : (⟨2, ![E, 1]⟩ : Shape).BroadcastsInDim ⟨2, ![E, W]⟩ ![0, 1])
  (z : FVec Ideal ⟨2, ![N, W]⟩ .f32) (hz : ∀ i, z i = 0)

include hoff hcoll hob hsim hgv in
-- A row gather at a column of in-range words reads the row of the word's node.
theorem gather_col (h : FVec Ideal ⟨2, ![N, W]⟩ .f32) (e : Fin E) (j : Fin W) :
    Host.gather dG h (broadcastInDim ⟨2, ![E, 1]⟩ ![0] hb x1) (ix2 e j) = h (ix2 (nodeOf x1 hx1 e) j) := by
  have hc : broadcastInDim ⟨2, ![E, 1]⟩ ![0] hb x1 (ix2 e 0) = x1 (ix1 e) := GS2.bcast_vec_col hb x1 e
  have hr := hx1 (ix1 e)
  rw [GS.gather_apply_of_inRange dG hoff hcoll hob hsim hgv h _ e j (by rw [hc]; exact hr.1) (by rw [hc]; exact hr.2)]
  exact congrArg (fun r => h (ix2 r j)) (Fin.ext (by show (_ : Int).toNat = (_ : Int).toNat; rw [hc]))

include huw hiw hsd hsv hz in
-- A scatter-add of edge rows into the edges' sources, from zero, sums each node's edges.
theorem scatter_src (u : FVec Ideal ⟨2, ![E, W]⟩ .f32) (n : Fin N) (j : Fin W) :
    Host.scatterAdd dS z (broadcastInDim ⟨2, ![E, 1]⟩ ![0] hb x1) u (ix2 n j) = esum x1 hx1 (fun e => u (ix2 e j)) n := by
  unfold esum
  rw [GS.scatterAdd_apply dS huw hiw hsd hsv, hz]
  refine congrArg (0 + ·) (Finset.sum_congr (Finset.filter_congr fun e _ => ?_) fun _ _ => rfl)
  rw [GS2.bcast_vec_col, nodeOf_eq_iff]

include huw hiw hsd hsv hz hoff hcoll hob hsim hgv in
theorem ref_msg_apply (h : FVec Ideal ⟨2, ![N, W]⟩ .f32) (n : Fin N) (j : Fin W) :
    Host.scatterAdd dS z (broadcastInDim ⟨2, ![E, 1]⟩ ![0] hb x1)
        (mulf
          (mulf
            (subf (Host.gather dG h (broadcastInDim ⟨2, ![E, 1]⟩ ![0] hb x1)) (Host.gather dG h (broadcastInDim ⟨2, ![E, 1]⟩ ![0] hb x2)))
            (subf (Host.gather dG h (broadcastInDim ⟨2, ![E, 1]⟩ ![0] hb x1)) (Host.gather dG h (broadcastInDim ⟨2, ![E, 1]⟩ ![0] hb x2))))
          (broadcastInDim ⟨2, ![E, W]⟩ ![0, 1] hb2 (broadcastInDim ⟨2, ![E, 1]⟩ ![0] hb w)))
        (ix2 n j)
      = esum x1 hx1 (sqd x1 x2 hx1 hx2 w h j) n := by
  rw [scatter_src x1 hx1 dS huw hiw hsd hsv hb z hz]
  refine congrArg (esum x1 hx1 · n) (funext fun e => ?_)
  rw [mulf_apply, mulf_apply, subf_apply, gather_col x1 hx1 dG hoff hcoll hob hsim hgv hb,
    gather_col x2 hx2 dG hoff hcoll hob hsim hgv hb, GS2.bcast_vec_rows]
  rfl

include huw hiw hsd hsv hz hoff hcoll hob hsim hgv in
theorem ref_out_apply (L : FVec Ideal ⟨2, ![N, W]⟩ .f32) (n : Fin N) (j : Fin W) :
    Host.scatterAdd dS z (broadcastInDim ⟨2, ![E, 1]⟩ ![0] hb x1)
        (mulf (broadcastInDim ⟨2, ![E, W]⟩ ![0, 1] hb2 (broadcastInDim ⟨2, ![E, 1]⟩ ![0] hb w))
          (Host.gather dG L (broadcastInDim ⟨2, ![E, 1]⟩ ![0] hb x2)))
        (ix2 n j)
      = esum x1 hx1 (fun e => w (ix1 e) * L (ix2 (nodeOf x2 hx2 e) j)) n := by
  rw [scatter_src x1 hx1 dS huw hiw hsd hsv hb z hz]
  refine congrArg (esum x1 hx1 · n) (funext fun e => ?_)
  rw [mulf_apply, gather_col x2 hx2 dG hoff hcoll hob hsim hgv hb, GS2.bcast_vec_rows]

end Generic

section Layer
variable {N E W V K : Nat}
  (b0 : S_.BroadcastsInDim ⟨2, ![N, W]⟩ ![])
  (bn : (⟨1, ![N]⟩ : Shape).BroadcastsInDim ⟨2, ![N, 1]⟩ ![0])
  (bn' : (⟨2, ![N, 1]⟩ : Shape).BroadcastsInDim ⟨2, ![N, W]⟩ ![0, 1])
  (bw : (⟨1, ![W]⟩ : Shape).BroadcastsInDim ⟨2, ![1, W]⟩ ![1])
  (bw' : (⟨2, ![1, W]⟩ : Shape).BroadcastsInDim ⟨2, ![N, W]⟩ ![0, 1])
  (sl : (⟨2, ![N, V]⟩ : Shape).Slices ![0, 0] ⟨2, ![N, W]⟩)
  (sr : (⟨2, ![N, V]⟩ : Shape).Slices ![0, W] ⟨2, ![N, W]⟩)
  (hc : Shape.Concatenates [⟨2, ![N, W]⟩, ⟨2, ![N, W]⟩] ⟨2, ![N, V]⟩ 1)
  (tW : (⟨2, ![K, W]⟩ : Shape).Transposes [1, 0] ⟨2, ![W, K]⟩)
  (bk : (⟨1, ![K]⟩ : Shape).BroadcastsInDim ⟨2, ![1, K]⟩ ![1])
  (bk' : (⟨2, ![1, K]⟩ : Shape).BroadcastsInDim ⟨2, ![N, K]⟩ ![0, 1])

-- The features beside their squares.
def catOf (h : FVec Ideal ⟨2, ![N, W]⟩ .f32) : FVec Ideal ⟨2, ![N, V]⟩ .f32 :=
  concatenate ⟨2, ![N, V]⟩ 1 [⟨⟨2, ![N, W]⟩, h⟩, ⟨⟨2, ![N, W]⟩, mulf h h⟩] hc

-- The squared-difference sum with its square expanded: hh·s0 − (2·h)·y[:, :W] + y[:, W:].
def msgOf (h hh : FVec Ideal ⟨2, ![N, W]⟩ .f32) (s0 : FVec Ideal ⟨1, ![N]⟩ .f32) (y : FVec Ideal ⟨2, ![N, V]⟩ .f32) :
    FVec Ideal ⟨2, ![N, W]⟩ .f32 :=
  addf
    (subf (mulf hh (broadcastInDim ⟨2, ![N, W]⟩ ![0, 1] bn' (broadcastInDim ⟨2, ![N, 1]⟩ ![0] bn s0)))
      (mulf (mulf (broadcastInDim ⟨2, ![N, W]⟩ ![] b0 (constant (F := Ideal) S_ .f32 0x40000000#32)) h)
        (extractStridedSlice ⟨2, ![N, W]⟩ ![0, 0] y sl)))
    (extractStridedSlice ⟨2, ![N, W]⟩ ![0, W] y sr)

-- The mask exp(−(mv / σ²) / deg), times the features.
def gateOf (mv : FVec Ideal ⟨2, ![N, W]⟩ .f32) (σ : FVec Ideal ⟨1, ![W]⟩ .f32) (deg : FVec Ideal ⟨1, ![N]⟩ .f32)
    (h : FVec Ideal ⟨2, ![N, W]⟩ .f32) : FVec Ideal ⟨2, ![N, W]⟩ .f32 :=
  mulf
    (Host.exp
      (Host.divf
        (Host.negf
          (Host.divf mv (broadcastInDim ⟨2, ![N, W]⟩ ![0, 1] bw' (broadcastInDim ⟨2, ![1, W]⟩ ![1] bw (mulf σ σ)))))
        (broadcastInDim ⟨2, ![N, W]⟩ ![0, 1] bn' (broadcastInDim ⟨2, ![N, 1]⟩ ![0] bn deg))))
    h

-- A bias added along every row.
def linOf (z : FVec Ideal ⟨2, ![N, K]⟩ .f32) (b : FVec Ideal ⟨1, ![K]⟩ .f32) : FVec Ideal ⟨2, ![N, K]⟩ .f32 :=
  addf z (broadcastInDim ⟨2, ![N, K]⟩ ![0, 1] bk' (broadcastInDim ⟨2, ![1, K]⟩ ![1] bk b))

theorem two_f32 : Ideal.ofBits .f32 0x40000000#32 = ((2 : ℝ) : EReal) := by
  simp [Ideal.ofBits, Ideal.ieee, -EReal.coe_mul]; norm_num

theorem msgOf_apply (h hh : FVec Ideal ⟨2, ![N, W]⟩ .f32) (s0 : FVec Ideal ⟨1, ![N]⟩ .f32)
    (y : FVec Ideal ⟨2, ![N, V]⟩ .f32) (n : Fin N) (j : Fin W) (hj : j.val < V) (hj' : W + j.val < V) :
    msgOf b0 bn bn' sl sr h hh s0 y (ix2 n j)
      = hh (ix2 n j) * s0 (ix1 n) - (Ideal.ofBits .f32 0x40000000#32 * h (ix2 n j)) * y (ix2 n ⟨j.val, hj⟩)
          + y (ix2 n ⟨W + j.val, hj'⟩) := by
  unfold msgOf
  rw [addf_apply, subf_apply, mulf_apply, mulf_apply, mulf_apply, GS2.bcast_vec_rows, GS2.bcast_scalar_apply,
    constant_apply,
    extractStridedSlice_apply ![0, 0] y sl (ix2 n j) (ix2 n ⟨j.val, hj⟩) (fun a => match a with
      | ⟨0, _⟩ => by show n.val = 0 + n.val; omega
      | ⟨1, _⟩ => by show j.val = 0 + j.val; omega),
    extractStridedSlice_apply ![0, W] y sr (ix2 n j) (ix2 n ⟨W + j.val, hj'⟩) (fun a => match a with
      | ⟨0, _⟩ => by show n.val = 0 + n.val; omega
      | ⟨1, _⟩ => by show W + j.val = W + j.val; rfl)]

variable (x1 x2 : IVec ⟨1, ![E]⟩ 32) (hx1 : ∀ i, 0 ≤ (x1 i).toInt ∧ (x1 i).toInt < (N : Int))
  (hx2 : ∀ i, 0 ≤ (x2 i).toInt ∧ (x2 i).toInt < (N : Int)) (w : FVec Ideal ⟨1, ![E]⟩ .f32) (hw : IsReal w)
  (adj : FVec Ideal ⟨2, ![N, N]⟩ .f32) (s0 : FVec Ideal ⟨1, ![N]⟩ .f32)
  (hs0 : ∀ n : Fin N, s0 (ix1 n)
    = 0 + ∑ e ∈ Finset.univ.filter (fun e : Fin E => (x1 (ix1 e)).toInt = (n.val : Int)), w (ix1 e))
  (hadj : ∀ n k : Fin N, adj (ix2 n k)
    = 0 + ∑ e ∈ Finset.univ.filter (fun e : Fin E =>
        (x1 (ix1 e)).toInt = (n.val : Int) ∧ (x2 (ix1 e)).toInt = (k.val : Int)), w (ix1 e))

include hw hs0 hadj in
-- The expanded square through the adjacency matrix is the sum over a node's edges, for real features.
theorem msg_kernel (hV : W + W = V) (h : FVec Ideal ⟨2, ![N, W]⟩ .f32) (hh : IsReal h) (n : Fin N) (j : Fin W) :
    msgOf b0 bn bn' sl sr h (mulf h h) s0 (mm (M := N) (K := N) (N := V) adj (catOf hc h)) (ix2 n j)
      = esum x1 hx1 (sqd x1 x2 hx1 hx2 w h j) n := by
  rw [msgOf_apply b0 bn bn' sl sr _ _ _ _ n j (by omega) (by omega), mulf_apply, mm_apply, mm_apply]
  simp only [catOf, GS2.concat_cols_left, GS2.concat_cols_right, mulf_apply]
  exact Graph.sqdiff_sum (nodeOf x1 hx1) (nodeOf x2 hx2) (fun e => w (ix1 e)) (fun e => hw (ix1 e))
    (fun k => h (ix2 k j)) (fun k => hh (ix2 k j)) n (s0 (ix1 n)) (by rw [hs0 n, filter_node x1 hx1 n])
    (fun k => adj (ix2 n k)) (fun k => by rw [hadj n k, filter_node2 x1 x2 hx1 hx2 n k]) _ two_f32

include hw hadj in
-- The adjacency matrix times real rows is the sum over a node's edges of the weight times the target's row.
theorem out_kernel (L : FVec Ideal ⟨2, ![N, K]⟩ .f32) (hL : IsReal L) (n : Fin N) (q : Fin K) :
    mm (M := N) (K := N) (N := K) adj L (ix2 n q) = esum x1 hx1 (fun e => w (ix1 e) * L (ix2 (nodeOf x2 hx2 e) q)) n := by
  rw [mm_apply]
  exact Graph.spmm_sum (nodeOf x1 hx1) (nodeOf x2 hx2) (fun e => w (ix1 e)) (fun e => hw (ix1 e))
    (fun k => L (ix2 k q)) (fun k => hL (ix2 k q)) n (fun k => adj (ix2 n k))
    (fun k => by rw [hadj n k, filter_node2 x1 x2 hx1 hx2 n k])

include hw in
theorem sqd_real (h : FVec Ideal ⟨2, ![N, W]⟩ .f32) (hh : IsReal h) (j : Fin W) (e : Fin E) :
    ∃ r : ℝ, sqd x1 x2 hx1 hx2 w h j e = (r : EReal) :=
  Graph.real_mul (Graph.real_mul (Graph.real_sub (hh _) (hh _)) (Graph.real_sub (hh _) (hh _))) (hw _)

-- Real values, a scale and a degree that are not zero: the gate is real.
theorem gateOf_real (mv : FVec Ideal ⟨2, ![N, W]⟩ .f32) (σ : FVec Ideal ⟨1, ![W]⟩ .f32)
    (deg : FVec Ideal ⟨1, ![N]⟩ .f32) (h : FVec Ideal ⟨2, ![N, W]⟩ .f32) (hmv : IsReal mv) (hσ : IsReal σ)
    (hσ0 : ∀ i, σ i ≠ 0) (hdeg : ∀ n : Fin N, ∃ r : ℝ, deg (ix1 n) = (r : EReal) ∧ r ≠ 0) (hh : IsReal h) :
    IsReal (gateOf bn bn' bw bw' mv σ deg h) := by
  intro i
  obtain ⟨n, j, rfl⟩ : ∃ n j, i = ix2 n j := ⟨i 0, i 1, eq_ix2 i⟩
  obtain ⟨a, ha⟩ := hmv (ix2 n j)
  obtain ⟨b, hb⟩ := hh (ix2 n j)
  obtain ⟨s, hs⟩ := hσ (ix1 j)
  obtain ⟨d, hd, hd0⟩ := hdeg n
  have hs0 : s ≠ 0 := fun e => hσ0 (ix1 j) (by rw [hs, e, EReal.coe_zero])
  unfold gateOf
  show ∃ r : ℝ, Ideal.exp (Ideal.div (-(Ideal.div (mv (ix2 n j)) _)) _) * h (ix2 n j) = (r : EReal)
  rw [GS2.bcast_vec_cols, GS2.bcast_vec_rows, mulf_apply, ha, hb, hs, hd, ← EReal.coe_mul,
    Ideal.div_coe (mul_ne_zero hs0 hs0), ← EReal.coe_mul, ← EReal.coe_neg, Ideal.div_coe hd0, ← EReal.coe_mul,
    Ideal.exp_coe, ← EReal.coe_mul]
  exact ⟨_, rfl⟩

-- Real rows, real weights and a real bias: the linear map is real.
theorem linOf_real (p : FVec Ideal ⟨2, ![N, W]⟩ .f32) (Wm : FVec Ideal ⟨2, ![K, W]⟩ .f32) (b : FVec Ideal ⟨1, ![K]⟩ .f32)
    (hp : IsReal p) (hW : IsReal Wm) (hb : IsReal b) :
    IsReal (linOf bk bk' (mm (M := N) (K := W) (N := K) p (transpose ⟨2, ![W, K]⟩ [1, 0] Wm tW)) b) := by
  intro i
  obtain ⟨n, q, rfl⟩ : ∃ n q, i = ix2 n q := ⟨i 0, i 1, eq_ix2 i⟩
  unfold linOf
  rw [addf_apply, GS2.bcast_vec_cols, mm_apply]
  refine Graph.real_add (Graph.real_sum _ _ fun k _ => Graph.real_mul (hp _) ?_) (hb _)
  rw [transpose_apply [1, 0] Wm tW (ix2 k q) (ix2 q k) (fun a => match a with | ⟨0, _⟩ => rfl | ⟨1, _⟩ => rfl)]
  exact hW _

end Layer

def cat2 {α : Type} (t : Shape) (ax : Fin t.rank) (s₁ s₂ : Shape) (h : Shape.Concatenates [s₁, s₂] t ax)
    (a : s₁.Idx → α) (b : s₂.Idx → α) : t.Idx → α :=
  concatenate t ax [⟨s₁, a⟩, ⟨s₂, b⟩] h
theorem cat2_fold {α : Type} (t : Shape) (ax : Fin t.rank) (s₁ s₂ : Shape) (h : Shape.Concatenates [s₁, s₂] t ax)
    (a : s₁.Idx → α) (b : s₂.Idx → α) : concatenate t ax [⟨s₁, a⟩, ⟨s₂, b⟩] h = cat2 t ax s₁ s₂ h a b := rfl

variable (m : (ℓ : Loc nD τ sig) → Buf (Elt Ideal) ℓ) (c : Dev nD)

abbrev a0 : S16384x512.Idx → EReal := m ((c : Thread nD τ).loc main_arg0)
abbrev a1 : S262144.Idx → BitVec 32 := m ((c : Thread nD τ).loc main_arg1)
abbrev a2 : S262144.Idx → BitVec 32 := m ((c : Thread nD τ).loc main_arg2)
abbrev a3 : S262144.Idx → EReal := m ((c : Thread nD τ).loc main_arg3)
abbrev a4 : S256x512.Idx → EReal := m ((c : Thread nD τ).loc main_arg4)
abbrev a5 : S256.Idx → EReal := m ((c : Thread nD τ).loc main_arg5)
abbrev a6 : S512.Idx → EReal := m ((c : Thread nD τ).loc main_arg6)
abbrev a7 : S64x256.Idx → EReal := m ((c : Thread nD τ).loc main_arg7)
abbrev a8 : S64.Idx → EReal := m ((c : Thread nD τ).loc main_arg8)
abbrev a9 : S256.Idx → EReal := m ((c : Thread nD τ).loc main_arg9)

abbrev HypAt : Prop :=
  Cert.Spec.Hyp (a0 m c) (a1 m c) (a2 m c) (a3 m c) (a4 m c) (a5 m c) (a6 m c) (a7 m c) (a8 m c) (a9 m c)

abbrev Vals : Type := (c : Dev nD) → (b : Ref sig .tc) → Buf (Elt Ideal) ((c : Thread nD τ).loc b)
abbrev Fin0 : Prop := ∀ (V : Vals) (c : Dev nD), (dat0 (F := Ideal) V c).arrAt 2 cfg0.N = mm (V c main_v24) (V c main_v27)
abbrev Fin1 : Prop := ∀ (V : Vals) (c : Dev nD), (dat1 (F := Ideal) V c).arrAt 2 cfg1.N = mm (V c main_v49) (V c main_v51)
abbrev Fin2 : Prop := ∀ (V : Vals) (c : Dev nD), (dat2 (F := Ideal) V c).arrAt 2 cfg2.N = mm (V c main_v24) (V c main_v56)
abbrev Fin3 : Prop := ∀ (V : Vals) (c : Dev nD), (dat3 (F := Ideal) V c).arrAt 2 cfg3.N = mm (V c main_v24) (V c main_v61)
abbrev Fin4 : Prop := ∀ (V : Vals) (c : Dev nD), (dat4 (F := Ideal) V c).arrAt 2 cfg4.N = mm (V c main_v83) (V c main_v85)
abbrev Fin5 : Prop := ∀ (V : Vals) (c : Dev nD), (dat5 (F := Ideal) V c).arrAt 2 cfg5.N = mm (V c main_v24) (V c main_v90)

theorem F_s0 (n : Fin 16384) :
    (W1 m c (Proc.devRef .tc main_v8) : (⟨1, ![16384]⟩ : Shape).Idx → EReal) (ix1 n)
      = 0 + ∑ e ∈ Finset.univ.filter (fun e : Fin 262144 => (a1 m c (ix1 e)).toInt = (n.val : Int)), a3 m c (ix1 e) := by
  show StableHlo.after hostOps0 (W0 m c) _ _ = _
  after_results_simp
  rw [GS1.scatterAdd_apply _ rfl rfl rfl rfl, GS2.bcast_scalar_apply, constant_apply, Ideal.ofBits_zero_f32]
  refine congrArg (0 + ·) (Finset.sum_congr (Finset.filter_congr fun e _ => ?_) fun _ _ => rfl)
  rw [GS2.bcast_vec_col]

theorem F_adj (H : HypAt m c) (n k : Fin 16384) :
    (W1 m c (Proc.devRef .tc main_v24) : (⟨2, ![16384, 16384]⟩ : Shape).Idx → EReal) (ix2 n k)
      = 0 + ∑ e ∈ Finset.univ.filter (fun e : Fin 262144 =>
          (a1 m c (ix1 e)).toInt = (n.val : Int) ∧ (a2 m c (ix1 e)).toInt = (k.val : Int)), a3 m c (ix1 e) := by
  show StableHlo.after hostOps0 (W0 m c) _ _ = _
  after_results_simp
  simp only [cat2_fold]
  after_results_simp
  unfold cat2
  rw [GS2.wrap_of_nonneg _ (fun i => (H.src_range i).1), GS2.wrap_of_nonneg _ (fun i => (H.tgt_range i).1), truncf_apply,
    GS2.scatterAdd_apply _ rfl rfl rfl rfl, GS2.bcast_scalar_apply, constant_apply, Ideal.ofBits_zero_f32]
  refine congrArg (0 + ·) (Finset.sum_congr (Finset.filter_congr fun e _ => ?_) fun _ _ => rfl)
  rw [GS2.concat_pair_zero, GS2.concat_pair_one, GS2.bcast_vec_col, GS2.bcast_vec_col]

theorem src_lt (H : HypAt m c) : ∀ i, 0 ≤ (a1 m c i).toInt ∧ (a1 m c i).toInt < ((16384 : Nat) : Int) := H.src_range
theorem tgt_lt (H : HypAt m c) : ∀ i, 0 ≤ (a2 m c i).toInt ∧ (a2 m c i).toInt < ((16384 : Nat) : Int) := H.tgt_range

open Cert.ReferenceIdeal.Read in
-- The degree, the larger of a count of edges and one, is real and not zero.
theorem deg_real (x : IVec S262144 32) (n : Fin 16384) :
    ∃ r : ℝ, val_main_v5 (F := Ideal) x (ix1 n) = (r : EReal) ∧ r ≠ 0 := by
  have h3 : ∃ r : ℝ, val_main_v3 (F := Ideal) x (ix1 n) = (r : EReal) := by
    unfold val_main_v3
    rw [GS1.scatterAdd_apply _ rfl rfl rfl rfl]
    refine Graph.real_add ⟨0, ?_⟩ (Graph.real_sum _ _ fun e _ => ⟨1, ?_⟩)
    · rw [val_main_v1_apply, val_main_cst_0_apply]; exact Ideal.ofBits_zero_f32.trans EReal.coe_zero.symm
    · rw [val_main_v0_apply, val_main_cst_apply]; exact Ideal.ofBits_one_f32.trans EReal.coe_one.symm
  have h4 : val_main_v4 (F := Ideal) (ix1 n) = ((1 : ℝ) : EReal) := by
    rw [val_main_v4_apply, val_main_cst_1_apply]; exact Ideal.ofBits_one_f32.trans EReal.coe_one.symm
  obtain ⟨r, hr⟩ := h3
  refine ⟨max r 1, ?_, (lt_of_lt_of_le one_pos (le_max_right r 1)).ne'⟩
  rw [val_main_v5_apply, Ideal.maximumf_def, hr, h4]
  exact (EReal.coe_strictMono.monotone.map_max).symm

theorem W2_in (r : Ref sig .tc) (h0 : r ∉ hostOps0_W) (h1 : ∀ w, Pipeline.arrRef spec0 w ≠ r) :
    W2 m c (Proc.devRef .tc r) = m ((c : Thread nD τ).loc r) :=
  (W2_of_ne m c r h1).trans (StableHlo.after_of_writes_sub hostOps0 _ hostOps0_writes h0)

theorem W5_v24 : W5 m c (Proc.devRef .tc main_v24) = W1 m c (Proc.devRef .tc main_v24) :=
  (StableHlo.after_of_writes_sub hostOps2 _ hostOps2_writes (by decide)).trans <|
    (W4_of_ne m c main_v24 (by decide)).trans <|
    (StableHlo.after_of_writes_sub hostOps1 _ hostOps1_writes (by decide)).trans <|
    (W2_arr m c 0).trans (((dat0 (V1 m) c).arrAt_in 0 rfl _).trans (A_eq0 (V1 m) c 0))

theorem W2_v28 (hfin0 : Fin0) : (W2 m c (Proc.devRef .tc main_v28) : S16384x1024.Idx → EReal)
    = mm (W1 m c (Proc.devRef .tc main_v24) : S16384x16384.Idx → EReal)
        (catOf concatenates_S16384x512_S16384x512_S16384x1024_d1 (a0 m c)) :=
  ((W2_arr m c 2).trans (hfin0 (V1 m) c)).trans
    (congrArg (mm _) (by
      show StableHlo.after hostOps0 (W0 m c) _ = _
      after_results_simp
      simp only [cat2_fold]
      after_results_simp
      rfl))

-- The kernel's squared-difference sum of the first layer.
def mK : FVec Ideal S16384x512 .f32 :=
  msgOf bcast_S_S16384x512 bcast_S16384_S16384x1_0 bcast_S16384x1_S16384x512_0_1 slices_S16384x1024_S16384x512_0_0
    slices_S16384x1024_S16384x512_0_512 (a0 m c) (mulf (F := Ideal) (φ := .f32) (a0 m c) (a0 m c))
    (W1 m c (Proc.devRef .tc main_v8))
    (mm (W1 m c (Proc.devRef .tc main_v24) : S16384x16384.Idx → EReal)
      (catOf concatenates_S16384x512_S16384x512_S16384x1024_d1 (a0 m c)))

abbrev gate1 := gateOf bcast_S16384_S16384x1_0 bcast_S16384x1_S16384x512_0_1 bcast_S512_S1x512_1 bcast_S1x512_S16384x512_0_1
abbrev lin1 := linOf bcast_S256_S1x256_1 bcast_S1x256_S16384x256_0_1

theorem K_v49 (hfin0 : Fin0) : (W3 m c (Proc.devRef .tc main_v49) : S16384x512.Idx → EReal) =
    gate1 (mK m c) (a6 m c) (W1 m c (Proc.devRef .tc main_v5)) (a0 m c) := by
  have h25 : W2 m c (Proc.devRef .tc main_v25) = mulf (F := Ideal) (φ := .f32) (a0 m c) (a0 m c) :=
    (W2_of_ne m c main_v25 (by decide)).trans (by show StableHlo.after hostOps0 (W0 m c) _ = _; after_results_simp)
  show StableHlo.after hostOps1 (W2 m c) _ = _
  after_results_simp
  rw [W2_v28 m c hfin0, h25, W2_in m c main_arg0 (by decide) (by decide), W2_in m c main_arg6 (by decide) (by decide),
    W2_of_ne m c main_v5 (by decide), W2_of_ne m c main_v8 (by decide)]
  rfl

theorem K_v51 : (W3 m c (Proc.devRef .tc main_v51) : S512x256.Idx → EReal) =
    transpose S512x256 [1, 0] (a4 m c) transposes_S256x512_S512x256_1_0 := by
  show StableHlo.after hostOps1 (W2 m c) _ = _
  after_results_simp
  rw [W2_in m c main_arg4 (by decide) (by decide)]
  rfl

theorem W4_v52 (hfin1 : Fin1) : (W4 m c (Proc.devRef .tc main_v52) : S16384x256.Idx → EReal)
    = mm (W3 m c (Proc.devRef .tc main_v49) : S16384x512.Idx → EReal) (W3 m c (Proc.devRef .tc main_v51)) :=
  (W4_arr m c 2).trans (hfin1 (V3 m) c)

theorem K_v56 : (W5 m c (Proc.devRef .tc main_v56) : S16384x256.Idx → EReal) =
    lin1 (W4 m c (Proc.devRef .tc main_v52)) (a5 m c) := by
  show StableHlo.after hostOps2 (W4 m c) _ = _
  after_results_simp
  rw [(W4_of_ne m c main_arg5 (by decide)).trans <|
    (StableHlo.after_of_writes_sub hostOps1 _ hostOps1_writes (by decide)).trans (W2_in m c main_arg5 (by decide) (by decide))]
  rfl

theorem W6_v57 (hfin2 : Fin2) : (W6 m c (Proc.devRef .tc main_v57) : S16384x256.Idx → EReal)
    = mm (W1 m c (Proc.devRef .tc main_v24) : S16384x16384.Idx → EReal) (W5 m c (Proc.devRef .tc main_v56)) := by
  rw [← W5_v24]
  exact (W6_arr m c 2).trans (hfin2 (V5 m) c)

theorem K_v58 : (W7 m c (Proc.devRef .tc main_v58) : S16384x256.Idx → EReal) =
    maximumf (F := Ideal) (s := S16384x256) (φ := .f32) (W6 m c (Proc.devRef .tc main_v57))
      (broadcastInDim S16384x256 ![] bcast_S_S16384x256 (constant (F := Ideal) S_ .f32 0x00000000#32)) := by
  show StableHlo.after hostOps3 (W6 m c) _ = _
  after_results_simp
  rfl
end Cert.Bridge
end
-- ==== Proof.Bridge.L1.lean ====
/- Layer 1, the two programs side by side: on the claim's domain the kernel program's first convolution is the
   reference's, and its values are real. -/
import proofs.«401501_j17162689315356_1_alg».proof.Proof.Bridge.L1K

set_option maxRecDepth 16384

open scoped BigOperators

noncomputable section

namespace Cert.Bridge

open Cert.KernelIdeal Cert.KernelIdeal.Gen Cert.KernelIdeal.Hand
open Idealize.ShloMosaic Idealize.ShloMosaic.TcCoe Idealize.ShloMosaic.ValueIdx
open Idealize.SL Idealize.SL.Sem
open Cert.Spec (IsReal mm mm_apply)

variable (m : (ℓ : Loc nD τ sig) → Buf (Elt Ideal) ℓ) (c : Dev nD)

open Cert.ReferenceIdeal.Read

theorem F_deg : W1 m c (Proc.devRef .tc main_v5) = val_main_v5 (F := Ideal) (a1 m c) := by
  show StableHlo.after hostOps0 (W0 m c) _ = _
  after_results_simp
  rfl

abbrev r27 := val_main_v27 (F := Ideal) (a0 m c) (a1 m c) (a2 m c) (a3 m c)
abbrev r37 := val_main_v37 (F := Ideal) (a0 m c) (a1 m c) (a2 m c) (a3 m c) (a6 m c)
abbrev r42 := val_main_v42 (F := Ideal) (a0 m c) (a1 m c) (a2 m c) (a3 m c) (a4 m c) (a5 m c) (a6 m c)
abbrev r55 := val_main_v55 (F := Ideal) (a0 m c) (a1 m c) (a2 m c) (a3 m c) (a4 m c) (a5 m c) (a6 m c)

theorem R_m (H : HypAt m c) (n : Fin 16384) (f : Fin 512) :
    r27 m c (ix2 n f)
      = esum (a1 m c) (src_lt m c H) (sqd (a1 m c) (a2 m c) (src_lt m c H) (tgt_lt m c H) (a3 m c) (a0 m c) f) n := by
  unfold r27 val_main_v27 val_main_v26 val_main_v24 val_main_v21 val_main_v20 val_main_v12 val_main_v19 val_main_v11
    val_main_v18 val_main_v23 val_main_v22 val_main_v10 val_main_v7 val_main_v9 val_main_v6 val_main_v8 val_main_c
    val_main_c_2 val_main_v17 val_main_v14 val_main_v16 val_main_v13 val_main_v15 val_main_c_3 val_main_c_4
  rw [GS2.wrap_of_nonneg (a1 m c) fun i => (H.src_range i).1, GS2.wrap_of_nonneg (a2 m c) fun i => (H.tgt_range i).1]
  exact ref_msg_apply (a1 m c) (a2 m c) (src_lt m c H) (tgt_lt m c H) (a3 m c) _ rfl rfl rfl rfl _ rfl rfl rfl rfl rfl _ _ _
    (fun i => (GS2.bcast_scalar_apply _ _ i).trans Ideal.ofBits_zero_f32) (a0 m c) n f

theorem F_m (H : HypAt m c) : mK m c = r27 m c := by
  funext i
  obtain ⟨n, f, rfl⟩ : ∃ n f, i = ix2 n f := ⟨i 0, i 1, eq_ix2 i⟩
  unfold mK
  rw [msg_kernel _ _ _ _ _ _ (a1 m c) (a2 m c) (src_lt m c H) (tgt_lt m c H) (a3 m c) H.w_real _ _ (F_s0 m c) (F_adj m c H) rfl
    (a0 m c) H.x_real n f, R_m m c H]

theorem m_real (H : HypAt m c) : IsReal (r27 m c) := fun i => by
  obtain ⟨n, f, rfl⟩ : ∃ n f, i = ix2 n f := ⟨i 0, i 1, eq_ix2 i⟩
  rw [R_m m c H]
  exact esum_real _ _ _ (sqd_real _ _ _ _ _ H.w_real _ H.x_real f) n

theorem R_p : r37 m c
    = gate1 (r27 m c) (a6 m c) (val_main_v5 (F := Ideal) (a1 m c))
        (a0 m c) := rfl

theorem p_real (H : HypAt m c) :
    IsReal (r37 m c) := by
  rw [R_p]
  exact gateOf_real _ _ _ _ _ _ _ _ (m_real m c H) H.σ1_real H.σ1_ne (deg_real _) H.x_real

theorem R_lin : r42 m c
    = lin1 (mm (r37 m c : S16384x512.Idx → EReal)
        (transpose S512x256 [1, 0] (a4 m c) transposes_S256x512_S512x256_1_0)) (a5 m c) := by
  have h : val_main_v39 (F := Ideal) (a0 m c) (a1 m c) (a2 m c) (a3 m c) (a4 m c) (a6 m c)
      = mm (r37 m c : S16384x512.Idx → EReal)
          (transpose S512x256 [1, 0] (a4 m c) transposes_S256x512_S512x256_1_0) := by
    funext i
    obtain ⟨n, j, rfl⟩ : ∃ n j, i = ix2 n j := ⟨i 0, i 1, eq_ix2 i⟩
    rw [val_main_v39_apply, mm_apply]
    refine Finset.sum_congr rfl fun k _ => ?_
    have el : lidx_main_v39 (ix2 n j) k = ix2 n k := funext fun a => match a with | ⟨0, _⟩ => rfl | ⟨1, _⟩ => rfl
    have er : ridx_main_v39 (ix2 n j) k = ix2 k j := funext fun a => match a with | ⟨0, _⟩ => rfl | ⟨1, _⟩ => rfl
    rw [el, er]
    rfl
  unfold r42 val_main_v42
  rw [h]
  rfl

theorem F_lin (H : HypAt m c) (hfin0 : Fin0) (hfin1 : Fin1) :
    (W5 m c (Proc.devRef .tc main_v56) : S16384x256.Idx → EReal)
      = r42 m c := by
  rw [K_v56, W4_v52 m c hfin1, K_v49 m c hfin0, K_v51, F_m m c H, F_deg, R_lin]
  rfl

theorem lin_real (H : HypAt m c) :
    IsReal (r42 m c) := by
  rw [R_lin]
  exact linOf_real _ _ _ _ _ _ (p_real m c H) H.W1_real H.b1_real

theorem R_out (H : HypAt m c) (n : Fin 16384) (j : Fin 256) :
    r55 m c (ix2 n j)
      = esum (a1 m c) (src_lt m c H) (fun e => a3 m c (ix1 e)
          * r42 m c
              (ix2 (nodeOf (a2 m c) (tgt_lt m c H) e) j)) n := by
  unfold r55 val_main_v55 val_main_v54 val_main_v52 val_main_v51 val_main_v43 val_main_v50 val_main_v49 val_main_v48
    val_main_v45 val_main_v47 val_main_v44 val_main_v46 val_main_c_6 val_main_c_7
  rw [GS2.wrap_of_nonneg (a2 m c) fun i => (H.tgt_range i).1]
  exact ref_out_apply (a1 m c) (a2 m c) (src_lt m c H) (tgt_lt m c H) (a3 m c) _ rfl rfl rfl rfl _ rfl rfl rfl rfl rfl _ _ _
    (fun i => (GS2.bcast_scalar_apply _ _ i).trans Ideal.ofBits_zero_f32) _ n j

theorem out_real (H : HypAt m c) :
    IsReal (r55 m c) := fun i => by
  obtain ⟨n, j, rfl⟩ : ∃ n j, i = ix2 n j := ⟨i 0, i 1, eq_ix2 i⟩
  rw [R_out m c H]
  exact esum_real _ _ _ (fun e => Graph.real_mul (H.w_real _) (lin_real m c H _)) n

theorem F_h1 (H : HypAt m c) (hfin0 : Fin0) (hfin1 : Fin1) (hfin2 : Fin2) :
    W7 m c (Proc.devRef .tc main_v58)
      = val_main_v56 (F := Ideal) (a0 m c) (a1 m c) (a2 m c) (a3 m c) (a4 m c) (a5 m c) (a6 m c) := by
  have h : (W6 m c (Proc.devRef .tc main_v57) : S16384x256.Idx → EReal)
      = r55 m c := by
    funext i
    obtain ⟨n, j, rfl⟩ : ∃ n j, i = ix2 n j := ⟨i 0, i 1, eq_ix2 i⟩
    rw [W6_v57 m c hfin2, F_lin m c H hfin0 hfin1,
      out_kernel (a1 m c) (a2 m c) (src_lt m c H) (tgt_lt m c H) (a3 m c) H.w_real _ (F_adj m c H) _ (lin_real m c H) n j,
      R_out m c H]
  rw [K_v58, h]
  rfl

theorem F_h1_real (H : HypAt m c) :
    IsReal (val_main_v56 (F := Ideal) (a0 m c) (a1 m c) (a2 m c) (a3 m c) (a4 m c) (a5 m c) (a6 m c)) := fun i => by
  rw [val_main_v56_apply, Ideal.maximumf_def]
  exact Graph.real_max (out_real m c H i) ⟨0, (GS2.bcast_scalar_apply _ _ i).trans Ideal.ofBits_zero_f32⟩
end Cert.Bridge
end
-- ==== Proof.Bridge.L2.lean ====
/- Layer 2 and the log-softmax: on the claim's domain the kernel program's result is the reference's. -/
import proofs.«401501_j17162689315356_1_alg».proof.Proof.Bridge.L1

set_option maxRecDepth 16384

open scoped BigOperators

noncomputable section

namespace Cert.Bridge

open Cert.KernelIdeal Cert.KernelIdeal.Gen Cert.KernelIdeal.Hand
open Idealize.ShloMosaic Idealize.ShloMosaic.TcCoe Idealize.ShloMosaic.ValueIdx
open Idealize.SL Idealize.SL.Sem
open Cert.Spec (IsReal mm mm_apply)

namespace L2

open Cert.ReferenceIdeal.Read

-- A row's entries minus the row's largest.
def shift2 (z : FVec Ideal S16384x64 .f32) : FVec Ideal S16384x64 .f32 :=
  subf z
    (broadcastInDim S16384x64 ![0, 1] bcast_S16384x1_S16384x64_0_1
      (broadcastInDim S16384x1 ![0] bcast_S16384_S16384x1_0
        (maximumf (broadcastInDim S16384 ![] bcast_S_S16384 (constant (F := Ideal) S_ .f32 0xFF800000#32))
          (Host.reduce FloatOps.maximumf z (constant (F := Ideal) S_ .f32 0xFF800000#32) reducesTo_S16384x64_S16384_d1 h_S_))))

-- The row-wise log-softmax.
def lsm2 (z : FVec Ideal S16384x64 .f32) : FVec Ideal S16384x64 .f32 :=
  subf (shift2 z)
    (broadcastInDim S16384x64 ![0, 1] bcast_S16384x1_S16384x64_0_1
      (Host.log
        (broadcastInDim S16384x1 ![0] bcast_S16384_S16384x1_0
          (Host.reduceAdd (Host.exp (shift2 z)) (constant (F := Ideal) S_ .f32 0x00000000#32) reducesTo_S16384x64_S16384_d1 h_S_))))

theorem ofBuf_toBuf {sig : RefSig} {T : BufTy} {Val : EltTy → Type} (x : StableHlo.TRef sig T) (v : T.Contents Val) :
    x.ofBuf (x.toBuf v) = v := by
  obtain ⟨r, rfl, _, _⟩ := x
  rfl

abbrev gate2 := gateOf bcast_S16384_S16384x1_0 bcast_S16384x1_S16384x256_0_1 bcast_S256_S1x256_1 bcast_S1x256_S16384x256_0_1
abbrev lin2 := linOf bcast_S64_S1x64_1 bcast_S1x64_S16384x64_0_1

section Reference

variable (x0 : FVec Ideal S16384x512 .f32) (x1 x2 : IVec S262144 32) (x3 : FVec Ideal S262144 .f32)
  (x4 : FVec Ideal S256x512 .f32) (x5 : FVec Ideal S256 .f32) (x6 : FVec Ideal S512 .f32)
  (x7 : FVec Ideal S64x256 .f32) (x8 : FVec Ideal S64 .f32) (x9 : FVec Ideal S256 .f32)
  (hx1 : ∀ i, 0 ≤ (x1 i).toInt ∧ (x1 i).toInt < ((16384 : Nat) : Int))
  (hx2 : ∀ i, 0 ≤ (x2 i).toInt ∧ (x2 i).toInt < ((16384 : Nat) : Int))

theorem ref_v78_apply (n : Fin 16384) (j : Fin 256) :
    val_main_v78 (F := Ideal) x0 x1 x2 x3 x4 x5 x6 (ix2 n j)
      = esum x1 hx1 (sqd x1 x2 hx1 hx2 x3 (val_main_v56 (F := Ideal) x0 x1 x2 x3 x4 x5 x6) j) n := by
  unfold val_main_v78 val_main_v75 val_main_v72 val_main_v71 val_main_v63 val_main_v70 val_main_v62 val_main_v69
    val_main_v77 val_main_v74 val_main_v73 val_main_v61 val_main_v58 val_main_v60 val_main_v57 val_main_v59 val_main_c_9
    val_main_c_10 val_main_v68 val_main_v65 val_main_v67 val_main_v64 val_main_v66 val_main_c_11 val_main_c_12
  rw [GS2.wrap_of_nonneg x1 fun i => (hx1 i).1, GS2.wrap_of_nonneg x2 fun i => (hx2 i).1]
  exact ref_msg_apply x1 x2 hx1 hx2 x3 _ rfl rfl rfl rfl _ rfl rfl rfl rfl rfl _ _ (val_main_v76 (F := Ideal))
    (fun i => by rw [val_main_v76_apply, val_main_cst_13_apply]; exact Ideal.ofBits_zero_f32) _ n j

theorem ref_v88_eq :
    val_main_v88 (F := Ideal) x0 x1 x2 x3 x4 x5 x6 x9
      = gate2 (val_main_v78 (F := Ideal) x0 x1 x2 x3 x4 x5 x6) x9 (val_main_v5 (F := Ideal) x1)
          (val_main_v56 (F := Ideal) x0 x1 x2 x3 x4 x5 x6) := rfl

theorem ref_v93_eq :
    @Eq (FVec Ideal S16384x64 .f32) (val_main_v93 (F := Ideal) x0 x1 x2 x3 x4 x5 x6 x7 x8 x9)
      (lin2 (mm (M := 16384) (K := 256) (N := 64) (val_main_v88 (F := Ideal) x0 x1 x2 x3 x4 x5 x6 x9)
        (transpose S256x64 [1, 0] x7 transposes_S64x256_S256x64_1_0)) x8) := by
  have h : val_main_v90 (F := Ideal) x0 x1 x2 x3 x4 x5 x6 x7 x9
      = mm (M := 16384) (K := 256) (N := 64) (val_main_v88 (F := Ideal) x0 x1 x2 x3 x4 x5 x6 x9)
          (transpose S256x64 [1, 0] x7 transposes_S64x256_S256x64_1_0) := by
    funext i
    obtain ⟨n, q, rfl⟩ : ∃ n q, i = ix2 n q := ⟨i 0, i 1, eq_ix2 i⟩
    rw [val_main_v90_apply, mm_apply]
    refine Finset.sum_congr rfl fun k _ => ?_
    have el : lidx_main_v90 (ix2 n q) k = ix2 n k := funext fun a => by match a with | ⟨0, _⟩ => rfl | ⟨1, _⟩ => rfl
    have er : ridx_main_v90 (ix2 n q) k = ix2 k q := funext fun a => by match a with | ⟨0, _⟩ => rfl | ⟨1, _⟩ => rfl
    rw [el, er]
    rfl
  unfold val_main_v93
  rw [h]
  rfl

theorem ref_v106_apply (n : Fin 16384) (q : Fin 64) :
    val_main_v106 (F := Ideal) x0 x1 x2 x3 x4 x5 x6 x7 x8 x9 (ix2 n q)
      = esum x1 hx1 (fun e => x3 (ix1 e)
          * val_main_v93 (F := Ideal) x0 x1 x2 x3 x4 x5 x6 x7 x8 x9 (ix2 (nodeOf x2 hx2 e) q)) n := by
  unfold val_main_v106 val_main_v103 val_main_v101 val_main_v100 val_main_v102 val_main_v94 val_main_v105 val_main_v99
    val_main_v96 val_main_v98 val_main_v95 val_main_v97 val_main_c_14 val_main_c_15
  rw [GS2.wrap_of_nonneg x2 fun i => (hx2 i).1]
  exact ref_out_apply x1 x2 hx1 hx2 x3 _ rfl rfl rfl rfl _ rfl rfl rfl rfl rfl _ _ (val_main_v104 (F := Ideal))
    (fun i => by rw [val_main_v104_apply, val_main_cst_16_apply]; exact Ideal.ofBits_zero_f32) _ n q

theorem ref_v107_eq :
    val_main_v107 (F := Ideal) x0 x1 x2 x3 x4 x5 x6 x7 x8 x9 = lsm2 (val_main_v106 (F := Ideal) x0 x1 x2 x3 x4 x5 x6 x7 x8 x9) := by
  unfold val_main_v107 val_main_call1_v10 val_main_call1_v9 val_main_call1_v8 val_main_call1_v7 val_main_call1_v6
    val_main_call1_v5 val_main_call1_v4 val_main_call1_v3 val_main_call1_v2 val_main_call1_v1 val_main_call1_v0
    val_main_call1_cst val_main_call1_cst_0 val_main_call1_cst_1 lsm2 shift2
  rfl

end Reference

variable (m : (ℓ : Loc nD τ sig) → Buf (Elt Ideal) ℓ) (c : Dev nD)

abbrev Untouched (r : Ref sig .tc) : Prop :=
  (∀ w, Pipeline.arrRef spec0 w ≠ r) ∧ r ∉ (hostOps1_W : List (Ref sig .tc)) ∧ (∀ w, Pipeline.arrRef spec1 w ≠ r) ∧
    r ∉ (hostOps2_W : List (Ref sig .tc)) ∧ (∀ w, Pipeline.arrRef spec2 w ≠ r) ∧ r ∉ (hostOps3_W : List (Ref sig .tc)) ∧
    r ∉ (hostOps3_1_W : List (Ref sig .tc)) ∧ ∀ w, Pipeline.arrRef spec3 w ≠ r

theorem W9_eq_W1 (r : Ref sig .tc) (h : Untouched r) : W9 m c (Proc.devRef .tc r) = W1 m c (Proc.devRef .tc r) :=
  (W9_of_ne m c r h.2.2.2.2.2.2.2).trans <|
    (StableHlo.after_of_writes_sub hostOps3_1 _ hostOps3_1_writes h.2.2.2.2.2.2.1).trans <|
    (StableHlo.after_of_writes_sub hostOps3 _ hostOps3_writes h.2.2.2.2.2.1).trans <|
    (W6_of_ne m c r h.2.2.2.2.1).trans <| (StableHlo.after_of_writes_sub hostOps2 _ hostOps2_writes h.2.2.2.1).trans <|
    (W4_of_ne m c r h.2.2.1).trans <| (StableHlo.after_of_writes_sub hostOps1 _ hostOps1_writes h.2.1).trans
      (W2_of_ne m c r h.1)

theorem W9_arg (r : Ref sig .tc) (hh : r ∉ (hostOps0_W : List (Ref sig .tc))) (h : Untouched r) :
    W9 m c (Proc.devRef .tc r) = m ((c : Thread nD τ).loc r) :=
  (W9_eq_W1 m c r h).trans (StableHlo.after_of_writes_sub hostOps0 _ hostOps0_writes hh)

theorem W8_v24 : W8 m c (Proc.devRef .tc main_v24) = W1 m c (Proc.devRef .tc main_v24) :=
  (StableHlo.after_of_writes_sub hostOps3_1 _ hostOps3_1_writes (by decide)).trans <|
    (StableHlo.after_of_writes_sub hostOps3 _ hostOps3_writes (by decide)).trans <|
    (W6_arr m c 0).trans <| ((dat2 (V5 m) c).arrAt_in 0 rfl _).trans <| (A_eq2 (V5 m) c 0).trans (W5_v24 m c)

abbrev hK : FVec Ideal S16384x256 .f32 := W7 m c (Proc.devRef .tc main_v58)
abbrev adjK : FVec Ideal S16384x16384 .bf16 := W1 m c (Proc.devRef .tc main_v24)

-- The kernel's squared-difference sum of the second layer.
def mK2 : FVec Ideal S16384x256 .f32 :=
  msgOf bcast_S_S16384x256 bcast_S16384_S16384x1_0 bcast_S16384x1_S16384x256_0_1 slices_S16384x512_S16384x256_0_0
    slices_S16384x512_S16384x256_0_256 (hK m c) (mulf (hK m c) (hK m c)) (W1 m c (Proc.devRef .tc main_v8))
    (mm (M := 16384) (K := 16384) (N := 512) (adjK m c)
      (catOf concatenates_S16384x256_S16384x256_S16384x512_d1 (hK m c)))

theorem W8_v58 : W8 m c (Proc.devRef .tc main_v58) = hK m c :=
  StableHlo.after_of_writes_sub hostOps3_1 _ hostOps3_1_writes (by decide)

theorem W9_v62 (hfin3 : Fin3) :
    @Eq (FVec Ideal S16384x512 .f32) (W9 m c (Proc.devRef .tc main_v62))
      (mm (M := 16384) (K := 16384) (N := 512) (adjK m c)
        (catOf concatenates_S16384x256_S16384x256_S16384x512_d1 (hK m c))) :=
  ((W9_arr m c 2).trans (hfin3 (V8 m) c)).trans
    (congr (congrArg (mm (M := 16384) (K := 16384) (N := 512)) (W8_v24 m c)) (by
      show StableHlo.after hostOps3_1 (W7 m c) _ = _
      after_results_simp
      simp only [cat2_fold]
      after_results_simp
      rfl))

theorem W10_v83 (hfin3 : Fin3) :
    @Eq (FVec Ideal S16384x256 .bf16) (W10 m c (Proc.devRef .tc main_v83))
      (gate2 (mK2 m c) (a9 m c) (W1 m c (Proc.devRef .tc main_v5)) (hK m c)) := by
  have h59 : @Eq (FVec Ideal S16384x256 .f32) (W9 m c (Proc.devRef .tc main_v59)) (mulf (hK m c) (hK m c)) :=
    (W9_of_ne m c main_v59 (by decide)).trans (by
      show StableHlo.after hostOps3_1 (W7 m c) _ = _
      after_results_simp
      rfl)
  show StableHlo.after hostOps4 (W9 m c) _ = _
  after_results_simp
  rw [W9_v62 m c hfin3, h59, (W9_of_ne m c main_v58 (by decide)).trans (W8_v58 m c), W9_eq_W1 m c main_v8 (by decide),
    W9_eq_W1 m c main_v5 (by decide), W9_arg m c main_arg9 (by decide) (by decide)]
  rfl

theorem W10_v85 : @Eq (FVec Ideal S256x64 .bf16) (W10 m c (Proc.devRef .tc main_v85))
    (transpose S256x64 [1, 0] (a7 m c) transposes_S64x256_S256x64_1_0) := by
  show StableHlo.after hostOps4 (W9 m c) _ = _
  after_results_simp
  rw [W9_arg m c main_arg7 (by decide) (by decide)]
  rfl

theorem W11_v86 (hfin4 : Fin4) :
    @Eq (FVec Ideal S16384x64 .f32) (W11 m c (Proc.devRef .tc main_v86))
      (mm (M := 16384) (K := 256) (N := 64) (W10 m c (Proc.devRef .tc main_v83)) (W10 m c (Proc.devRef .tc main_v85))) :=
  (W11_arr m c 2).trans (hfin4 (V10 m) c)

theorem W12_v90 :
    @Eq (FVec Ideal S16384x64 .bf16) (W12 m c (Proc.devRef .tc main_v90)) (lin2 (W11 m c (Proc.devRef .tc main_v86)) (a8 m c)) := by
  show StableHlo.after hostOps5 (W11 m c) _ = _
  after_results_simp
  rw [(W11_of_ne m c main_arg8 (by decide)).trans <|
    (StableHlo.after_of_writes_sub hostOps4 _ hostOps4_writes (by decide)).trans
      (W9_arg m c main_arg8 (by decide) (by decide))]
  rfl

theorem W13_v91 (hfin5 : Fin5) :
    @Eq (FVec Ideal S16384x64 .f32) (W13 m c (Proc.devRef .tc main_v91))
      (mm (M := 16384) (K := 16384) (N := 64) (adjK m c) (W12 m c (Proc.devRef .tc main_v90))) :=
  ((W13_arr m c 2).trans (hfin5 (V12 m) c)).trans
    (congrArg (fun a => mm (M := 16384) (K := 16384) (N := 64) a (W12 m c (Proc.devRef .tc main_v90)))
      ((StableHlo.after_of_writes_sub hostOps5 _ hostOps5_writes (by decide)).trans <|
        (W11_of_ne m c main_v24 (by decide)).trans <|
        (StableHlo.after_of_writes_sub hostOps4 _ hostOps4_writes (by decide)).trans <|
        (W9_arr m c 0).trans <| ((dat3 (V8 m) c).arrAt_in 0 rfl _).trans <| (A_eq3 (V8 m) c 0).trans (W8_v24 m c)))

theorem W14_v92 :
    @Eq (FVec Ideal S16384x64 .f32) (W14 m c (Proc.devRef .tc main_v92)) (lsm2 (W13 m c (Proc.devRef .tc main_v91))) := by
  show StableHlo.after hostOps6 (W13 m c) _ = _
  after_results
  simp only [ofBuf_toBuf]
  rfl

theorem F_out (H : HypAt m c) (hfin0 : Fin0) (hfin1 : Fin1) (hfin2 : Fin2) (hfin3 : Fin3) (hfin4 : Fin4) (hfin5 : Fin5) :
    W14 m c (Proc.devRef .tc main_v92)
      = val_main_v107 (F := Ideal) (a0 m c) (a1 m c) (a2 m c) (a3 m c) (a4 m c) (a5 m c) (a6 m c) (a7 m c) (a8 m c) (a9 m c) := by
  have hh1 := F_h1 m c H hfin0 hfin1 hfin2
  have hh1r := F_h1_real m c H
  have hx1 := src_lt m c H
  have hx2 := tgt_lt m c H
  have hreal78 : IsReal (val_main_v78 (F := Ideal) (a0 m c) (a1 m c) (a2 m c) (a3 m c) (a4 m c) (a5 m c) (a6 m c)) := fun i => by
    obtain ⟨n, j, rfl⟩ : ∃ n j, i = ix2 n j := ⟨i 0, i 1, eq_ix2 i⟩
    rw [ref_v78_apply _ _ _ _ _ _ _ hx1 hx2]
    exact esum_real _ _ _ (sqd_real _ _ _ _ _ H.w_real _ hh1r j) n
  have hreal88 : IsReal (val_main_v88 (F := Ideal) (a0 m c) (a1 m c) (a2 m c) (a3 m c) (a4 m c) (a5 m c) (a6 m c) (a9 m c)) := by
    rw [ref_v88_eq]
    exact gateOf_real _ _ _ _ _ _ _ _ hreal78 H.σ2_real H.σ2_ne (deg_real _) hh1r
  have hreal93 : IsReal (val_main_v93 (F := Ideal) (a0 m c) (a1 m c) (a2 m c) (a3 m c) (a4 m c) (a5 m c) (a6 m c) (a7 m c) (a8 m c) (a9 m c)) := by
    rw [ref_v93_eq]
    exact linOf_real _ _ _ _ _ _ hreal88 H.W2_real H.b2_real
  have hmsg : mK2 m c = val_main_v78 (F := Ideal) (a0 m c) (a1 m c) (a2 m c) (a3 m c) (a4 m c) (a5 m c) (a6 m c) := by
    funext i
    obtain ⟨n, j, rfl⟩ : ∃ n j, i = ix2 n j := ⟨i 0, i 1, eq_ix2 i⟩
    unfold mK2
    rw [show hK m c = _ from hh1,
      msg_kernel _ _ _ _ _ _ (a1 m c) (a2 m c) hx1 hx2 (a3 m c) H.w_real _ _ (F_s0 m c) (F_adj m c H) rfl _ hh1r n j,
      ref_v78_apply _ _ _ _ _ _ _ hx1 hx2]
  rw [W14_v92, ref_v107_eq]
  refine congrArg lsm2 ?_
  rw [W13_v91 m c hfin5, W12_v90, W11_v86 m c hfin4, W10_v83 m c hfin3, W10_v85, hmsg, F_deg, show hK m c = _ from hh1,
    ← ref_v88_eq, ← ref_v93_eq]
  funext i
  obtain ⟨n, q, rfl⟩ : ∃ n q, i = ix2 n q := ⟨i 0, i 1, eq_ix2 i⟩
  rw [out_kernel (a1 m c) (a2 m c) hx1 hx2 (a3 m c) H.w_real _ (F_adj m c H) _ hreal93 n q, ref_v106_apply _ _ _ _ _ _ _ _ _ _ hx1 hx2]

end L2
end Cert.Bridge
end
-- ==== Proof.lean ====
/- A two-layer masked graph convolution. The kernel builds the weighted adjacency matrix A once and replaces each
   per-edge gather and segment sum of the reference by a product with A: the weighted squared differences along the
   edges out of a node are x²·S0 − 2x·(A x) + A x², by the distributive law of the reals, which is where the inputs'
   being real, the endpoints' being nodes and the feature scales' being nonzero are used. -/
import proofs.«401501_j17162689315356_1_alg».proof.Defs
import proofs.«401501_j17162689315356_1_alg».proof.Proof.Gen.Kernel
import proofs.«401501_j17162689315356_1_alg».proof.Proof.Gen.KernelIdeal
import proofs.«401501_j17162689315356_1_alg».proof.Proof.Gen.ReferenceIdeal
import proofs.«401501_j17162689315356_1_alg».proof.Proof.Gen.Pre_finite_inputs
import proofs.«401501_j17162689315356_1_alg».proof.Proof.K.Run
import proofs.«401501_j17162689315356_1_alg».proof.Proof.KI.Run
import proofs.«401501_j17162689315356_1_alg».proof.Proof.KI.V0
import proofs.«401501_j17162689315356_1_alg».proof.Proof.KI.V1
import proofs.«401501_j17162689315356_1_alg».proof.Proof.KI.V2
import proofs.«401501_j17162689315356_1_alg».proof.Proof.KI.V3
import proofs.«401501_j17162689315356_1_alg».proof.Proof.KI.V4
import proofs.«401501_j17162689315356_1_alg».proof.Proof.KI.V5
import proofs.«401501_j17162689315356_1_alg».proof.Proof.RefRun
import proofs.«401501_j17162689315356_1_alg».proof.Proof.RefRead
import proofs.«401501_j17162689315356_1_alg».proof.Proof.RefEq
import proofs.«401501_j17162689315356_1_alg».proof.Proof.PreRead
import proofs.«401501_j17162689315356_1_alg».proof.Proof.Bridge.L2
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- On the claim's domain the kernel's result buffer holds the reference's last stage of the same arguments. -/
theorem result_eq (m : (ℓ : Loc Cert.KernelIdeal.nD Cert.KernelIdeal.τ Cert.KernelIdeal.sig) → Buf (Elt Ideal) ℓ)
    (c : Dev Cert.KernelIdeal.nD) (hp : Cert.Pre_KernelIdeal m) :
    Cert.KernelIdeal.Hand.W14 m c (Proc.devRef .tc Cert.KernelIdeal.main_v92)
      = Cert.ReferenceIdeal.Read.val_main_v107 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6))
          (m ((c.tc : Thread Cert.KernelIdeal.nD Cert.KernelIdeal.τ).loc Cert.KernelIdeal.main_arg7))
          (m ((c.tc : Thread Cert.KernelIdeal.nD Cert.KernelIdeal.τ).loc Cert.KernelIdeal.main_arg8))
          (m ((c.tc : Thread Cert.KernelIdeal.nD Cert.KernelIdeal.τ).loc Cert.KernelIdeal.main_arg9)) :=
  Cert.Bridge.L2.F_out m c (Cert.PreRead.hyp_of_pre _ _ _ _ _ _ _ _ _ _ (hp c)) Cert.KernelIdeal.Hand.final0
    Cert.KernelIdeal.Hand.final1 Cert.KernelIdeal.Hand.final2 Cert.KernelIdeal.Hand.final3 Cert.KernelIdeal.Hand.final4
    Cert.KernelIdeal.Hand.final5

theorem algebraic : Cert.algebraic_KernelIdeal_ReferenceIdeal := by
  intro m ρ m' ρ' hpre hagree
  refine ⟨fun c => Cert.KernelIdeal.Hand.W14 m c (Proc.devRef .tc Cert.KernelIdeal.main_v92),
    Cert.KernelIdeal.Hand.result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9⟩ := hagree c
  rw [Cert.ReferenceIdeal.Read.val_main_v107_eq m' c, h0, h1, h2, h3, h4, h5, h6, h7, h8, h9]
  exact (result_eq m c hpre).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
